-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x32 : Shape := ⟨2, ![1600000, 32]⟩
abbrev S100000 : Shape := ⟨1, ![100000]⟩
abbrev S128x64 : Shape := ⟨2, ![128, 64]⟩
abbrev S64 : Shape := ⟨1, ![64]⟩
abbrev S32x64 : Shape := ⟨2, ![32, 64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S32x1 .f32) (main_arg17 : FVec F S1 .f32) (main_v63 : IVec S_ 1) (main_v67 : IVec S_ 1) : IVec S_ 1 :=
  let main_v68 : IVec S_ 1 := andi main_v63 main_v67
  let main_v69 : FVec F S32x1 .f32 := Host.absf main_arg16
  let main_cst_26 : FVec F S_ .f32 := constant S_ .f32 0x7F800000#32
  let main_v70 : FVec F S32x1 .f32 := broadcastInDim S32x1 ![] bcast_S_S32x1 main_cst_26
  let main_v71 : IVec S32x1 1 := cmpf .olt main_v69 main_v70
  let main_c_27 : IVec S_ 1 := constantI S_ 1 1#1
  let main_v72 : IVec S_ 1 := (fun x v => Host.reduce IntOp.andi x v reducesTo_S32x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S64 .f32) (main_arg14 : FVec F S64x32 .f32) (main_arg15 : FVec F S32 .f32) (main_arg16 : FVec F S32x1 .f32) (main_arg17 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x32 .f32 := Host.absf main_arg14
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg16 main_arg17 main_v63 main_v67

def fn_part2 {F : FTy → Type} [FloatOps F] (main_arg9 : FVec F S64 .f32) (main_arg10 : FVec F S64x64 .f32) (main_arg11 : FVec F S64 .f32) (main_arg12 : FVec F S64x64 .f32) (main_arg13 : FVec F S64 .f32) (main_arg14 : FVec F S64x32 .f32) (main_arg15 : FVec F S32 .f32) (main_arg16 : FVec F S32x1 .f32) (main_arg17 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_arg17 main_v48 main_v49 main_v50

def fn_part1 {F : FTy → Type} [FloatOps F] (main_arg6 : FVec F S32x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x32 .f32) (main_arg15 : FVec F S32 .f32) (main_arg16 : FVec F S32x1 .f32) (main_arg17 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg6
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x128 .f32) (main_arg1 : IVec S2x1600000 32) (main_arg2 : FVec F S1600000x32 .f32) (main_arg3 : IVec S100000 32) (main_arg4 : FVec F S128x64 .f32) (main_arg5 : FVec F S64 .f32) (main_arg6 : FVec F S32x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x32 .f32) (main_arg15 : FVec F S32 .f32) (main_arg16 : FVec F S32x1 .f32) (main_arg17 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x1600000 : Shape := ⟨2, ![2, 1600000]⟩
abbrev S1600000x32 : Shape := ⟨2, ![1600000, 32]⟩
abbrev S100000 : Shape := ⟨1, ![100000]⟩
abbrev S128x64 : Shape := ⟨2, ![128, 64]⟩
abbrev S64 : Shape := ⟨1, ![64]⟩
abbrev S32x64 : Shape := ⟨2, ![32, 64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S8000x32 : Shape := ⟨2, ![8000, 32]⟩
abbrev S8000x64 : Shape := ⟨2, ![8000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1700000 : Shape := ⟨1, ![1700000]⟩
abbrev S1700000x1 : Shape := ⟨2, ![1700000, 1]⟩
abbrev S100000x1 : Shape := ⟨2, ![100000, 1]⟩
abbrev S4000x64 : Shape := ⟨2, ![4000, 64]⟩
abbrev S4000x1 : Shape := ⟨2, ![4000, 1]⟩
abbrev S1700000x64 : Shape := ⟨2, ![1700000, 64]⟩
abbrev S512x64 : Shape := ⟨2, ![512, 64]⟩
abbrev S512x1 : Shape := ⟨2, ![512, 1]⟩
abbrev S2000x64 : Shape := ⟨2, ![2000, 64]⟩
abbrev S2000x1 : Shape := ⟨2, ![2000, 1]⟩
abbrev S2000x512 : Shape := ⟨2, ![2000, 512]⟩
abbrev S512x2000 : Shape := ⟨2, ![512, 2000]⟩
abbrev S1x32 : Shape := ⟨2, ![1, 32]⟩
abbrev S1x1 : Shape := ⟨2, ![1, 1]⟩
abbrev S512x32 : Shape := ⟨2, ![512, 32]⟩
abbrev S512 : Shape := ⟨1, ![512]⟩

abbrev nBuf : Space → Nat
  | .hbm => 123
  | .vmem => 55
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S100000, .i32⟩
  | .hbm, ⟨4, _⟩ => ⟨S128x64, .f32⟩
  | .hbm, ⟨5, _⟩ => ⟨S64, .f32⟩
  | .hbm, ⟨6, _⟩ => ⟨S32x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x32, .f32⟩
  | .hbm, ⟨15, _⟩ => ⟨S32, .f32⟩
  | .hbm, ⟨16, _⟩ => ⟨S32x1, .f32⟩
  | .hbm, ⟨17, _⟩ => ⟨S1, .f32⟩
  | .hbm, ⟨18, _⟩ => ⟨S1x64, .f32⟩
  | .hbm, ⟨19, _⟩ => ⟨S100000x64, .f32⟩
  | .hbm, ⟨20, _⟩ => ⟨S1x64, .f32⟩
  | .hbm, ⟨21, _⟩ => ⟨S1600000x64, .bf16⟩
  | .hbm, ⟨22, _⟩ => ⟨S1600000x64, .f32⟩
  | .hbm, ⟨23, _⟩ => ⟨S1x1600000, .i32⟩
  | .hbm, ⟨24, _⟩ => ⟨S1600000, .i32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S100000x64, .f32⟩
  | .hbm, ⟨30, _⟩ => ⟨S100000, .i32⟩
  | .hbm, ⟨31, _⟩ => ⟨S1x1600000, .i32⟩
  | .hbm, ⟨32, _⟩ => ⟨S1600000, .i32⟩
  | .hbm, ⟨33, _⟩ => ⟨S1700000, .i32⟩
  | .hbm, ⟨34, _⟩ => ⟨S1x1600000, .i32⟩
  | .hbm, ⟨35, _⟩ => ⟨S1600000, .i32⟩
  | .hbm, ⟨36, _⟩ => ⟨S1700000, .i32⟩
  | .hbm, ⟨37, _⟩ => ⟨S_, .f32⟩
  | .hbm, ⟨38, _⟩ => ⟨S1700000, .f32⟩
  | .hbm, ⟨39, _⟩ => ⟨S_, .f32⟩
  | .hbm, ⟨40, _⟩ => ⟨S100000, .f32⟩
  | .hbm, ⟨41, _⟩ => ⟨S1700000x1, .i32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .i1⟩
  | .hbm, ⟨46, _⟩ => ⟨S_, .f32⟩
  | .hbm, ⟨47, _⟩ => ⟨S100000, .f32⟩
  | .hbm, ⟨48, _⟩ => ⟨S100000, .f32⟩
  | .hbm, ⟨49, _⟩ => ⟨S100000, .f32⟩
  | .hbm, ⟨50, _⟩ => ⟨S_, .f32⟩
  | .hbm, ⟨51, _⟩ => ⟨S_, .f32⟩
  | .hbm, ⟨52, _⟩ => ⟨S100000, .f32⟩
  | .hbm, ⟨53, _⟩ => ⟨S100000, .f32⟩
  | .hbm, ⟨54, _⟩ => ⟨S100000x1, .f32⟩
  | .hbm, ⟨55, _⟩ => ⟨S100000x64, .bf16⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x64, .bf16⟩
  | .hbm, ⟨65, _⟩ => ⟨S1700000x64, .f32⟩
  | .hbm, ⟨66, _⟩ => ⟨S_, .f32⟩
  | .hbm, ⟨67, _⟩ => ⟨S100000x64, .f32⟩
  | .hbm, ⟨68, _⟩ => ⟨S1700000x1, .i32⟩
  | .hbm, ⟨69, _⟩ => ⟨S100000x64, .f32⟩
  | .hbm, ⟨70, _⟩ => ⟨S1x64, .f32⟩
  | .hbm, ⟨71, _⟩ => ⟨S100000x64, .bf16⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .bf16⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .bf16⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x64, .bf16⟩
  | .hbm, ⟨97, _⟩ => ⟨S1700000x64, .f32⟩
  | .hbm, ⟨98, _⟩ => ⟨S_, .f32⟩
  | .hbm, ⟨99, _⟩ => ⟨S100000x64, .f32⟩
  | .hbm, ⟨100, _⟩ => ⟨S1700000x1, .i32⟩
  | .hbm, ⟨101, _⟩ => ⟨S100000x64, .f32⟩
  | .hbm, ⟨102, _⟩ => ⟨S100000x1, .i32⟩
  | .hbm, ⟨103, _⟩ => ⟨S512x64, .f32⟩
  | .hbm, ⟨104, _⟩ => ⟨S512x1, .f32⟩
  | .hbm, ⟨105, _⟩ => ⟨S_, .f32⟩
  | .hbm, ⟨106, _⟩ => ⟨S512x1, .f32⟩
  | .hbm, ⟨107, _⟩ => ⟨S512x1, .i1⟩
  | .hbm, ⟨108, _⟩ => ⟨S512x1, .f32⟩
  | .hbm, ⟨109, _⟩ => ⟨S_, .f32⟩
  | .hbm, ⟨110, _⟩ => ⟨S512x1, .f32⟩
  | .hbm, ⟨111, _⟩ => ⟨S512x1, .f32⟩
  | .hbm, ⟨112, _⟩ => ⟨S512x64, .f32⟩
  | .hbm, ⟨113, _⟩ => ⟨S512x64, .f32⟩
  | .hbm, ⟨114, _⟩ => ⟨S1x64, .f32⟩
  | .hbm, ⟨115, _⟩ => ⟨S512x64, .f32⟩
  | .hbm, ⟨116, _⟩ => ⟨S512x64, .f32⟩
  | .hbm, ⟨117, _⟩ => ⟨S512x64, .f32⟩
  | .hbm, ⟨118, _⟩ => ⟨S512x64, .f32⟩
  | .hbm, ⟨119, _⟩ => ⟨S1x32, .f32⟩
  | .hbm, ⟨120, _⟩ => ⟨S1x1, .f32⟩
  | .hbm, ⟨121, _⟩ => ⟨S512x1, .f32⟩
  | .hbm, ⟨122, _⟩ => ⟨S512, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S8000x32, .f32⟩
  | .local _ .vmem, ⟨7, _⟩ => ⟨S8000x32, .f32⟩
  | .local _ .vmem, ⟨8, _⟩ => ⟨S32x64, .f32⟩
  | .local _ .vmem, ⟨9, _⟩ => ⟨S1x64, .f32⟩
  | .local _ .vmem, ⟨10, _⟩ => ⟨S8000x64, .bf16⟩
  | .local _ .vmem, ⟨11, _⟩ => ⟨S8000x64, .bf16⟩
  | .local _ .vmem, ⟨12, _⟩ => ⟨S4000x64, .f32⟩
  | .local _ .vmem, ⟨13, _⟩ => ⟨S4000x64, .f32⟩
  | .local _ .vmem, ⟨14, _⟩ => ⟨S64x64, .f32⟩
  | .local _ .vmem, ⟨15, _⟩ => ⟨S4000x1, .f32⟩
  | .local _ .vmem, ⟨16, _⟩ => ⟨S4000x1, .f32⟩
  | .local _ .vmem, ⟨17, _⟩ => ⟨S4000x64, .bf16⟩
  | .local _ .vmem, ⟨18, _⟩ => ⟨S4000x64, .bf16⟩
  | .local _ .vmem, ⟨19, _⟩ => ⟨S4000x64, .f32⟩
  | .local _ .vmem, ⟨20, _⟩ => ⟨S4000x64, .f32⟩
  | .local _ .vmem, ⟨21, _⟩ => ⟨S64x64, .f32⟩
  | .local _ .vmem, ⟨22, _⟩ => ⟨S4000x1, .f32⟩
  | .local _ .vmem, ⟨23, _⟩ => ⟨S4000x1, .f32⟩
  | .local _ .vmem, ⟨24, _⟩ => ⟨S1x64, .f32⟩
  | .local _ .vmem, ⟨25, _⟩ => ⟨S4000x1, .f32⟩
  | .local _ .vmem, ⟨26, _⟩ => ⟨S4000x1, .f32⟩
  | .local _ .vmem, ⟨27, _⟩ => ⟨S4000x64, .bf16⟩
  | .local _ .vmem, ⟨28, _⟩ => ⟨S4000x64, .bf16⟩
  | .local _ .vmem, ⟨29, _⟩ => ⟨S4000x64, .f32⟩
  | .local _ .vmem, ⟨30, _⟩ => ⟨S4000x64, .f32⟩
  | .local _ .vmem, ⟨31, _⟩ => ⟨S64x64, .f32⟩
  | .local _ .vmem, ⟨32, _⟩ => ⟨S4000x1, .f32⟩
  | .local _ .vmem, ⟨33, _⟩ => ⟨S4000x1, .f32⟩
  | .local _ .vmem, ⟨34, _⟩ => ⟨S1x64, .f32⟩
  | .local _ .vmem, ⟨35, _⟩ => ⟨S4000x1, .f32⟩
  | .local _ .vmem, ⟨36, _⟩ => ⟨S4000x1, .f32⟩
  | .local _ .vmem, ⟨37, _⟩ => ⟨S4000x64, .bf16⟩
  | .local _ .vmem, ⟨38, _⟩ => ⟨S4000x64, .bf16⟩
  | .local _ .vmem, ⟨39, _⟩ => ⟨S2000x64, .f32⟩
  | .local _ .vmem, ⟨40, _⟩ => ⟨S2000x64, .f32⟩
  | .local _ .vmem, ⟨41, _⟩ => ⟨S2000x1, .f32⟩
  | .local _ .vmem, ⟨42, _⟩ => ⟨S2000x1, .f32⟩
  | .local _ .vmem, ⟨43, _⟩ => ⟨S2000x1, .i32⟩
  | .local _ .vmem, ⟨44, _⟩ => ⟨S2000x1, .i32⟩
  | .local _ .vmem, ⟨45, _⟩ => ⟨S512x64, .f32⟩
  | .local _ .vmem, ⟨46, _⟩ => ⟨S512x1, .f32⟩
  | .local _ .vmem, ⟨47, _⟩ => ⟨S512x64, .f32⟩
  | .local _ .vmem, ⟨48, _⟩ => ⟨S512x1, .f32⟩
  | .local _ .vmem, ⟨49, _⟩ => ⟨S512x64, .f32⟩
  | .local _ .vmem, ⟨50, _⟩ => ⟨S64x32, .f32⟩
  | .local _ .vmem, ⟨51, _⟩ => ⟨S1x32, .f32⟩
  | .local _ .vmem, ⟨52, _⟩ => ⟨S32x1, .f32⟩
  | .local _ .vmem, ⟨53, _⟩ => ⟨S1x1, .f32⟩
  | .local _ .vmem, ⟨54, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_0 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_call0_v0 : Ref sig .tc := ⟨.hbm, 51, rfl⟩
abbrev main_call0_v1 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c : Ref sig .tc := ⟨.hbm, 56, rfl⟩
abbrev main_v30 : Ref sig .tc := ⟨.hbm, 57, rfl⟩
abbrev main_v31 : Ref sig .tc := ⟨.hbm, 58, rfl⟩
abbrev main_c_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_7 : Ref sig .tc := ⟨.hbm, 72, rfl⟩
abbrev main_v43 : Ref sig .tc := ⟨.hbm, 73, rfl⟩
abbrev main_v44 : Ref sig .tc := ⟨.hbm, 74, rfl⟩
abbrev main_c_8 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_9 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_10 : Ref sig .tc := ⟨.hbm, 88, rfl⟩
abbrev main_v56 : Ref sig .tc := ⟨.hbm, 89, rfl⟩
abbrev main_v57 : Ref sig .tc := ⟨.hbm, 90, rfl⟩
abbrev main_c_11 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_12 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68_0 : Ref sig .tc := ⟨.hbm, 103, rfl⟩
abbrev main_v68_1 : Ref sig .tc := ⟨.hbm, 104, rfl⟩
abbrev main_cst_13 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_14 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg4_1 : Ref sig .tc := ⟨.vmem, 26, rfl⟩
abbrev cc3_stg5_0 : Ref sig .tc := ⟨.vmem, 27, rfl⟩
abbrev cc3_stg5_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg4_1 : Ref sig .tc := ⟨.vmem, 36, rfl⟩
abbrev cc4_stg5_0 : Ref sig .tc := ⟨.vmem, 37, rfl⟩
abbrev cc4_stg5_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc5_stg3_0 : Ref sig .tc := ⟨.vmem, 45, rfl⟩
abbrev cc5_stg4_0 : Ref sig .tc := ⟨.vmem, 46, rfl⟩
abbrev cc5_scratch0 : Ref sig .tc := ⟨.vmem, 47, rfl⟩
abbrev cc5_scratch1 : Ref sig .tc := ⟨.vmem, 48, rfl⟩
abbrev cc6_stg0_0 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem4_0 : DmaSem sig := 25
abbrev cc3_sem4_1 : DmaSem sig := 26
abbrev cc3_sem5_0 : DmaSem sig := 27
abbrev cc3_sem5_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem2_1 : DmaSem sig := 33
abbrev cc4_sem3_0 : DmaSem sig := 34
abbrev cc4_sem4_0 : DmaSem sig := 35
abbrev cc4_sem4_1 : DmaSem sig := 36
abbrev cc4_sem5_0 : DmaSem sig := 37
abbrev cc4_sem5_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc5_sem3_0 : DmaSem sig := 45
abbrev cc5_sem4_0 : DmaSem sig := 46
abbrev cc6_sem0_0 : DmaSem sig := 47
abbrev cc6_sem1_0 : DmaSem sig := 48
abbrev cc6_sem2_0 : DmaSem sig := 49
abbrev cc6_sem3_0 : DmaSem sig := 50
abbrev cc6_sem4_0 : DmaSem sig := 51
abbrev cc6_sem5_0 : DmaSem sig := 52

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S4000x64 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4000x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S4000x64 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .i32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S512x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S512x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S512x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S8000x32_S8000x32_0_0 : ∀ a, (![0, 0] : Fin 2 → Nat) a + S8000x32.size a ≤ S8000x32.size a
  h_S8000x32 : 0 < S8000x32.numel
  inb_S32x64_S32x64_0_0 : ∀ a, (![0, 0] : Fin 2 → Nat) a + S32x64.size a ≤ S32x64.size a
  h_S32x64 : 0 < S32x64.numel
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  packedbf16_S8000x64_S8000x64_0_0 : (Rect.unit (s := S8000x64) ![0, 0] S8000x64.size inb_S8000x64_S8000x64_0_0).PackedRows (EltTy.packing .bf16)
  slices_S2x1600000_S1x1600000_0_0 : S2x1600000.Slices ![0, 0] S1x1600000
  shapeCasts_S1x1600000_S1600000 : S1x1600000.ShapeCasts S1600000
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  packedbf16_S4000x64_S4000x64_0_0 : (Rect.unit (s := S4000x64) ![0, 0] S4000x64.size inb_S4000x64_S4000x64_0_0).PackedRows (EltTy.packing .bf16)
  broadcasts_S1x64_S4000x64 : S1x64.Broadcasts S4000x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  transposes_S2000x512_p1_0_S512x2000 : S2000x512.Transposes [1, 0] S512x2000
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S2000x1_S2000x64 : S2000x1.Broadcasts S2000x64
  bcast_S_S512x1 : S_.BroadcastsInDim S512x1 (![] : Fin 0 → Fin S512x1.rank)
  bcast_S512x1_S512x64_0_1 : S512x1.BroadcastsInDim S512x64 (![0, 1] : Fin 2 → Fin S512x64.rank)
  bcast_S1x64_S512x64_0_1 : S1x64.BroadcastsInDim S512x64 (![0, 1] : Fin 2 → Fin S512x64.rank)
  shapeCasts_S32_S1x32 : S32.ShapeCasts S1x32
  shapeCasts_S1_S1x1 : S1.ShapeCasts S1x1
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  shapeCasts_S512x1_S512 : S512x1.ShapeCasts S512
  dot_S5000x128_S128x64_S5000x64_1_0_0_1_n_n_wf : DotDims.WF S5000x128 S128x64 S5000x64 [1] [0] [0] [1] [] []
  dot_S8000x32_S32x64_S8000x64_1_0_0_1_n_n_wf : DotDims.WF S8000x32 S32x64 S8000x64 [1] [0] [0] [1] [] []
  scatter_S100000x64_S1600000x1_S1600000x64_1_0_0_1_wf : ScatterDims.WF S100000x64 S1600000x1 S1600000x64 [1] [0] [0] 1
  scatter_S100000_S1700000x1_S1700000_n_0_0_1_wf : ScatterDims.WF S100000 S1700000x1 S1700000 [] [0] [0] 1
  dot_S4000x64_S64x64_S4000x64_1_0_0_1_n_n_wf : DotDims.WF S4000x64 S64x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S512x2000_S2000x64_S512x64_1_0_0_1_n_n_wf : DotDims.WF S512x2000 S2000x64 S512x64 [1] [0] [0] [1] [] []
  dot_S512x2000_S2000x1_S512x1_1_0_0_1_n_n_wf : DotDims.WF S512x2000 S2000x1 S512x1 [1] [0] [0] [1] [] []
  dot_S512x64_S64x32_S512x32_1_0_0_1_n_n_wf : DotDims.WF S512x64 S64x32 S512x32 [1] [0] [0] [1] [] []
  dot_S512x32_S32x1_S512x1_1_0_0_1_n_n_wf : DotDims.WF S512x32 S32x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S1600000x32.size a
  hwx1_0 : ∀ i : grid1.Coords, EltTy.bits .f32 = 32 ∨ (Rect.block (s := S1600000x32) S8000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x64.size a ≤ S32x64.size a
  hwx1_1 : ∀ i : grid1.Coords, EltTy.bits .f32 = 32 ∨ (Rect.block (s := S32x64) S32x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x64.size a ≤ S1600000x64.size a
  hwx1_3 : ∀ i : grid1.Coords, EltTy.bits .bf16 = 32 ∨ (Rect.block (s := S1600000x64) S8000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .bf16 = 32 ∨ (Rect.block (s := S100000x64) S4000x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x1.size a ≤ S100000x1.size a
  hwx3_4 : ∀ i : grid3.Coords, EltTy.bits .f32 = 32 ∨ (Rect.block (s := S100000x1) S4000x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x64.size a ≤ S100000x64.size a
  hwx3_5 : ∀ i : grid3.Coords, EltTy.bits .bf16 = 32 ∨ (Rect.block (s := S100000x64) S4000x64.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .f32 = 32 ∨ (Rect.block (s := S100000x64) S4000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x1.size a ≤ S100000x1.size a
  hwx4_2 : ∀ i : grid4.Coords, EltTy.bits .f32 = 32 ∨ (Rect.block (s := S100000x1) S4000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x1.size a ≤ S100000x1.size a
  hwx4_4 : ∀ i : grid4.Coords, EltTy.bits .f32 = 32 ∨ (Rect.block (s := S100000x1) S4000x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x64.size a ≤ S100000x64.size a
  hwx4_5 : ∀ i : grid4.Coords, EltTy.bits .bf16 = 32 ∨ (Rect.block (s := S100000x64) S4000x64.size (cc4_transform_5 i) (hinb4_5 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .f32 = 32 ∨ (Rect.block (s := S100000x1) S2000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S100000x1.size a
  hwx5_2 : ∀ i : grid5.Coords, EltTy.bits .i32 = 32 ∨ (Rect.block (s := S100000x1) S2000x1.size (cc5_transform_2 i) (hinb5_2 i)).WholeWords (EltTy.packing .i32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S512x64.size a ≤ S512x64.size a
  hwx5_3 : ∀ i : grid5.Coords, EltTy.bits .f32 = 32 ∨ (Rect.block (s := S512x64) S512x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S512x1.size a ≤ S512x1.size a
  hwx5_4 : ∀ i : grid5.Coords, EltTy.bits .f32 = 32 ∨ (Rect.block (s := S512x1) S512x1.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x64.size a ≤ S512x64.size a
  hwx6_0 : ∀ i : grid6.Coords, EltTy.bits .f32 = 32 ∨ (Rect.block (s := S512x64) S512x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x1.size a ≤ S32x1.size a
  hwx6_3 : ∀ i : grid6.Coords, EltTy.bits .f32 = 32 ∨ (Rect.block (s := S32x1) S32x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S512x1.size a ≤ S512x1.size a
  hwx6_5 : ∀ i : grid6.Coords, EltTy.bits .f32 = 32 ∨ (Rect.block (s := S512x1) S512x1.size (cc6_transform_5 i) (hinb6_5 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S512x2000_S2000x64_S512x64_1_0_0_1_n_n : DotDims S512x2000 S2000x64 S512x64 where
  lhsContracting := [1]
  rhsContracting := [0]
  lhsNonContracting := [0]
  rhsNonContracting := [1]
  lhsBatch := []
  rhsBatch := []
  wf := dot_S512x2000_S2000x64_S512x64_1_0_0_1_n_n_wf
def dot_S512x2000_S2000x1_S512x1_1_0_0_1_n_n : DotDims S512x2000 S2000x1 S512x1 where
  lhsContracting := [1]
  rhsContracting := [0]
  lhsNonContracting := [0]
  rhsNonContracting := [1]
  lhsBatch := []
  rhsBatch := []
  wf := dot_S512x2000_S2000x1_S512x1_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S32x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S8000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S4000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v28) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v41) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v28) S4000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v42) S4000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v53) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v28) S4000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v54) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v28) S4000x1.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v55) S4000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v66) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v28) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v67) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v68_0) S512x64.size cc5_transform_3 reads5_3 true true 1 stage5_3 sem5_3
    hrank5 hreads5_3 hinb5_3 nbuf5_3 (Memref.isWhole_whole _) hwx5_3 hstage5_3

abbrev win5_4 : Pipeline.Window sig grid5 :=
  Pipeline.Window.ofSpec (Memref.whole main_v68_1) S512x1.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v80) S512x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg14) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v81) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg16) S32x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v82) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v83) S512x1.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x32 : Shape := ⟨2, ![1600000, 32]⟩
abbrev S100000 : Shape := ⟨1, ![100000]⟩
abbrev S128x64 : Shape := ⟨2, ![128, 64]⟩
abbrev S64 : Shape := ⟨1, ![64]⟩
abbrev S32x64 : Shape := ⟨2, ![32, 64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000x64 : Shape := ⟨2, ![100000, 64]⟩
abbrev S1x64 : Shape := ⟨2, ![1, 64]⟩
abbrev S1600000x64 : Shape := ⟨2, ![1600000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1700000 : Shape := ⟨1, ![1700000]⟩
abbrev S1700000x1 : Shape := ⟨2, ![1700000, 1]⟩
abbrev S1700000x64 : Shape := ⟨2, ![1700000, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S512x32 : Shape := ⟨2, ![512, 32]⟩
abbrev S1x32 : Shape := ⟨2, ![1, 32]⟩
abbrev S1x1 : Shape := ⟨2, ![1, 1]⟩

abbrev nBuf : Space → Nat
  | .hbm => 170
  | .vmem => 0
  | .smem => 0
  | _ => 0

abbrev hbmTy0_0 (i : Nat) : BufTy := match i % 128 with
  | 0 => ⟨S100000x128, .f32⟩
  | 1 => ⟨S2x1600000, .i32⟩
  | 2 => ⟨S1600000x32, .f32⟩
  | 3 => ⟨S100000, .i32⟩
  | 4 => ⟨S128x64, .f32⟩
  | 5 => ⟨S64, .f32⟩
  | 6 => ⟨S32x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x32, .f32⟩
  | 15 => ⟨S32, .f32⟩
  | 16 => ⟨S32x1, .f32⟩
  | 17 => ⟨S1, .f32⟩
  | 18 => ⟨S100000x64, .f32⟩
  | 19 => ⟨S1x64, .f32⟩
  | 20 => ⟨S100000x64, .f32⟩
  | 21 => ⟨S100000x64, .f32⟩
  | 22 => ⟨S1600000x64, .f32⟩
  | 23 => ⟨S1x64, .f32⟩
  | 24 => ⟨S1600000x64, .f32⟩
  | 25 => ⟨S1600000x64, .f32⟩
  | 26 => ⟨S1x1600000, .i32⟩
  | 27 => ⟨S1600000, .i32⟩
  | 28 => ⟨S_, .f32⟩
  | 29 => ⟨S100000x64, .f32⟩
  | 30 => ⟨S1600000x1, .i32⟩
  | 31 => ⟨S100000x64, .f32⟩
  | 32 => ⟨S100000x64, .f32⟩
  | 33 => ⟨S100000, .i32⟩
  | 34 => ⟨S1x1600000, .i32⟩
  | 35 => ⟨S1600000, .i32⟩
  | 36 => ⟨S1700000, .i32⟩
  | 37 => ⟨S1x1600000, .i32⟩
  | 38 => ⟨S1600000, .i32⟩
  | 39 => ⟨S1700000, .i32⟩
  | 40 => ⟨S_, .f32⟩
  | 41 => ⟨S1700000, .f32⟩
  | 42 => ⟨S_, .f32⟩
  | 43 => ⟨S100000, .f32⟩
  | 44 => ⟨S1700000x1, .i32⟩
  | 45 => ⟨S100000, .f32⟩
  | 46 => ⟨S_, .f32⟩
  | 47 => ⟨S100000, .f32⟩
  | 48 => ⟨S100000, .i1⟩
  | 49 => ⟨S_, .f32⟩
  | 50 => ⟨S100000, .f32⟩
  | 51 => ⟨S100000, .f32⟩
  | 52 => ⟨S100000, .f32⟩
  | 53 => ⟨S_, .f32⟩
  | 54 => ⟨S_, .f32⟩
  | 55 => ⟨S100000, .f32⟩
  | 56 => ⟨S100000, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000, .f32⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S1700000, .f32⟩
  | 75 => ⟨S1700000, .f32⟩
  | 76 => ⟨S100000x64, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000x64, .f32⟩
  | 86 => ⟨S1700000x1, .f32⟩
  | 87 => ⟨S1700000x64, .f32⟩
  | 88 => ⟨S1700000x64, .f32⟩
  | 89 => ⟨S_, .f32⟩
  | 90 => ⟨S100000x64, .f32⟩
  | 91 => ⟨S1700000x1, .i32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S100000x64, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000x64, .f32⟩
  | 109 => ⟨S1700000x1, .f32⟩
  | 110 => ⟨S1700000x64, .f32⟩
  | 111 => ⟨S1700000x64, .f32⟩
  | 112 => ⟨S_, .f32⟩
  | 113 => ⟨S100000x64, .f32⟩
  | 114 => ⟨S1700000x1, .i32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S100000x64, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x128, .f32⟩

abbrev hbmTy0_1 (i : Nat) : BufTy := match i % 128 with
  | 0 => ⟨S1700000, .i32⟩
  | 1 => ⟨S1700000, .i32⟩
  | 2 => ⟨S1700000x1, .i32⟩
  | 3 => ⟨S1700000x64, .f32⟩
  | 4 => ⟨S1700000x1, .f32⟩
  | 5 => ⟨S1700000x64, .f32⟩
  | 6 => ⟨S1700000x64, .f32⟩
  | 7 => ⟨S_, .f32⟩
  | 8 => ⟨S100000x64, .f32⟩
  | 9 => ⟨S1700000x1, .i32⟩
  | 10 => ⟨S100000x64, .f32⟩
  | 11 => ⟨S1x64, .f32⟩
  | 12 => ⟨S100000x64, .f32⟩
  | 13 => ⟨S100000x64, .f32⟩
  | 14 => ⟨S_, .f32⟩
  | 15 => ⟨S512x64, .f32⟩
  | 16 => ⟨S100000x1, .i32⟩
  | 17 => ⟨S512x64, .f32⟩
  | 18 => ⟨S_, .f32⟩
  | 19 => ⟨S100000, .f32⟩
  | 20 => ⟨S_, .f32⟩
  | 21 => ⟨S512, .f32⟩
  | 22 => ⟨S100000x1, .i32⟩
  | 23 => ⟨S512, .f32⟩
  | 24 => ⟨S_, .f32⟩
  | 25 => ⟨S512, .f32⟩
  | 26 => ⟨S512, .f32⟩
  | 27 => ⟨S512x1, .f32⟩
  | 28 => ⟨S512x64, .f32⟩
  | 29 => ⟨S512x64, .f32⟩
  | 30 => ⟨S512x32, .f32⟩
  | 31 => ⟨S1x32, .f32⟩
  | 32 => ⟨S512x32, .f32⟩
  | 33 => ⟨S512x32, .f32⟩
  | 34 => ⟨S_, .f32⟩
  | 35 => ⟨S512x32, .f32⟩
  | 36 => ⟨S512x32, .f32⟩
  | 37 => ⟨S512x1, .f32⟩
  | 38 => ⟨S1x1, .f32⟩
  | 39 => ⟨S512x1, .f32⟩
  | 40 => ⟨S512x1, .f32⟩
  | 41 => ⟨S512, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_0 : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_call0_v0 : Ref sig .tc := ⟨.hbm, 54, rfl⟩
abbrev main_call0_v1 : Ref sig .tc := ⟨.hbm, 55, rfl⟩
abbrev main_v30 : Ref sig .tc := ⟨.hbm, 56, rfl⟩
abbrev main_c : Ref sig .tc := ⟨.hbm, 57, rfl⟩
abbrev main_v31 : Ref sig .tc := ⟨.hbm, 58, rfl⟩
abbrev main_v32 : Ref sig .tc := ⟨.hbm, 59, rfl⟩
abbrev main_c_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_6 : Ref sig .tc := ⟨.hbm, 66, rfl⟩
abbrev main_v38 : Ref sig .tc := ⟨.hbm, 67, rfl⟩
abbrev main_v39 : Ref sig .tc := ⟨.hbm, 68, rfl⟩
abbrev main_c_7 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_c_8 : Ref sig .tc := ⟨.hbm, 77, rfl⟩
abbrev main_v47 : Ref sig .tc := ⟨.hbm, 78, rfl⟩
abbrev main_v48 : Ref sig .tc := ⟨.hbm, 79, rfl⟩
abbrev main_c_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_10 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_call1_cst : Ref sig .tc := ⟨.hbm, 96, rfl⟩
abbrev main_call1_v0 : Ref sig .tc := ⟨.hbm, 97, rfl⟩
abbrev main_v63 : Ref sig .tc := ⟨.hbm, 98, rfl⟩
abbrev main_v64 : Ref sig .tc := ⟨.hbm, 99, rfl⟩
abbrev main_c_11 : Ref sig .tc := ⟨.hbm, 100, rfl⟩
abbrev main_v65 : Ref sig .tc := ⟨.hbm, 101, rfl⟩
abbrev main_v66 : Ref sig .tc := ⟨.hbm, 102, rfl⟩
abbrev main_c_12 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_13 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_call2_cst : Ref sig .tc := ⟨.hbm, 119, rfl⟩
abbrev main_call2_v0 : Ref sig .tc := ⟨.hbm, 120, rfl⟩
abbrev main_v81 : Ref sig .tc := ⟨.hbm, 121, rfl⟩
abbrev main_v82 : Ref sig .tc := ⟨.hbm, 122, rfl⟩
abbrev main_c_14 : Ref sig .tc := ⟨.hbm, 123, rfl⟩
abbrev main_v83 : Ref sig .tc := ⟨.hbm, 124, rfl⟩
abbrev main_v84 : Ref sig .tc := ⟨.hbm, 125, rfl⟩
abbrev main_c_15 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_16 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_17 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_18 : Ref sig .tc := ⟨.hbm, 146, rfl⟩
abbrev main_v102 : Ref sig .tc := ⟨.hbm, 147, rfl⟩
abbrev main_cst_19 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_cst_20 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_call3_cst : Ref sig .tc := ⟨.hbm, 162, rfl⟩
abbrev main_call3_v0 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1600000x64_0_1 : S1x64.BroadcastsInDim S1600000x64 (![0, 1] : Fin 2 → Fin S1600000x64.rank)
  slices_S2x1600000_S1x1600000_0_0 : S2x1600000.Slices ![0, 0] S1x1600000
  shapeCasts_S1x1600000_S1600000 : S1x1600000.ShapeCasts S1600000
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  bcast_S_S512x32 : S_.BroadcastsInDim S512x32 (![] : Fin 0 → Fin S512x32.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  dot_S100000x128_S128x64_S100000x64_1_0_0_1_n_n_wf : DotDims.WF S100000x128 S128x64 S100000x64 [1] [0] [0] [1] [] []
  dot_S1600000x32_S32x64_S1600000x64_1_0_0_1_n_n_wf : DotDims.WF S1600000x32 S32x64 S1600000x64 [1] [0] [0] [1] [] []
  scatter_S100000x64_S1600000x1_S1600000x64_1_0_0_1_wf : ScatterDims.WF S100000x64 S1600000x1 S1600000x64 [1] [0] [0] 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x32_S512x32_1_0_0_1_n_n_wf : DotDims.WF S512x64 S64x32 S512x32 [1] [0] [0] [1] [] []
  dot_S512x32_S32x1_S512x1_1_0_0_1_n_n_wf : DotDims.WF S512x32 S32x1 S512x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S1600000x32_S32x64_S1600000x64_1_0_0_1_n_n : DotDims S1600000x32 S32x64 S1600000x64 where
  lhsContracting := [1]
  rhsContracting := [0]
  lhsNonContracting := [0]
  rhsNonContracting := [1]
  lhsBatch := []
  rhsBatch := []
  wf := dot_S1600000x32_S32x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

class Facts : Prop extends Facts₀ where

variable [Facts]
-- ==== Proof.KB.Base.lean ====
import proofs.«416092_j83932250898780_3_alg».proof.Proof.Gen.Kernel.Launch
import proofs.«416092_j83932250898780_3_alg».proof.Proof.Gen.Kernel.Skeleton
import proofs.«416092_j83932250898780_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev MM (F : FTy → Type) : Type := MT nD τ sig Unit (Elt F) ℕ (UR sig nD τ) ℕ

abbrev Entry (F : FTy → Type) : Type := (c : Dev nD) → (b : Ref sig .tc) → Buf (Elt F) ((c : Thread nD τ).loc b)

abbrev 𝒱₀ : Variants := Variants.none

abbrev L : GSem nD τ sig → Finset Unit := fun _ => ∅
abbrev lv : GSem nD τ sig → Unit → ℕ := fun _ _ => 0

abbrev R (c : Dev nD) : sProp (MM F) :=
  iprop((∃ r, prngReg c r) ∗ ∃ W, owes (c : Thread nD τ) (0 : CellTallies nD τ sig Unit) W)

abbrev adm : (p : Fin 7) → (pcfgs (F := F) p).Adm := fun p => (cfgs p).toPCfg_adm

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.KB.Reg0.lean ====
import proofs.«416092_j83932250898780_3_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F] (V : Entry F)

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S1x64 := Rect.unit (s := S1x64) ![0, 0] S1x64.size inb_S1x64_S1x64_0_0
abbrev r0_3 : Rect S5000x64 := Rect.unit (s := S5000x64) ![0, 0] S5000x64.size inb_S5000x64_S5000x64_0_0

def out0_3 (x0 : Vec F S5000x128 .f32) (x1 : Vec F S128x64 .f32) (x2 : Vec F S1x64 .f32) : Vec F S5000x64 .f32 :=
  View.canon [⟨r0_3, k0_pay1 (View.ld x0 r0_0) (View.ld x1 r0_1) (View.ld x2 r0_2)⟩]

set_option maxHeartbeats 1000000 in
theorem sound_kernel0 (c : Dev nD) (E : Set ℕ) (i : grid0.Coords)
    (arg1 : Memref sig .tc .vmem S5000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x128 .f32) (x1 : Vec F S128x64 .f32) (x2 : Vec F S1x64 .f32) (K : PUnit → sProp (MM F)) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__embed_linear_kernel i arg1 harg1 arg2 harg2 arg3 harg3 arg4 harg4) K := by
  simp only [cc0__embed_linear_kernel_eq_skeleton]; unfold cc0__embed_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S5000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem owed0 (c : Dev nD) (t) : (dat0 V c).owed t = 0 := by dsimp only [dat0]
theorem Phi0 (c : Dev nD) (t) : (dat0 V c).Φ t = Pipeline.ΦA spec0 c := by dsimp only [dat0]
theorem q0 (c : Dev nD) (w) : (dat0 V c).q w = fullShare := by dsimp only [dat0]

theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)
        ∗ owns (c : Thread nD τ) (st0_3 t) fullShare ((dat0 V c).after 3 t))) := by
  unfold bodyAt0
  simp only [before0_0, before0_1, before0_2]
  rw [show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe H0 H1 H2
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
import proofs.«416092_j83932250898780_3_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F] (V : Entry F)

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S8000x32 := Rect.unit (s := S8000x32) ![0, 0] S8000x32.size inb_S8000x32_S8000x32_0_0
abbrev r1_1 : Rect S32x64 := Rect.unit (s := S32x64) ![0, 0] S32x64.size inb_S32x64_S32x64_0_0
abbrev r1_2 : Rect S1x64 := Rect.unit (s := S1x64) ![0, 0] S1x64.size inb_S1x64_S1x64_0_0
abbrev r1_3 : Rect S8000x64 := Rect.unit (s := S8000x64) ![0, 0] S8000x64.size inb_S8000x64_S8000x64_0_0

def out1_3 (x0 : Vec F S8000x32 .f32) (x1 : Vec F S32x64 .f32) (x2 : Vec F S1x64 .f32) : Vec F S8000x64 .bf16 :=
  View.canon [⟨r1_3, k1_pay1 (View.ld x0 r1_0) (View.ld x1 r1_1) (View.ld x2 r1_2)⟩]

set_option maxHeartbeats 1000000 in
theorem sound_kernel1 (c : Dev nD) (E : Set ℕ) (i : grid1.Coords)
    (arg1 : Memref sig .tc .vmem S8000x32 .f32) (harg1 : arg1.IsWhole) (arg2 : Memref sig .tc .vmem S32x64 .f32) (harg2 : arg2.IsWhole)
    (arg3 : Memref sig .tc .vmem S1x64 .f32) (harg3 : arg3.IsWhole) (arg4 : Memref sig .tc .vmem S8000x64 .bf16) (harg4 : arg4.IsWhole)
    (x0 : Vec F S8000x32 .f32) (x1 : Vec F S32x64 .f32) (x2 : Vec F S1x64 .f32) (K : PUnit → sProp (MM F)) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__embed_linear_kernel i arg1 harg1 arg2 harg2 arg3 harg3 arg4 harg4) K := by
  simp only [cc1__embed_linear_kernel_eq_skeleton]; unfold cc1__embed_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S8000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem owed1 (c : Dev nD) (t) : (dat1 V c).owed t = 0 := by dsimp only [dat1]
theorem Phi1 (c : Dev nD) (t) : (dat1 V c).Φ t = Pipeline.ΦA spec1 c := by dsimp only [dat1]
theorem q1 (c : Dev nD) (w) : (dat1 V c).q w = fullShare := by dsimp only [dat1]

theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t))) := by
  unfold bodyAt1
  simp only [before1_0, before1_1, before1_2]
  rw [show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  iframe H0 H1 H2
  isplitl [H3]; · iexists _; iexact H3
  iintro ⟨H0, H1, H2, H3⟩
  iframe

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2.lean ====
import proofs.«416092_j83932250898780_3_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

section Region2
variable (V : Entry F)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4000x64 := Rect.unit (s := S4000x64) ![0, 0] S4000x64.size inb_S4000x64_S4000x64_0_0
abbrev r2_1 : Rect S64x64 := Rect.unit (s := S64x64) ![0, 0] S64x64.size inb_S64x64_S64x64_0_0
abbrev r2_2 : Rect S4000x1 := Rect.unit (s := S4000x1) ![0, 0] S4000x1.size inb_S4000x1_S4000x1_0_0
abbrev r2_3 : Rect S4000x64 := Rect.unit (s := S4000x64) ![0, 0] S4000x64.size inb_S4000x64_S4000x64_0_0

def out2_3 (x0 : Vec F S4000x64 .f32) (x1 : Vec F S64x64 .f32) (x2 : Vec F S4000x1 .f32) : Vec F S4000x64 .bf16 :=
  View.canon [⟨r2_3, k2_pay1 (View.ld x0 r2_0) (View.ld x1 r2_1) (View.ld x2 r2_2)⟩]

set_option maxHeartbeats 1000000 in
theorem sound_kernel2 (c : Dev nD) (E : Set ℕ) (i : grid2.Coords)
    (arg1 : Memref sig .tc .vmem S4000x64 .f32) (harg1 : arg1.IsWhole) (arg2 : Memref sig .tc .vmem S64x64 .f32) (harg2 : arg2.IsWhole)
    (arg3 : Memref sig .tc .vmem S4000x1 .f32) (harg3 : arg3.IsWhole) (arg4 : Memref sig .tc .vmem S4000x64 .bf16) (harg4 : arg4.IsWhole)
    (x0 : Vec F S4000x64 .f32) (x1 : Vec F S64x64 .f32) (x2 : Vec F S4000x1 .f32) (K : PUnit → sProp (MM F)) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__gcn_linear_first_kernel i arg1 harg1 arg2 harg2 arg3 harg3 arg4 harg4) K := by
  simp only [cc2__gcn_linear_first_kernel_eq_skeleton]; unfold cc2__gcn_linear_first_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S4000x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem owed2 (c : Dev nD) (t) : (dat2 V c).owed t = 0 := by dsimp only [dat2]

theorem Phi2 (c : Dev nD) (t) : (dat2 V c).Φ t = Pipeline.ΦA spec2 c := by dsimp only [dat2]

theorem q2 (c : Dev nD) (w) : (dat2 V c).q w = fullShare := by dsimp only [dat2]

theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d)))
    ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)
        ∗ owns (c : Thread nD τ) (st2_3 t) fullShare ((dat2 V c).after 3 t))) := by
  unfold bodyAt2
  simp only [before2_0, before2_1, before2_2]
  rw [show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  iframe H0 H1 H2
  isplitl [H3]; · iexists _; iexact H3
  iintro ⟨H0, H1, H2, H3⟩
  iframe

theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.KB.Fold1.lean ====
import proofs.«416092_j83932250898780_3_alg».proof.Proof.Gen.Kernel.Regions
import proofs.«416092_j83932250898780_3_alg».proof.Proof.KB.Reg0
import proofs.«416092_j83932250898780_3_alg».proof.Proof.KB.Reg1
import proofs.«416092_j83932250898780_3_alg».proof.Proof.KB.Reg2

noncomputable section

namespace Cert.Kernel.Hand

open Cert.Kernel Cert.Kernel.Gen
open Idealize.ShloMosaic Idealize.ShloMosaic.TcCoe

variable {F : FTy → Type} [FloatOps F]

-- A function updated at one point is unchanged at every other point.
theorem upd_of {V : Valuation τ sig (Elt F)} {o r : Ref sig .tc} {L : List (Ref sig .tc)}
    {x : (Proc.devRef (τ := τ) .tc o).ty.Contents (Elt F)} (h : r ∉ o :: L) : Function.update V (Proc.devRef .tc o) x r = V r :=
  Function.update_of_ne (StableHlo.devRef_ne_of_ne (List.ne_of_not_mem_cons h)) _ _

-- A point outside the image of f is none of the values f takes on a list.
theorem not_mem_map {n : Nat} {f : Fin n → Ref sig .tc} {b : Ref sig .tc} (hb : b ∉ Finset.univ.image f) (L : List (Fin n)) :
    b ∉ L.map f :=
  fun h => let ⟨w, _, e⟩ := List.mem_map.mp h; hb (e ▸ Finset.mem_image_of_mem f (Finset.mem_univ w))

variable (m : (ℓ : Loc nD τ sig) → Buf (Elt F) ℓ)

abbrev W0 (c : Dev nD) : Valuation τ sig (Elt F) := fun b => m (c, b)
abbrev W1 (c : Dev nD) : Valuation τ sig (Elt F) := StableHlo.after hostOps0 (W0 m c)
abbrev E1 : Entry F := fun c b => W1 m c b
theorem W1_of (c : Dev nD) (r : Ref sig .tc) (h : r ∉ hostOps0_W) : W1 m c r = W0 m c r :=
  StableHlo.after_of_writes_sub hostOps0 _ hostOps0_writes h

def W2 (c : Dev nD) : Valuation τ sig (Elt F) :=
  (Function.update (W1 m c) (Proc.devRef .tc main_v1) ((dat0 (E1 m) c).arrAt 3 cfg0.N : Buf (Elt F) ((c : Thread nD τ).loc main_v1)))
abbrev E2 : Entry F := fun c b => W2 m c b
theorem W2_of (c : Dev nD) (r : Ref sig .tc) (h : r ∉ ([main_v1] : List (Ref sig .tc))) : W2 m c r = W1 m c r :=
  upd_of h
theorem W2_out (c : Dev nD) : W2 m c main_v1 = (dat0 (E1 m) c).arrAt 3 cfg0.N :=
  Function.update_self _ _ _
theorem hF0 (c : Dev nD) (w : Fin cfg0.W) : (dat0 (E1 m) c).arrAt w cfg0.N = E2 m c (Pipeline.arrRef spec0 w) := by
  by_cases h : w = 3
  · subst h; exact (W2_out m c).symm
  · exact ((dat0 _ c).arrAt_in w (by revert w; decide) _).trans (W2_of m c _ (by revert w; decide)).symm
theorem hrest0 (c : Dev nD) : ∀ b, b ∉ Finset.univ.image (Pipeline.arrRef spec0) → E2 m c b = E1 m c b :=
  fun b hb => W2_of m c b (not_mem_map hb [3])

abbrev W3 (c : Dev nD) : Valuation τ sig (Elt F) := StableHlo.after hostOps1 (W2 m c)
abbrev E3 : Entry F := fun c b => W3 m c b
theorem W3_of (c : Dev nD) (r : Ref sig .tc) (h : r ∉ hostOps1_W) : W3 m c r = W2 m c r :=
  StableHlo.after_of_writes_sub hostOps1 _ hostOps1_writes h

def W4 (c : Dev nD) : Valuation τ sig (Elt F) :=
  (Function.update (W3 m c) (Proc.devRef .tc main_v3) ((dat1 (E3 m) c).arrAt 3 cfg1.N : Buf (Elt F) ((c : Thread nD τ).loc main_v3)))
abbrev E4 : Entry F := fun c b => W4 m c b
theorem W4_of (c : Dev nD) (r : Ref sig .tc) (h : r ∉ ([main_v3] : List (Ref sig .tc))) : W4 m c r = W3 m c r :=
  upd_of h
theorem W4_out (c : Dev nD) : W4 m c main_v3 = (dat1 (E3 m) c).arrAt 3 cfg1.N :=
  Function.update_self _ _ _
theorem hF1 (c : Dev nD) (w : Fin cfg1.W) : (dat1 (E3 m) c).arrAt w cfg1.N = E4 m c (Pipeline.arrRef spec1 w) := by
  by_cases h : w = 3
  · subst h; exact (W4_out m c).symm
  · exact ((dat1 _ c).arrAt_in w (by revert w; decide) _).trans (W4_of m c _ (by revert w; decide)).symm
theorem hrest1 (c : Dev nD) : ∀ b, b ∉ Finset.univ.image (Pipeline.arrRef spec1) → E4 m c b = E3 m c b :=
  fun b hb => W4_of m c b (not_mem_map hb [3])

abbrev W5 (c : Dev nD) : Valuation τ sig (Elt F) := StableHlo.after hostOps2 (W4 m c)
theorem W5_of (c : Dev nD) (r : Ref sig .tc) (h : r ∉ hostOps2_W) : W5 m c r = W4 m c r :=
  StableHlo.after_of_writes_sub hostOps2 _ hostOps2_writes h

abbrev W6 (c : Dev nD) : Valuation τ sig (Elt F) := StableHlo.after hostOps2_1 (W5 m c)
theorem W6_of (c : Dev nD) (r : Ref sig .tc) (h : r ∉ hostOps2_1_W) : W6 m c r = W5 m c r :=
  StableHlo.after_of_writes_sub hostOps2_1 _ hostOps2_1_writes h

abbrev W7 (c : Dev nD) : Valuation τ sig (Elt F) := StableHlo.after hostOps2_2 (W6 m c)
abbrev E7 : Entry F := fun c b => W7 m c b
theorem W7_of (c : Dev nD) (r : Ref sig .tc) (h : r ∉ hostOps2_2_W) : W7 m c r = W6 m c r :=
  StableHlo.after_of_writes_sub hostOps2_2 _ hostOps2_2_writes h

def W8 (c : Dev nD) : Valuation τ sig (Elt F) :=
  (Function.update (W7 m c) (Proc.devRef .tc main_v29) ((dat2 (E7 m) c).arrAt 3 cfg2.N : Buf (Elt F) ((c : Thread nD τ).loc main_v29)))
abbrev E8 : Entry F := fun c b => W8 m c b
theorem W8_of (c : Dev nD) (r : Ref sig .tc) (h : r ∉ ([main_v29] : List (Ref sig .tc))) : W8 m c r = W7 m c r :=
  upd_of h
theorem W8_out (c : Dev nD) : W8 m c main_v29 = (dat2 (E7 m) c).arrAt 3 cfg2.N :=
  Function.update_self _ _ _
theorem hF2 (c : Dev nD) (w : Fin cfg2.W) : (dat2 (E7 m) c).arrAt w cfg2.N = E8 m c (Pipeline.arrRef spec2 w) := by
  by_cases h : w = 3
  · subst h; exact (W8_out m c).symm
  · exact ((dat2 _ c).arrAt_in w (by revert w; decide) _).trans (W8_of m c _ (by revert w; decide)).symm
theorem hrest2 (c : Dev nD) : ∀ b, b ∉ Finset.univ.image (Pipeline.arrRef spec2) → E8 m c b = E7 m c b :=
  fun b hb => W8_of m c b (not_mem_map hb [3])

end Cert.Kernel.Hand

end
-- ==== Proof.KB.Reg3.lean ====
import proofs.«416092_j83932250898780_3_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

def iblk3 (V : Entry F) (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_x : Rect S4000x64 := Rect.unit (s := S4000x64) ![0, 0] S4000x64.size inb_S4000x64_S4000x64_0_0
abbrev r3_w : Rect S64x64 := Rect.unit (s := S64x64) ![0, 0] S64x64.size inb_S64x64_S64x64_0_0
abbrev r3_d : Rect S4000x1 := Rect.unit (s := S4000x1) ![0, 0] S4000x1.size inb_S4000x1_S4000x1_0_0
abbrev r3_b : Rect S1x64 := Rect.unit (s := S1x64) ![0, 0] S1x64.size inb_S1x64_S1x64_0_0

def out3_5 (x0 : Vec F S4000x64 .f32) (x1 : Vec F S64x64 .f32) (x2 : Vec F S4000x1 .f32) (x3 : Vec F S1x64 .f32) (x4 : Vec F S4000x1 .f32) : Vec F S4000x64 .bf16 :=
  View.canon [⟨r3_x, k3_pay1 (View.ld x0 r3_x) (View.ld x2 r3_d) (View.ld x3 r3_b) (View.ld x1 r3_w) (View.ld x4 r3_d)⟩]

set_option maxHeartbeats 1000000 in
theorem sound_kernel3 (c : Dev nD) (E : Set ℕ) (i : grid3.Coords)
    (arg1 : Memref sig .tc .vmem S4000x64 .f32) (harg1 : arg1.IsWhole) (arg2 : Memref sig .tc .vmem S64x64 .f32) (harg2 : arg2.IsWhole)
    (arg3 : Memref sig .tc .vmem S4000x1 .f32) (harg3 : arg3.IsWhole) (arg4 : Memref sig .tc .vmem S1x64 .f32) (harg4 : arg4.IsWhole)
    (arg5 : Memref sig .tc .vmem S4000x1 .f32) (harg5 : arg5.IsWhole) (arg6 : Memref sig .tc .vmem S4000x64 .bf16) (harg6 : arg6.IsWhole)
    (x0 : Vec F S4000x64 .f32) (x1 : Vec F S64x64 .f32) (x2 : Vec F S4000x1 .f32) (x3 : Vec F S1x64 .f32) (x4 : Vec F S4000x1 .f32)
    (K : PUnit → sProp (MM F)) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out3_5 x0 x1 x2 x3 x4)) -∗ K ⟨⟩))
      ⊢ wp frame (wpE (defs₀ (F := F)) Variants.none c none) E (cc3__gcn_linear_fused_kernel i arg1 harg1 arg2 harg2 arg3 harg3 arg4 harg4 arg5 harg5 arg6 harg6) K := by
  simp only [cc3__gcn_linear_fused_kernel_eq_skeleton]; unfold cc3__gcn_linear_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S4000x64.size (by rfl))

def dat3 (V : Entry F) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q w := match w with
    | ⟨0, _⟩ => fullShare
    | ⟨1, _⟩ => fullShare
    | ⟨2, _⟩ => fullShare.left
    | ⟨3, _⟩ => fullShare
    | ⟨4, _⟩ => fullShare.right
    | ⟨5, _⟩ => fullShare
  owed _ := 0

theorem owed3 (V : Entry F) (c : Dev nD) (t : Fin (cfg3.N + 1)) : (dat3 V c).owed t = 0 := rfl

theorem Phi3 (V : Entry F) (c : Dev nD) (t : Fin (cfg3.N + 1)) : (dat3 V c).Φ t = Pipeline.ΦA spec3 c := rfl

theorem before3_0 (V : Entry F) (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (V : Entry F) (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (V : Entry F) (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (V : Entry F) (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (V : Entry F) (c : Dev nD) (t : Fin cfg3.N) (d) : (dat3 V c).before 4 t d = iblk3 V c 4 t :=
  (dat3 V c).before_in_eq_fetched 4 rfl (fun _ => rfl) (fun _ _ _ => rfl) (fun _ => rfl) t d

theorem sound_body3 (V : Entry F) (c : Dev nD) (t : Fin cfg3.N) :
    (iprop((dat3 V c).Φ t.castSucc ∗ (dat3 V c).owesAt () t.castSucc
      ∗ (∃ d, owns c (st3_0 t) fullShare ((dat3 V c).before 0 t d))
      ∗ (∃ d, owns c (st3_1 t) fullShare ((dat3 V c).before 1 t d))
      ∗ (∃ d, owns c (st3_2 t) fullShare ((dat3 V c).before 2 t d))
      ∗ (∃ d, owns c (st3_3 t) fullShare ((dat3 V c).before 3 t d))
      ∗ (∃ d, owns c (st3_4 t) fullShare ((dat3 V c).before 4 t d))
      ∗ (∃ d, owns c (st3_5 t) fullShare ((dat3 V c).before 5 t d))) : sProp (MM F))
      ⊢ wp frame (wpE (defs₀ (F := F)) Variants.none c none) Set.univ (bodyAt3 t) (fun _ =>
    iprop((dat3 V c).Φ t.succ ∗ (dat3 V c).owesAt () t.succ
      ∗ owns c (st3_0 t) fullShare ((dat3 V c).after 0 t)
      ∗ owns c (st3_1 t) fullShare ((dat3 V c).after 1 t)
      ∗ owns c (st3_2 t) fullShare ((dat3 V c).after 2 t)
      ∗ owns c (st3_3 t) fullShare ((dat3 V c).after 3 t)
      ∗ owns c (st3_4 t) fullShare ((dat3 V c).after 4 t)
      ∗ owns c (st3_5 t) fullShare ((dat3 V c).after 5 t))) := by
  unfold bodyAt3
  simp only [before3_0, before3_1, before3_2, before3_3, before3_4]
  rw [show (dat3 V c).owesAt () t.succ = (dat3 V c).owesAt () t.castSucc from rfl]
  dsimp only [dat3]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ (st3_0 t) _ (st3_1 t) _ (st3_2 t) _ (st3_3 t) _ (st3_4 t) _ (st3_5 t) _ (iblk3 V c 0 t) (iblk3 V c 1 t) (iblk3 V c 2 t) (iblk3 V c 3 t) (iblk3 V c 4 t) _)
  iframe H0 H1 H2 H3 H4
  isplitl [H5]; · iexists _; iexact H5
  iintro ⟨H0, H1, H2, H3, H4, H5⟩
  iframe

theorem body_obligation3 (V : Entry F) (c : Dev nD) : BodyObligation (dat3 (F := F) V c) (defs₀ (F := F)) Variants.none () Set.univ := fun t => by
  rw [bigSep_W3, bigSep_W3]
  exact sound_body3 V c t

theorem bigSep_arr3 {M : Type} [URA M] (Φ : Ref sig .tc → sProp M) :
    bigSep (Finset.univ.image (Pipeline.arrRef spec3)) Φ = iprop(Φ main_v40 ∗ Φ main_arg10 ∗ Φ main_v28 ∗ Φ main_v41 ∗ Φ main_v42) :=
  bigSep_eq_bigSepL_of_eq [main_v40, main_arg10, main_v28, main_v41, main_v42] (by decide) (by decide) Φ

theorem arrSet3 (w : Fin cfg3.W) : (cfg3.win w).arr.view.set = Finset.univ := (arr_whole3 w).set_eq_univ

theorem enter3_w (V : Entry F) (c : Dev nD) (w : Fin cfg3.W) (q : PosShare TreeShare) :
    (((c : Thread nD τ).loc (Pipeline.arrRef spec3 w)) ↦{q} V c (Pipeline.arrRef spec3 w) : sProp (MM F))
      ⊢ ((cfg3.win w).arr.view.loc (c : Thread nD τ)) ↦[(cfg3.win w).arr.view.set]{q} (dat3 V c).arrAt w 0 := by
  rw [arrSet3]; first | done | exact .rfl

theorem leave3_w (V V' : Entry F) (c : Dev nD) (w : Fin cfg3.W) (h : (dat3 V c).arrAt w cfg3.N = V' c (Pipeline.arrRef spec3 w)) (q : PosShare TreeShare) :
    (((cfg3.win w).arr.view.loc (c : Thread nD τ)) ↦[(cfg3.win w).arr.view.set]{q} (dat3 V c).arrAt w cfg3.N : sProp (MM F))
      ⊢ ((c : Thread nD τ).loc (Pipeline.arrRef spec3 w)) ↦{q} V' c (Pipeline.arrRef spec3 w) := by
  rw [arrSet3, h]; first | done | exact .rfl

set_option maxHeartbeats 1000000 in

theorem enter3 (V : Entry F) (c : Dev nD) :
    (Pipeline.arrBufs (Ix := Unit) (Name := ℕ) (U := UR sig nD τ) (Lvl := ℕ) spec3 c (V c) : sProp (MM F))
      ⊢ (dat3 V c).arrays (fun w => (dat3 V c).arrAt w 0) := by
  unfold Pipeline.arrBufs Dat.arrays
  rw [bigSep_arr3, bigSep_W3]
  iintro ⟨H40, H10, H28, H41, H42⟩
  ihave H28s := (pointsTo_share (PosShare.mem_left_op_right fullShare)).1 $$ H28
  icases H28s with ⟨H28l, H28r⟩
  isplitl [H40]; · iapply (enter3_w V c 0 fullShare); iexact H40
  isplitl [H10]; · iapply (enter3_w V c 1 fullShare); iexact H10
  isplitl [H28l]; · iapply (enter3_w V c 2 fullShare.left); iexact H28l
  isplitl [H41]; · iapply (enter3_w V c 3 fullShare); iexact H41
  isplitl [H28r]; · iapply (enter3_w V c 4 fullShare.right); iexact H28r
  iapply (enter3_w V c 5 fullShare); iexact H42

set_option maxHeartbeats 1000000 in

theorem leave3 (V V' : Entry F) (c : Dev nD)
    (hout : V' c (Pipeline.arrRef spec3 5) = (dat3 V c).arrAt 5 cfg3.N)
    (hrest : ∀ b, b ≠ Pipeline.arrRef spec3 5 → V' c b = V c b) :
    (dat3 V c).arrays (fun w => (dat3 V c).arrAt w cfg3.N)
      ⊢ (Pipeline.arrBufs (Ix := Unit) (Name := ℕ) (U := UR sig nD τ) (Lvl := ℕ) spec3 c (V' c) : sProp (MM F)) := by
  unfold Pipeline.arrBufs Dat.arrays
  rw [bigSep_arr3, bigSep_W3]
  iintro ⟨H40, H10, H28l, H41, H28r, H42⟩
  ihave H40 := (leave3_w V V' c 0 (((dat3 V c).arrAt_in 0 rfl _).trans (hrest _ (by decide)).symm) _) $$ H40
  ihave H10 := (leave3_w V V' c 1 (((dat3 V c).arrAt_in 1 rfl _).trans (hrest _ (by decide)).symm) _) $$ H10
  ihave H28l := (leave3_w V V' c 2 (((dat3 V c).arrAt_in 2 rfl _).trans (hrest _ (by decide)).symm) _) $$ H28l
  ihave H41 := (leave3_w V V' c 3 (((dat3 V c).arrAt_in 3 rfl _).trans (hrest _ (by decide)).symm) _) $$ H41
  ihave H28r := (leave3_w V V' c 4 (((dat3 V c).arrAt_in 4 rfl _).trans (hrest _ (by decide)).symm) _) $$ H28r
  ihave H42 := (leave3_w V V' c 5 hout.symm _) $$ H42
  isplitl [H40]; · iexact H40
  isplitl [H10]; · iexact H10
  isplitl [H28l H28r]
  · iapply (pointsTo_share (PosShare.mem_left_op_right fullShare)).2
    isplitl [H28l]; · iexact H28l
    iexact H28r
  isplitl [H41]; · iexact H41
  iexact H42

end Cert.Kernel.Hand

end
-- ==== Proof.KB.Reg4.lean ====
import proofs.«416092_j83932250898780_3_alg».proof.Proof.KB.Reg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

def iblk4 (V : Entry F) (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem cc4_eq_cc3 : cc4__gcn_linear_fused_kernel (F := F) = cc3__gcn_linear_fused_kernel (F := F) := rfl

def dat4 (V : Entry F) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out3_5 (iblk4 V c 0 t) (iblk4 V c 1 t) (iblk4 V c 2 t) (iblk4 V c 3 t) (iblk4 V c 4 t)
  Φ _ := Pipeline.ΦA spec4 c
  q w := match w with
    | ⟨0, _⟩ => fullShare
    | ⟨1, _⟩ => fullShare
    | ⟨2, _⟩ => fullShare.left
    | ⟨3, _⟩ => fullShare
    | ⟨4, _⟩ => fullShare.right
    | ⟨5, _⟩ => fullShare
  owed _ := 0

theorem owed4 (V : Entry F) (c : Dev nD) (t : Fin (cfg4.N + 1)) : (dat4 V c).owed t = 0 := rfl

theorem Phi4 (V : Entry F) (c : Dev nD) (t : Fin (cfg4.N + 1)) : (dat4 V c).Φ t = Pipeline.ΦA spec4 c := rfl

theorem before4_0 (V : Entry F) (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (V : Entry F) (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (V : Entry F) (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (V : Entry F) (c : Dev nD) (t : Fin cfg4.N) (d) : (dat4 V c).before 3 t d = iblk4 V c 3 t :=
  (dat4 V c).before_in_eq_fetched 3 rfl (fun _ => rfl) (fun _ _ _ => rfl) (fun _ => rfl) t d
theorem before4_4 (V : Entry F) (c : Dev nD) (t : Fin cfg4.N) (d) : (dat4 V c).before 4 t d = iblk4 V c 4 t :=
  (dat4 V c).before_in_eq_fetched 4 rfl (fun _ => rfl) (fun _ _ _ => rfl) (fun _ => rfl) t d

theorem sound_body4 (V : Entry F) (c : Dev nD) (t : Fin cfg4.N) :
    (iprop((dat4 V c).Φ t.castSucc ∗ (dat4 V c).owesAt () t.castSucc
      ∗ (∃ d, owns c (st4_0 t) fullShare ((dat4 V c).before 0 t d))
      ∗ (∃ d, owns c (st4_1 t) fullShare ((dat4 V c).before 1 t d))
      ∗ (∃ d, owns c (st4_2 t) fullShare ((dat4 V c).before 2 t d))
      ∗ (∃ d, owns c (st4_3 t) fullShare ((dat4 V c).before 3 t d))
      ∗ (∃ d, owns c (st4_4 t) fullShare ((dat4 V c).before 4 t d))
      ∗ (∃ d, owns c (st4_5 t) fullShare ((dat4 V c).before 5 t d))) : sProp (MM F))
      ⊢ wp frame (wpE (defs₀ (F := F)) Variants.none c none) Set.univ (bodyAt4 t) (fun _ =>
    iprop((dat4 V c).Φ t.succ ∗ (dat4 V c).owesAt () t.succ
      ∗ owns c (st4_0 t) fullShare ((dat4 V c).after 0 t)
      ∗ owns c (st4_1 t) fullShare ((dat4 V c).after 1 t)
      ∗ owns c (st4_2 t) fullShare ((dat4 V c).after 2 t)
      ∗ owns c (st4_3 t) fullShare ((dat4 V c).after 3 t)
      ∗ owns c (st4_4 t) fullShare ((dat4 V c).after 4 t)
      ∗ owns c (st4_5 t) fullShare ((dat4 V c).after 5 t))) := by
  unfold bodyAt4
  rw [cc4_eq_cc3]
  simp only [before4_0, before4_1, before4_2, before4_3, before4_4]
  rw [show (dat4 V c).owesAt () t.succ = (dat4 V c).owesAt () t.castSucc from rfl]
  dsimp only [dat4]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ (st4_0 t) _ (st4_1 t) _ (st4_2 t) _ (st4_3 t) _ (st4_4 t) _ (st4_5 t) _ (iblk4 V c 0 t) (iblk4 V c 1 t) (iblk4 V c 2 t) (iblk4 V c 3 t) (iblk4 V c 4 t) _)
  iframe H0 H1 H2 H3 H4
  isplitl [H5]; · iexists _; iexact H5
  iintro ⟨H0, H1, H2, H3, H4, H5⟩
  iframe

theorem body_obligation4 (V : Entry F) (c : Dev nD) : BodyObligation (dat4 (F := F) V c) (defs₀ (F := F)) Variants.none () Set.univ := fun t => by
  rw [bigSep_W4, bigSep_W4]
  exact sound_body4 V c t

theorem bigSep_arr4 {M : Type} [URA M] (Φ : Ref sig .tc → sProp M) :
    bigSep (Finset.univ.image (Pipeline.arrRef spec4)) Φ = iprop(Φ main_v53 ∗ Φ main_arg12 ∗ Φ main_v28 ∗ Φ main_v54 ∗ Φ main_v55) :=
  bigSep_eq_bigSepL_of_eq [main_v53, main_arg12, main_v28, main_v54, main_v55] (by decide) (by decide) Φ

theorem arrSet4 (w : Fin cfg4.W) : (cfg4.win w).arr.view.set = Finset.univ := (arr_whole4 w).set_eq_univ

theorem enter4_w (V : Entry F) (c : Dev nD) (w : Fin cfg4.W) (q : PosShare TreeShare) :
    (((c : Thread nD τ).loc (Pipeline.arrRef spec4 w)) ↦{q} V c (Pipeline.arrRef spec4 w) : sProp (MM F))
      ⊢ ((cfg4.win w).arr.view.loc (c : Thread nD τ)) ↦[(cfg4.win w).arr.view.set]{q} (dat4 V c).arrAt w 0 := by
  rw [arrSet4]; first | done | exact .rfl

theorem leave4_w (V V' : Entry F) (c : Dev nD) (w : Fin cfg4.W) (h : (dat4 V c).arrAt w cfg4.N = V' c (Pipeline.arrRef spec4 w)) (q : PosShare TreeShare) :
    (((cfg4.win w).arr.view.loc (c : Thread nD τ)) ↦[(cfg4.win w).arr.view.set]{q} (dat4 V c).arrAt w cfg4.N : sProp (MM F))
      ⊢ ((c : Thread nD τ).loc (Pipeline.arrRef spec4 w)) ↦{q} V' c (Pipeline.arrRef spec4 w) := by
  rw [arrSet4, h]; first | done | exact .rfl

set_option maxHeartbeats 1000000 in

theorem enter4 (V : Entry F) (c : Dev nD) :
    (Pipeline.arrBufs (Ix := Unit) (Name := ℕ) (U := UR sig nD τ) (Lvl := ℕ) spec4 c (V c) : sProp (MM F))
      ⊢ (dat4 V c).arrays (fun w => (dat4 V c).arrAt w 0) := by
  unfold Pipeline.arrBufs Dat.arrays
  rw [bigSep_arr4, bigSep_W4]
  iintro ⟨H40, H10, H28, H41, H42⟩
  ihave H28s := (pointsTo_share (PosShare.mem_left_op_right fullShare)).1 $$ H28
  icases H28s with ⟨H28l, H28r⟩
  isplitl [H40]; · iapply (enter4_w V c 0 fullShare); iexact H40
  isplitl [H10]; · iapply (enter4_w V c 1 fullShare); iexact H10
  isplitl [H28l]; · iapply (enter4_w V c 2 fullShare.left); iexact H28l
  isplitl [H41]; · iapply (enter4_w V c 3 fullShare); iexact H41
  isplitl [H28r]; · iapply (enter4_w V c 4 fullShare.right); iexact H28r
  iapply (enter4_w V c 5 fullShare); iexact H42

set_option maxHeartbeats 1000000 in

theorem leave4 (V V' : Entry F) (c : Dev nD)
    (hout : V' c (Pipeline.arrRef spec4 5) = (dat4 V c).arrAt 5 cfg4.N)
    (hrest : ∀ b, b ≠ Pipeline.arrRef spec4 5 → V' c b = V c b) :
    (dat4 V c).arrays (fun w => (dat4 V c).arrAt w cfg4.N)
      ⊢ (Pipeline.arrBufs (Ix := Unit) (Name := ℕ) (U := UR sig nD τ) (Lvl := ℕ) spec4 c (V' c) : sProp (MM F)) := by
  unfold Pipeline.arrBufs Dat.arrays
  rw [bigSep_arr4, bigSep_W4]
  iintro ⟨H40, H10, H28l, H41, H28r, H42⟩
  ihave H40 := (leave4_w V V' c 0 (((dat4 V c).arrAt_in 0 rfl _).trans (hrest _ (by decide)).symm) _) $$ H40
  ihave H10 := (leave4_w V V' c 1 (((dat4 V c).arrAt_in 1 rfl _).trans (hrest _ (by decide)).symm) _) $$ H10
  ihave H28l := (leave4_w V V' c 2 (((dat4 V c).arrAt_in 2 rfl _).trans (hrest _ (by decide)).symm) _) $$ H28l
  ihave H41 := (leave4_w V V' c 3 (((dat4 V c).arrAt_in 3 rfl _).trans (hrest _ (by decide)).symm) _) $$ H41
  ihave H28r := (leave4_w V V' c 4 (((dat4 V c).arrAt_in 4 rfl _).trans (hrest _ (by decide)).symm) _) $$ H28r
  ihave H42 := (leave4_w V V' c 5 hout.symm _) $$ H42
  isplitl [H40]; · iexact H40
  isplitl [H10]; · iexact H10
  isplitl [H28l H28r]
  · iapply (pointsTo_share (PosShare.mem_left_op_right fullShare)).2
    isplitl [H28l]; · iexact H28l
    iexact H28r
  isplitl [H41]; · iexact H41
  iexact H42

end Cert.Kernel.Hand

end
-- ==== Proof.KB.Reg5.lean ====
import proofs.«416092_j83932250898780_3_alg».proof.Proof.KB.Base
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev cond5 (i : grid5.Coords) : Prop :=
  (Scalar.cmpi .ne (Scalar.extui (Scalar.cmpi .eq (BitVec.ofNat 32 (i 0).val) 0#32)) 0#32) = 1#1

theorem hcond5 : ∀ t : Fin cfg5.N, cond5 (grid5.coords t) ↔ t.val % 50 = 0 :=
  (by decide +kernel : ∀ t : Fin grid5.N, cond5 (grid5.coords t) ↔ t.val % 50 = 0)

abbrev rI0 : Rect S2000x64 := Rect.unit (s := S2000x64) ![0, 0] S2000x64.size inb_S2000x64_S2000x64_0_0
abbrev rI1 : Rect S2000x1 := Rect.unit (s := S2000x1) ![0, 0] S2000x1.size inb_S2000x1_S2000x1_0_0
abbrev rS : Rect S512x64 := Rect.unit (s := S512x64) ![0, 0] S512x64.size inb_S512x64_S512x64_0_0
abbrev rC : Rect S512x1 := Rect.unit (s := S512x1) ![0, 0] S512x1.size inb_S512x1_S512x1_0_0

def updS (x0 : Vec F S2000x64 .f32) (x1 : Vec F S2000x1 .f32) (x2 : Vec F S2000x1 .i32) (v : Vec F S512x64 .f32) : Vec F S512x64 .f32 :=
  k5_pay4 (View.ld x2 rI1) (View.ld x0 rI0) (View.ld x1 rI1) v

def updC (x2 : Vec F S2000x1 .i32) (v : Vec F S512x1 .f32) : Vec F S512x1 .f32 :=
  k5_pay5 (View.ld x2 rI1) v

theorem zero5 : (![0, 0] : Fin 2 → Nat) = fun _ => 0 := funext fun a => by fin_cases a <;> rfl

theorem read_writes5 {S : Shape} {e : EltTy} {κ : Kind} {sp : Space} (v : View sig κ sp S e) (f : v.ty.Contents (Elt F)) {off : Fin S.rank → ℕ} (h : off = fun _ => 0)
    (inb : ∀ a, off a + S.size a ≤ S.size a) (p : S.Idx → Elt F e) (L : List (View.Piece (Elt F) S e)) :
    View.read (Elt F) v (v.writes (Elt F) f ((⟨Rect.unit off S.size inb, p⟩ : View.Piece (Elt F) S e) :: L)) = p :=
  (View.read_writes_eq_canon v f _ fun y => ⟨_, List.mem_cons_self .., View.mem_set_unit_zero h inb y⟩).trans (View.canon_cons_unit_zero h inb p L)

section
variable (c : Dev nD) (E : Set ℕ) (i : grid5.Coords)
  (arg1 : Memref sig .tc .vmem S2000x64 .f32) (harg1 : arg1.IsWhole) (arg2 : Memref sig .tc .vmem S2000x1 .f32) (harg2 : arg2.IsWhole)
  (arg3 : Memref sig .tc .vmem S2000x1 .i32) (harg3 : arg3.IsWhole) (arg4 : Memref sig .tc .vmem S512x64 .f32) (harg4 : arg4.IsWhole)
  (arg5 : Memref sig .tc .vmem S512x1 .f32) (harg5 : arg5.IsWhole) (arg6 : Memref sig .tc .vmem S512x64 .f32) (harg6 : arg6.IsWhole)
  (arg7 : Memref sig .tc .vmem S512x1 .f32) (harg7 : arg7.IsWhole)
  (x0 : Vec F S2000x64 .f32) (x1 : Vec F S2000x1 .f32) (x2 : Vec F S2000x1 .i32) (K : PUnit → sProp (MM F))

abbrev ker5 (P6 P7 : sProp (MM F)) (s : Vec F S512x64 .f32) (n : Vec F S512x1 .f32) : Prop :=
  iprop(owns (c : Thread nD τ) arg1 fullShare x0 ∗ owns (c : Thread nD τ) arg2 fullShare x1 ∗ owns (c : Thread nD τ) arg3 fullShare x2
      ∗ (∃ d, owns (c : Thread nD τ) arg4 fullShare d) ∗ (∃ d, owns (c : Thread nD τ) arg5 fullShare d) ∗ P6 ∗ P7
      ∗ (iprop(owns (c : Thread nD τ) arg1 fullShare x0 ∗ owns (c : Thread nD τ) arg2 fullShare x1 ∗ owns (c : Thread nD τ) arg3 fullShare x2
          ∗ owns (c : Thread nD τ) arg4 fullShare (updS x0 x1 x2 s) ∗ owns (c : Thread nD τ) arg5 fullShare (updC x2 n)
          ∗ owns (c : Thread nD τ) arg6 fullShare (updS x0 x1 x2 s) ∗ owns (c : Thread nD τ) arg7 fullShare (updC x2 n)) -∗ K ⟨⟩))
    ⊢ wp frame (wpE (defs₀ (F := F)) Variants.none c none) E (cc5__pool_kernel i arg1 harg1 arg2 harg2 arg3 harg3 arg4 harg4 arg5 harg5 arg6 harg6 arg7 harg7) K

set_option maxHeartbeats 4000000 in
theorem sound_kernel5_A (hi : cond5 i) :
    ker5 c E i arg1 harg1 arg2 harg2 arg3 harg3 arg4 harg4 arg5 harg5 arg6 harg6 arg7 harg7 x0 x1 x2 K iprop(∃ d, owns (c : Thread nD τ) arg6 fullShare d) iprop(∃ d, owns (c : Thread nD τ) arg7 fullShare d) k5_pay1 k5_pay2 := by
  unfold ker5
  simp only [cc5__pool_kernel_eq_skeleton]; unfold cc5__pool_kernel_skel
  simp only [k5_part1_eq_skeleton]; unfold k5_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0; subst hf1; subst hf2
  sl_exec (disch := exact hi)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [read_writes5 (S := S512x64) _ _ zero5]
    simp only [View.readCov_cons_toLoadRect]
    rfl
  isplitl [H4]
  · iexists _; isplitr
    swap; · iexact H4
    ipureintro
    sl_unfold_run_names
    rw [read_writes5 (S := S512x1) _ _ zero5]
    simp only [View.readCov_cons_toLoadRect]
    rfl
  isplitl [H5]
  · iexists _; isplitr
    swap; · iexact H5
    ipureintro
    sl_unfold_run_names
    rw [read_writes5 (S := S512x64) _ _ zero5]
    simp only [View.readCov_cons_toLoadRect]
    rfl
  iexists _; isplitr
  swap; · iexact H6
  ipureintro
  sl_unfold_run_names
  rw [read_writes5 (S := S512x1) _ _ zero5]
  simp only [View.readCov_cons_toLoadRect]
  rfl

set_option maxHeartbeats 4000000 in
theorem sound_kernel5_B (hi : ¬ cond5 i) (a : Vec F S512x64 .f32) (b : Vec F S512x1 .f32) :
    ker5 c E i arg1 harg1 arg2 harg2 arg3 harg3 arg4 harg4 arg5 harg5 arg6 harg6 arg7 harg7 x0 x1 x2 K (owns (c : Thread nD τ) arg6 fullShare a) (owns (c : Thread nD τ) arg7 fullShare b) (View.ld a rS) (View.ld b rC) := by
  unfold ker5
  simp only [cc5__pool_kernel_eq_skeleton]; unfold cc5__pool_kernel_skel
  simp only [k5_part1_eq_skeleton]; unfold k5_part1_skel
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, Hk⟩
  subst hf0; subst hf1; subst hf2; subst hf5; subst hf6
  sl_exec (disch := exact hi)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [read_writes5 (S := S512x64) _ _ zero5, View.readCov_cons_toLoadRect]
    rfl
  isplitl [H4]
  · iexists _; isplitr
    swap; · iexact H4
    ipureintro
    sl_unfold_run_names
    rw [read_writes5 (S := S512x1) _ _ zero5, View.readCov_cons_toLoadRect]
    rfl
  isplitl [H5]
  · iexists _; isplitr
    swap; · iexact H5
    ipureintro
    sl_unfold_run_names
    rw [read_writes5 (S := S512x64) _ _ zero5]
    rfl
  iexists _; isplitr
  swap; · iexact H6
  ipureintro
  sl_unfold_run_names
  rw [read_writes5 (S := S512x1) _ _ zero5]
  rfl

end

def iblk5 (V : Entry F) (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def acc5 (V : Entry F) (c : Dev nD) : (n : ℕ) → n < cfg5.N → Vec F S512x64 .f32 × Vec F S512x1 .f32
  | 0, h => (updS (iblk5 V c 0 ⟨0, h⟩) (iblk5 V c 1 ⟨0, h⟩) (iblk5 V c 2 ⟨0, h⟩) k5_pay1, updC (iblk5 V c 2 ⟨0, h⟩) k5_pay2)
  | n + 1, h =>
    (updS (iblk5 V c 0 ⟨n + 1, h⟩) (iblk5 V c 1 ⟨n + 1, h⟩) (iblk5 V c 2 ⟨n + 1, h⟩) (View.ld (acc5 V c n (Nat.lt_of_succ_lt h)).1 rS),
      updC (iblk5 V c 2 ⟨n + 1, h⟩) (View.ld (acc5 V c n (Nat.lt_of_succ_lt h)).2 rC))

abbrev scM0 : Memref sig .tc .vmem S512x64 .f32 := Memref.whole cc5_scratch0
abbrev scM1 : Memref sig .tc .vmem S512x1 .f32 := Memref.whole cc5_scratch1

def Phi5 (V : Entry F) (c : Dev nD) : (n : ℕ) → n ≤ cfg5.N → sProp (MM F)
  | 0, _ => iprop((∃ r, prngReg c r) ∗ Pipeline.scopedRest (Ix := Unit) (Name := ℕ) (U := UR sig nD τ) (Lvl := ℕ) (Val := Elt F) spec5 c)
  | n + 1, h =>
    iprop((∃ r, prngReg c r)
      ∗ (owns (c : Thread nD τ) scM0 fullShare (acc5 V c n h).1 ∗ owns (c : Thread nD τ) scM1 fullShare (acc5 V c n h).2)
      ∗ Pipeline.scopedRestBut (Ix := Unit) (Name := ℕ) (U := UR sig nD τ) (Lvl := ℕ) (Val := Elt F) spec5 c [cc5_scratch0, cc5_scratch1])

theorem Phi5_zero (V : Entry F) (c : Dev nD) (h : 0 ≤ cfg5.N) :
    Phi5 V c 0 h = iprop((∃ r, prngReg c r)
      ∗ ((∃ d, owns (c : Thread nD τ) scM0 fullShare d) ∗ (∃ d, owns (c : Thread nD τ) scM1 fullShare d))
      ∗ Pipeline.scopedRestBut (Ix := Unit) (Name := ℕ) (U := UR sig nD τ) (Lvl := ℕ) (Val := Elt F) spec5 c [cc5_scratch0, cc5_scratch1]) := by
  rw [Phi5, scopedRest5_split]; simp only [scM0, scM1, owns_whole]; rfl

def dat5 (V : Entry F) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (acc5 V c t.val t.isLt).1
    | ⟨4, _⟩ => (acc5 V c t.val t.isLt).2
  Φ t := Phi5 V c t.val (Nat.le_of_lt_succ t.isLt)
  q _ := fullShare
  owed _ := 0

theorem A_eq5 (V : Entry F) (c : Dev nD) (w : Fin cfg5.W) : (dat5 V c).A w = V c (Pipeline.arrRef spec5 w) := by
  dsimp only [dat5]

theorem owed5 (V : Entry F) (c : Dev nD) (t) : (dat5 V c).owed t = 0 := by dsimp only [dat5]

theorem q5 (V : Entry F) (c : Dev nD) (w) : (dat5 V c).q w = fullShare := by dsimp only [dat5]

theorem before5_0 (V : Entry F) (c : Dev nD) (t : Fin cfg5.N) (d) : (dat5 V c).before 0 t d = iblk5 V c 0 t :=
  (dat5 V c).before_fetched 0 t (fetch5_0 t) d
theorem before5_1 (V : Entry F) (c : Dev nD) (t : Fin cfg5.N) (d) : (dat5 V c).before 1 t d = iblk5 V c 1 t :=
  (dat5 V c).before_fetched 1 t (fetch5_1 t) d
theorem before5_2 (V : Entry F) (c : Dev nD) (t : Fin cfg5.N) (d) : (dat5 V c).before 2 t d = iblk5 V c 2 t :=
  (dat5 V c).before_fetched 2 t (fetch5_2 t) d

set_option maxHeartbeats 4000000 in
theorem sound_body5 (V : Entry F) (c : Dev nD) (t : Fin cfg5.N) :
    iprop(Phi5 V c t.val (Nat.le_of_lt t.isLt) ∗ (dat5 V c).owesAt () t.castSucc
      ∗ (∃ d, owns (c : Thread nD τ) (st5_0 t) fullShare ((dat5 V c).before 0 t d))
      ∗ (∃ d, owns (c : Thread nD τ) (st5_1 t) fullShare ((dat5 V c).before 1 t d))
      ∗ (∃ d, owns (c : Thread nD τ) (st5_2 t) fullShare ((dat5 V c).before 2 t d))
      ∗ (∃ d, owns (c : Thread nD τ) (st5_3 t) fullShare ((dat5 V c).before 3 t d))
      ∗ (∃ d, owns (c : Thread nD τ) (st5_4 t) fullShare ((dat5 V c).before 4 t d)))
      ⊢ wp frame (wpE (defs₀ (F := F)) Variants.none c none) Set.univ (bodyAt5 t) (fun _ =>
        iprop(Phi5 V c (t.val + 1) t.isLt ∗ (dat5 V c).owesAt () t.castSucc
          ∗ owns (c : Thread nD τ) (st5_0 t) fullShare (iblk5 V c 0 t)
          ∗ owns (c : Thread nD τ) (st5_1 t) fullShare (iblk5 V c 1 t)
          ∗ owns (c : Thread nD τ) (st5_2 t) fullShare (iblk5 V c 2 t)
          ∗ owns (c : Thread nD τ) (st5_3 t) fullShare (acc5 V c t.val t.isLt).1 ∗ owns (c : Thread nD τ) (st5_4 t) fullShare (acc5 V c t.val t.isLt).2)) := by
  unfold bodyAt5
  simp only [before5_0, before5_1, before5_2]
  obtain ⟨n, hn⟩ := t
  cases n with
  | zero =>
    rw [Phi5_zero, Phi5, acc5]
    iintro ⟨⟨Hg, ⟨HS0, HS1⟩, Hrest⟩, Ho, ⟨%d0, H0⟩, ⟨%d1, H1⟩, ⟨%d2, H2⟩, ⟨%d3, H3⟩, ⟨%d4, H4⟩⟩
    iapply (sound_kernel5_A c Set.univ _ _ _ _ _ _ _ _ _ _ _ _ _ _ _ (iblk5 V c 0 ⟨0, hn⟩) (iblk5 V c 1 ⟨0, hn⟩) (iblk5 V c 2 ⟨0, hn⟩) _ ((hcond5 ⟨0, hn⟩).mpr rfl))
    iframe H0 H1 H2
    isplitl [H3]; · iexists _; iexact H3
    isplitl [H4]; · iexists _; iexact H4
    iframe HS0 HS1
    iintro ⟨H0, H1, H2, H3, H4, HS0, HS1⟩
    iframe
  | succ n =>
    rw [Phi5, Phi5, acc5]
    iintro ⟨⟨Hg, ⟨HS0, HS1⟩, Hrest⟩, Ho, ⟨%d0, H0⟩, ⟨%d1, H1⟩, ⟨%d2, H2⟩, ⟨%d3, H3⟩, ⟨%d4, H4⟩⟩
    iapply (sound_kernel5_B c Set.univ _ _ _ _ _ _ _ _ _ _ _ _ _ _ _ (iblk5 V c 0 ⟨n + 1, hn⟩) (iblk5 V c 1 ⟨n + 1, hn⟩) (iblk5 V c 2 ⟨n + 1, hn⟩) _ (fun h => by have : (n + 1) % 50 = 0 := (hcond5 ⟨n + 1, hn⟩).mp h; have := lt_of_lt_of_eq hn N_5; omega) _ _)
    iframe H0 H1 H2
    isplitl [H3]; · iexists _; iexact H3
    isplitl [H4]; · iexists _; iexact H4
    iframe HS0 HS1
    iintro ⟨H0, H1, H2, H3, H4, HS0, HS1⟩
    iframe

theorem body_obligation5 (V : Entry F) (c : Dev nD) : BodyObligation (dat5 (F := F) V c) (defs₀ (F := F)) Variants.none () Set.univ := fun t => by
  rw [bigSep_W5, bigSep_W5]
  exact sound_body5 V c t

theorem hin5 (V : Entry F) (c : Dev nD) :
    iprop((∃ r, prngReg c r) ∗ Pipeline.scopedRest (Ix := Unit) (Name := ℕ) (U := UR sig nD τ) (Lvl := ℕ) (Val := Elt F) spec5 c)
      ⊢ ((dat5 V c).Φ 0 : sProp (MM F)) := by
  rw [show (dat5 V c).Φ 0 = Phi5 V c 0 (Nat.zero_le _) from rfl]
  exact Idealize.SL.BI.Entails.refl _

theorem hout5 (V : Entry F) (c : Dev nD) :
    ((dat5 V c).Φ (Fin.last cfg5.N) : sProp (MM F))
      ⊢ iprop((∃ r, prngReg c r) ∗ Pipeline.scopedRest (Ix := Unit) (Name := ℕ) (U := UR sig nD τ) (Lvl := ℕ) (Val := Elt F) spec5 c) := by
  rw [show (dat5 V c).Φ (Fin.last cfg5.N) = Phi5 V c (49 + 1) (le_of_eq N_5.symm) from rfl, Phi5, scopedRest5_split]
  simp only [scM0, scM1, owns_whole]
  iintro ⟨Hg, ⟨HS0, HS1⟩, Hrest⟩
  isplitl [Hg]; · iexact Hg
  isplitl [HS0 HS1]
  · isplitl [HS0]; · iexists _; iexact HS0
    iexists _; iexact HS1
  iexact Hrest

end Cert.Kernel.Hand
end
-- ==== Proof.KB.Reg6.lean ====
import proofs.«416092_j83932250898780_3_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

def iblk6 (V : Entry F) (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S512x64 := Rect.unit (s := S512x64) ![0, 0] S512x64.size inb_S512x64_S512x64_0_0
abbrev r6_1 : Rect S64x32 := Rect.unit (s := S64x32) ![0, 0] S64x32.size inb_S64x32_S64x32_0_0
abbrev r6_2 : Rect S1x32 := Rect.unit (s := S1x32) ![0, 0] S1x32.size inb_S1x32_S1x32_0_0
abbrev r6_3 : Rect S32x1 := Rect.unit (s := S32x1) ![0, 0] S32x1.size inb_S32x1_S32x1_0_0
abbrev r6_4 : Rect S1x1 := Rect.unit (s := S1x1) ![0, 0] S1x1.size inb_S1x1_S1x1_0_0
abbrev r6_5 : Rect S512x1 := Rect.unit (s := S512x1) ![0, 0] S512x1.size inb_S512x1_S512x1_0_0

def out6_5 (x0 : Vec F S512x64 .f32) (x1 : Vec F S64x32 .f32) (x2 : Vec F S1x32 .f32) (x3 : Vec F S32x1 .f32) (x4 : Vec F S1x1 .f32) : Vec F S512x1 .f32 :=
  View.canon [⟨r6_5, k6_pay1 (View.ld x0 r6_0) (View.ld x1 r6_1) (View.ld x2 r6_2) (View.ld x3 r6_3) (View.ld x4 r6_4)⟩]

set_option maxHeartbeats 1000000 in

theorem sound_kernel6 (c : Dev nD) (E : Set ℕ) (i : grid6.Coords)
    (arg1 : Memref sig .tc .vmem S512x64 .f32) (harg1 : arg1.IsWhole) (arg2 : Memref sig .tc .vmem S64x32 .f32) (harg2 : arg2.IsWhole)
    (arg3 : Memref sig .tc .vmem S1x32 .f32) (harg3 : arg3.IsWhole) (arg4 : Memref sig .tc .vmem S32x1 .f32) (harg4 : arg4.IsWhole)
    (arg5 : Memref sig .tc .vmem S1x1 .f32) (harg5 : arg5.IsWhole) (arg6 : Memref sig .tc .vmem S512x1 .f32) (harg6 : arg6.IsWhole)
    (x0 : Vec F S512x64 .f32) (x1 : Vec F S64x32 .f32) (x2 : Vec F S1x32 .f32) (x3 : Vec F S32x1 .f32) (x4 : Vec F S1x1 .f32)
    (K : PUnit → sProp (MM F)) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E (cc6__classifier_kernel i arg1 harg1 arg2 harg2 arg3 harg3 arg4 harg4 arg5 harg5 arg6 harg6) K := by
  simp only [cc6__classifier_kernel_eq_skeleton]; unfold cc6__classifier_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled [⟨r6_5, _⟩] S512x1.size (by rfl))

def dat6 (V : Entry F) (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (V : Entry F) (c : Dev nD) (w : Fin cfg6.W) : (dat6 V c).A w = V c (Pipeline.arrRef spec6 w) := by
  dsimp only [dat6]

theorem owed6 (V : Entry F) (c : Dev nD) (t) : (dat6 V c).owed t = 0 := by dsimp only [dat6]

theorem Phi6 (V : Entry F) (c : Dev nD) (t) : (dat6 V c).Φ t = Pipeline.ΦA spec6 c := by dsimp only [dat6]

theorem q6 (V : Entry F) (c : Dev nD) (w) : (dat6 V c).q w = fullShare := by dsimp only [dat6]

theorem before6_0 (V : Entry F) (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (V : Entry F) (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (V : Entry F) (c : Dev nD) (t : Fin cfg6.N) (d) : (dat6 V c).before 2 t d = iblk6 V c 2 t :=
  (dat6 V c).before_in_eq_fetched 2 rfl (fun _ => rfl) (fun _ _ _ => rfl) (fun _ => rfl) t d
theorem before6_3 (V : Entry F) (c : Dev nD) (t : Fin cfg6.N) (d) : (dat6 V c).before 3 t d = iblk6 V c 3 t :=
  (dat6 V c).before_in_eq_fetched 3 rfl (fun _ => rfl) (fun _ _ _ => rfl) (fun _ => rfl) t d
theorem before6_4 (V : Entry F) (c : Dev nD) (t : Fin cfg6.N) (d) : (dat6 V c).before 4 t d = iblk6 V c 4 t :=
  (dat6 V c).before_in_eq_fetched 4 rfl (fun _ => rfl) (fun _ _ _ => rfl) (fun _ => rfl) t d

theorem sound_body6 (V : Entry F) (c : Dev nD) (t : Fin cfg6.N) :
    iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d))
      ∗ (∃ d, owns (c : Thread nD τ) (st6_3 t) fullShare ((dat6 V c).before 3 t d))
      ∗ (∃ d, owns (c : Thread nD τ) (st6_4 t) fullShare ((dat6 V c).before 4 t d))
      ∗ (∃ d, owns (c : Thread nD τ) (st6_5 t) fullShare ((dat6 V c).before 5 t d)))
      ⊢ wp frame (wpE (defs₀ (F := F)) Variants.none c none) Set.univ (bodyAt6 t) (fun _ =>
        iprop((dat6 V c).Φ t.castSucc ∗ (dat6 V c).owesAt () t.castSucc
          ∗ owns (c : Thread nD τ) (st6_0 t) fullShare (iblk6 V c 0 t)
          ∗ owns (c : Thread nD τ) (st6_1 t) fullShare (iblk6 V c 1 t)
          ∗ owns (c : Thread nD τ) (st6_2 t) fullShare (iblk6 V c 2 t)
          ∗ owns (c : Thread nD τ) (st6_3 t) fullShare (iblk6 V c 3 t)
          ∗ owns (c : Thread nD τ) (st6_4 t) fullShare (iblk6 V c 4 t)
          ∗ owns (c : Thread nD τ) (st6_5 t) fullShare (out6_5 (iblk6 V c 0 t) (iblk6 V c 1 t) (iblk6 V c 2 t) (iblk6 V c 3 t) (iblk6 V c 4 t)))) := by
  unfold bodyAt6
  simp only [before6_0, before6_1, before6_2, before6_3, before6_4]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  iframe H0 H1 H2 H3 H4
  isplitl [H5]; · iexists _; iexact H5
  iintro ⟨H0, H1, H2, H3, H4, H5⟩
  iframe

theorem body_obligation6 (V : Entry F) (c : Dev nD) : BodyObligation (dat6 (F := F) V c) (defs₀ (F := F)) Variants.none () Set.univ := fun t => by
  rw [bigSep_W6, bigSep_W6]
  exact sound_body6 V c t

end Cert.Kernel.Hand

end
-- ==== Proof.KB.Fold.lean ====
import proofs.«416092_j83932250898780_3_alg».proof.Proof.KB.Fold1
import proofs.«416092_j83932250898780_3_alg».proof.Proof.KB.Reg3
import proofs.«416092_j83932250898780_3_alg».proof.Proof.KB.Reg4
import proofs.«416092_j83932250898780_3_alg».proof.Proof.KB.Reg5
import proofs.«416092_j83932250898780_3_alg».proof.Proof.KB.Reg6

noncomputable section

namespace Cert.Kernel.Hand

open Cert.Kernel Cert.Kernel.Gen
open Idealize.ShloMosaic Idealize.ShloMosaic.TcCoe

variable {F : FTy → Type} [FloatOps F]
variable (m : (ℓ : Loc nD τ sig) → Buf (Elt F) ℓ)

abbrev W9 (c : Dev nD) : Valuation τ sig (Elt F) := StableHlo.after hostOps3 (W8 m c)
abbrev E9 : Entry F := fun c b => W9 m c b
theorem W9_of (c : Dev nD) (r : Ref sig .tc) (h : r ∉ hostOps3_W) : W9 m c r = W8 m c r :=
  StableHlo.after_of_writes_sub hostOps3 _ hostOps3_writes h

def W10 (c : Dev nD) : Valuation τ sig (Elt F) :=
  (Function.update (W9 m c) (Proc.devRef .tc main_v42) ((dat3 (E9 m) c).arrAt 5 cfg3.N : Buf (Elt F) ((c : Thread nD τ).loc main_v42)))
abbrev E10 : Entry F := fun c b => W10 m c b
theorem W10_of (c : Dev nD) (r : Ref sig .tc) (h : r ∉ ([main_v42] : List (Ref sig .tc))) : W10 m c r = W9 m c r :=
  upd_of h
theorem W10_out (c : Dev nD) : W10 m c main_v42 = (dat3 (E9 m) c).arrAt 5 cfg3.N :=
  Function.update_self _ _ _
theorem hrest3 (c : Dev nD) : ∀ b, b ∉ Finset.univ.image (Pipeline.arrRef spec3) → E10 m c b = E9 m c b :=
  fun b hb => W10_of m c b (not_mem_map hb [5])

abbrev W11 (c : Dev nD) : Valuation τ sig (Elt F) := StableHlo.after hostOps4 (W10 m c)
abbrev E11 : Entry F := fun c b => W11 m c b
theorem W11_of (c : Dev nD) (r : Ref sig .tc) (h : r ∉ hostOps4_W) : W11 m c r = W10 m c r :=
  StableHlo.after_of_writes_sub hostOps4 _ hostOps4_writes h

def W12 (c : Dev nD) : Valuation τ sig (Elt F) :=
  (Function.update (W11 m c) (Proc.devRef .tc main_v55) ((dat4 (E11 m) c).arrAt 5 cfg4.N : Buf (Elt F) ((c : Thread nD τ).loc main_v55)))
abbrev E12 : Entry F := fun c b => W12 m c b
theorem W12_of (c : Dev nD) (r : Ref sig .tc) (h : r ∉ ([main_v55] : List (Ref sig .tc))) : W12 m c r = W11 m c r :=
  upd_of h
theorem W12_out (c : Dev nD) : W12 m c main_v55 = (dat4 (E11 m) c).arrAt 5 cfg4.N :=
  Function.update_self _ _ _
theorem hrest4 (c : Dev nD) : ∀ b, b ∉ Finset.univ.image (Pipeline.arrRef spec4) → E12 m c b = E11 m c b :=
  fun b hb => W12_of m c b (not_mem_map hb [5])

abbrev W13 (c : Dev nD) : Valuation τ sig (Elt F) := StableHlo.after hostOps5 (W12 m c)
abbrev E13 : Entry F := fun c b => W13 m c b
theorem W13_of (c : Dev nD) (r : Ref sig .tc) (h : r ∉ hostOps5_W) : W13 m c r = W12 m c r :=
  StableHlo.after_of_writes_sub hostOps5 _ hostOps5_writes h

def W14 (c : Dev nD) : Valuation τ sig (Elt F) :=
  (Function.update (Function.update (W13 m c) (Proc.devRef .tc main_v68_0) ((dat5 (E13 m) c).arrAt 3 cfg5.N : Buf (Elt F) ((c : Thread nD τ).loc main_v68_0))) (Proc.devRef .tc main_v68_1) ((dat5 (E13 m) c).arrAt 4 cfg5.N : Buf (Elt F) ((c : Thread nD τ).loc main_v68_1)))
abbrev E14 : Entry F := fun c b => W14 m c b
theorem W14_of (c : Dev nD) (r : Ref sig .tc) (h : r ∉ ([main_v68_0, main_v68_1] : List (Ref sig .tc))) : W14 m c r = W13 m c r :=
  (upd_of (List.not_mem_of_not_mem_cons h)).trans (upd_of h)
theorem W14_out0 (c : Dev nD) : W14 m c main_v68_0 = (dat5 (E13 m) c).arrAt 3 cfg5.N :=
  (upd_of (L := []) (by decide)).trans (Function.update_self _ _ _)
theorem W14_out1 (c : Dev nD) : W14 m c main_v68_1 = (dat5 (E13 m) c).arrAt 4 cfg5.N :=
  Function.update_self _ _ _
theorem hF5 (c : Dev nD) (w : Fin cfg5.W) : (dat5 (E13 m) c).arrAt w cfg5.N = E14 m c (Pipeline.arrRef spec5 w) := by
  by_cases h : w = 3
  · subst h; exact (W14_out0 m c).symm
  by_cases h' : w = 4
  · subst h'; exact (W14_out1 m c).symm
  · exact ((dat5 _ c).arrAt_in w (by revert w; decide) _).trans (W14_of m c _ (by revert w; decide)).symm
theorem hrest5 (c : Dev nD) : ∀ b, b ∉ Finset.univ.image (Pipeline.arrRef spec5) → E14 m c b = E13 m c b :=
  fun b hb => W14_of m c b (not_mem_map hb [3, 4])

abbrev W15 (c : Dev nD) : Valuation τ sig (Elt F) := StableHlo.after hostOps6 (W14 m c)
abbrev E15 : Entry F := fun c b => W15 m c b
theorem W15_of (c : Dev nD) (r : Ref sig .tc) (h : r ∉ hostOps6_W) : W15 m c r = W14 m c r :=
  StableHlo.after_of_writes_sub hostOps6 _ hostOps6_writes h

def W16 (c : Dev nD) : Valuation τ sig (Elt F) :=
  (Function.update (W15 m c) (Proc.devRef .tc main_v83) ((dat6 (E15 m) c).arrAt 5 cfg6.N : Buf (Elt F) ((c : Thread nD τ).loc main_v83)))
abbrev E16 : Entry F := fun c b => W16 m c b
theorem W16_of (c : Dev nD) (r : Ref sig .tc) (h : r ∉ ([main_v83] : List (Ref sig .tc))) : W16 m c r = W15 m c r :=
  upd_of h
theorem W16_out (c : Dev nD) : W16 m c main_v83 = (dat6 (E15 m) c).arrAt 5 cfg6.N :=
  Function.update_self _ _ _
theorem hF6 (c : Dev nD) (w : Fin cfg6.W) : (dat6 (E15 m) c).arrAt w cfg6.N = E16 m c (Pipeline.arrRef spec6 w) := by
  by_cases h : w = 5
  · subst h; exact (W16_out m c).symm
  · exact ((dat6 _ c).arrAt_in w (by revert w; decide) _).trans (W16_of m c _ (by revert w; decide)).symm
theorem hrest6 (c : Dev nD) : ∀ b, b ∉ Finset.univ.image (Pipeline.arrRef spec6) → E16 m c b = E15 m c b :=
  fun b hb => W16_of m c b (not_mem_map hb [5])

abbrev W17 (c : Dev nD) : Valuation τ sig (Elt F) := StableHlo.after hostOps7 (W16 m c)
theorem W17_of (c : Dev nD) (r : Ref sig .tc) (h : r ∉ hostOps7_W) : W17 m c r = W16 m c r :=
  StableHlo.after_of_writes_sub hostOps7 _ hostOps7_writes h

-- What no step writes is at the end what it was at the start.
theorem W17_arg (c : Dev nD) (r : Ref sig .tc)
    (h : r ∉ hostOps0_W ∧ r ∉ [main_v1] ∧ r ∉ hostOps1_W ∧ r ∉ [main_v3] ∧ r ∉ hostOps2_W ∧ r ∉ hostOps2_1_W ∧ r ∉ hostOps2_2_W
      ∧ r ∉ [main_v29] ∧ r ∉ hostOps3_W ∧ r ∉ [main_v42] ∧ r ∉ hostOps4_W ∧ r ∉ [main_v55] ∧ r ∉ hostOps5_W
      ∧ r ∉ [main_v68_0, main_v68_1] ∧ r ∉ hostOps6_W ∧ r ∉ [main_v83] ∧ r ∉ hostOps7_W) :
    W17 m c r = m ((c : Thread nD τ).loc r) := by
  obtain ⟨h0, h1, h2, h3, h4, h5, h6, h7, h8, h9, h10, h11, h12, h13, h14, h15, h16⟩ := h
  exact (W17_of m c r h16).trans <| (W16_of m c r h15).trans <| (W15_of m c r h14).trans <| (W14_of m c r h13).trans <|
    (W13_of m c r h12).trans <| (W12_of m c r h11).trans <| (W11_of m c r h10).trans <| (W10_of m c r h9).trans <|
    (W9_of m c r h8).trans <| (W8_of m c r h7).trans <| (W7_of m c r h6).trans <| (W6_of m c r h5).trans <|
    (W5_of m c r h4).trans <| (W4_of m c r h3).trans <| (W3_of m c r h2).trans <| (W2_of m c r h1).trans (W1_of m c r h0)

end Cert.Kernel.Hand

end
-- ==== Proof.KB.Run.lean ====
import proofs.«416092_j83932250898780_3_alg».proof.Proof.KB.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

def pdats : (p : Fin 7) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E7 m) c
  | ⟨3, _⟩ => fun c => dat3 (E9 m) c
  | ⟨4, _⟩ => fun c => dat4 (E11 m) c
  | ⟨5, _⟩ => fun c => dat5 (E13 m) c
  | ⟨6, _⟩ => fun c => dat6 (E15 m) c

abbrev Tₙ (c : Dev nD) : sProp (MM F) := iprop(StableHlo.held (c : Thread nD τ) (Pipeline.ucRefs τ sig) (W17 m c) ∗ ∃ r, prngReg c r)

abbrev pc (F : FTy → Type) [FloatOps F] (p : Fin 7) : Cfg sig Λ₀ := Pipeline.pin (pcfgs (F := F)) adm p

abbrev Ps (c : Dev nD) : sProp (MM F) := iprop(∃ r, prngReg c r)

theorem inA {c : Dev nD} {gr W : ℕ} {win : Fin W → Pipeline.WinSpec sig gr} {Φ : sProp (MM F)} (h : Φ = Pipeline.ΦA win c) :
    iprop(Ps c ∗ Pipeline.scopedRest win c) ⊢ Φ := by
  rw [h]; unfold Pipeline.ΦA; iintro ⟨Hp, Hr⟩; isplitl [Hr] <;> iassumption

theorem outA {c : Dev nD} {gr W : ℕ} {win : Fin W → Pipeline.WinSpec sig gr} {Φ : sProp (MM F)} (h : Φ = Pipeline.ΦA win c) :
    Φ ⊢ iprop(Ps c ∗ Pipeline.scopedRest win c) := by
  rw [h]; unfold Pipeline.ΦA; iintro ⟨Hr, Hp⟩; isplitl [Hp] <;> iassumption

section Region

variable (p : Fin 7) (Wi Wo : Dev nD → Valuation τ sig (Elt F))
  (hb : ∀ c, BodyObligation (pdats m p c) defs₀ 𝒱₀ () Set.univ)
  (h0 : ∀ c t, (pdats m p c).owed t = 0)
  (hr : ∀ c x, x ∈ (pdats m p c).recorded 0)
  (hi : ∀ c, iprop(Ps c ∗ Pipeline.scopedRest (pc F p).spec c) ⊢ (pdats m p c).Φ 0)
  (ho : ∀ c, (pdats m p c).Φ (Fin.last _) ⊢ iprop(Ps c ∗ Pipeline.scopedRest (pc F p).spec c))
  (win : Pipeline.WinFacts₀ (pc F p).spec)
  (hpos : ∀ w : Fin (pc F p).W, 0 < ((pc F p).spec w).block.numel)
  (hst : ∀ (w : Fin (pc F p).W) (s : Fin ((pc F p).spec w).nbuf), (((pc F p).spec w).stage s).IsWhole)

set_option backward.isDefEq.respectTransparency.types false in
def mkReg (hs : ∀ c, (unscopedBufs c (fun b => Wi c b) : sProp (MM F))
      ⊢ iprop((pdats m p c).arrays ((pdats m p c).arrAt · 0) ∗ Pipeline.unscopedRest (pc F p).spec c fun b => Wi c b))
    (hj : ∀ c, iprop((pdats m p c).arrays ((pdats m p c).arrAt · (pc F p).N) ∗ Pipeline.unscopedRest (pc F p).spec c fun b => Wi c b)
      ⊢ (unscopedBufs c (fun b => Wo c b) : sProp (MM F))) :
    Pipeline.RegionSeg (pcfgs (F := F)) adm (pdats m) () defs₀ 𝒱₀ L lv p where
  win := win
  block_pos := hpos
  stage_whole := hst
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Wi c) ∗ R c)
  post c := iprop(StableHlo.held (c : Thread nD τ) (Pipeline.ucRefs τ sig) (Wo c) ∗ R c)
  X := Ps
  Y := Ps
  Z c := Pipeline.unscopedRest (Ix := Unit) (Name := ℕ) (U := UR sig nD τ) (Lvl := ℕ) (pc F p).spec c fun b => Wi c b
  hentry c := by
    rw [Pipeline.ownSems0_none]
    have hs := hs c
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [h0 c]
      icases HO with ⟨%W, HO⟩; iexists W; isplitr; · ipureintro; exact fun _ _ => Or.inl (hr c _)
      iexact HO
    isplitl [Hp] <;> iassumption
  hin c := by
    iintro ⟨Hp, -, Hr⟩; iapply (hi c); isplitl [Hp] <;> iassumption
  hout c := by
    rw [Pipeline.ownSems0_none]
    iintro H
    ihave H := (ho c) $$ H
    icases H with ⟨Hp, Hr⟩
    isplitl [Hp]; · iexact Hp
    isplitr; · iempintro
    iexact Hr
  hexit c := by
    have hj := hj c
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin; rw [h0 c]
    icases HO with ⟨%W, -, HO⟩; iexists W; iexact HO

variable (hrest : ∀ c (b : Ref sig .tc), b ∉ Finset.univ.image (Pipeline.arrRef (pc F p).spec) → Wo c b = Wi c b)

set_option backward.isDefEq.respectTransparency.types false in
def mkRegW (lf : Pipeline.LaunchFacts (nD := nD) (τ := τ) cfgs p)
    (hq : ∀ c w, (pdats m p c).q w = fullShare)
    (hA : ∀ c w, (pdats m p c).A w = Wi c (Pipeline.arrRef (pc F p).spec w))
    (hF : ∀ c w, (pdats m p c).arrAt w (pc F p).N = Wo c (Pipeline.arrRef (pc F p).spec w)) :
    Pipeline.RegionSeg (pcfgs (F := F)) adm (pdats m) () defs₀ 𝒱₀ L lv p :=
  mkReg m p Wi Wo hb h0 hr hi ho lf.win.to₀ lf.block_pos lf.stage_whole
    (fun c => Pipeline.arrays_of_unscopedBufs (p := p) (pcfgs (F := F)) adm (pdats m) lf.win lf.arr_whole c
      ((pdats m p c).share_full (hq c)) _ (hA c))
    fun c => Pipeline.unscopedBufs_of_arrays (p := p) (pcfgs (F := F)) adm (Ix := Unit) (Name := ℕ) (U := UR sig nD τ) (Lvl := ℕ)
      lf.win lf.arr_whole c (pdats m) ((pdats m p c).share_full (hq c)) _ _ _ (hF c) (hrest c)

set_option backward.isDefEq.respectTransparency.types false in
def mkReg₀ (he : ∀ c, (Pipeline.arrBufs (pc F p).spec c (fun b => Wi c b) : sProp (MM F)) ⊢ (pdats m p c).arrays ((pdats m p c).arrAt · 0))
    (hl : ∀ c, (pdats m p c).arrays ((pdats m p c).arrAt · (pc F p).N) ⊢ (Pipeline.arrBufs (pc F p).spec c (fun b => Wo c b) : sProp (MM F))) :
    Pipeline.RegionSeg (pcfgs (F := F)) adm (pdats m) () defs₀ 𝒱₀ L lv p :=
  mkReg m p Wi Wo hb h0 hr hi ho win hpos hst
    (fun c => by rw [Pipeline.unscopedBufs_split₀ cfgs p win.arr_unscoped c]; exact sep_mono (he c) .rfl)
    fun c => by
      rw [Pipeline.unscopedBufs_split₀ cfgs p win.arr_unscoped c]
      refine sep_mono (hl c) (Entails.of_eq ?_)
      unfold Pipeline.unscopedRest
      exact bigSep_congr fun b hb => by beta_reduce; rw [hrest c b (Finset.mem_sdiff.mp hb).2]

end Region

set_option backward.isDefEq.respectTransparency.types false in
def reg0 : Pipeline.RegionSeg (pcfgs (F := F)) adm (pdats m) () defs₀ 𝒱₀ L lv 0 :=
  mkRegW m 0 (W1 m) (W2 m) (body_obligation0 (E1 m)) (owed0 (E1 m)) (fun _ _ => trivial)
    (fun c => inA (Phi0 (E1 m) c 0)) (fun c => outA (Phi0 (E1 m) c _)) (hrest0 m)
    launch0 (q0 (E1 m)) (A_eq0 (E1 m)) (hF0 m)

set_option backward.isDefEq.respectTransparency.types false in
def reg1 : Pipeline.RegionSeg (pcfgs (F := F)) adm (pdats m) () defs₀ 𝒱₀ L lv 1 :=
  mkRegW m 1 (W3 m) (W4 m) (body_obligation1 (E3 m)) (owed1 (E3 m)) (fun _ _ => trivial)
    (fun c => inA (Phi1 (E3 m) c 0)) (fun c => outA (Phi1 (E3 m) c _)) (hrest1 m)
    launch1 (q1 (E3 m)) (A_eq1 (E3 m)) (hF1 m)

set_option backward.isDefEq.respectTransparency.types false in
def reg2 : Pipeline.RegionSeg (pcfgs (F := F)) adm (pdats m) () defs₀ 𝒱₀ L lv 2 :=
  mkRegW m 2 (W7 m) (W8 m) (body_obligation2 (E7 m)) (owed2 (E7 m)) (fun _ _ => trivial)
    (fun c => inA (Phi2 (E7 m) c 0)) (fun c => outA (Phi2 (E7 m) c _)) (hrest2 m)
    launch2 (q2 (E7 m)) (A_eq2 (E7 m)) (hF2 m)

set_option backward.isDefEq.respectTransparency.types false in
def reg3 : Pipeline.RegionSeg (pcfgs (F := F)) adm (pdats m) () defs₀ 𝒱₀ L lv 3 :=
  mkReg₀ m 3 (W9 m) (W10 m) (body_obligation3 (E9 m)) (owed3 (E9 m)) (fun _ _ => trivial)
    (fun c => inA (Phi3 (E9 m) c 0)) (fun c => outA (Phi3 (E9 m) c _)) winFacts₀3 block_pos3 stage_whole3
    (hrest3 m) (enter3 (E9 m))
    fun c => leave3 (E9 m) (E10 m) c (W10_out m c) fun b hb => W10_of m c b (by simpa using hb)

set_option backward.isDefEq.respectTransparency.types false in
def reg4 : Pipeline.RegionSeg (pcfgs (F := F)) adm (pdats m) () defs₀ 𝒱₀ L lv 4 :=
  mkReg₀ m 4 (W11 m) (W12 m) (body_obligation4 (E11 m)) (owed4 (E11 m)) (fun _ _ => trivial)
    (fun c => inA (Phi4 (E11 m) c 0)) (fun c => outA (Phi4 (E11 m) c _)) winFacts₀4 block_pos4 stage_whole4
    (hrest4 m) (enter4 (E11 m))
    fun c => leave4 (E11 m) (E12 m) c (W12_out m c) fun b hb => W12_of m c b (by simpa using hb)

set_option backward.isDefEq.respectTransparency.types false in
def reg5 : Pipeline.RegionSeg (pcfgs (F := F)) adm (pdats m) () defs₀ 𝒱₀ L lv 5 :=
  mkRegW m 5 (W13 m) (W14 m) (body_obligation5 (E13 m)) (owed5 (E13 m)) (fun _ _ => trivial)
    (hin5 (E13 m)) (hout5 (E13 m)) (hrest5 m)
    launch5 (q5 (E13 m)) (A_eq5 (E13 m)) (hF5 m)

set_option backward.isDefEq.respectTransparency.types false in
def reg6 : Pipeline.RegionSeg (pcfgs (F := F)) adm (pdats m) () defs₀ 𝒱₀ L lv 6 :=
  mkRegW m 6 (W15 m) (W16 m) (body_obligation6 (E15 m)) (owed6 (E15 m)) (fun _ _ => trivial)
    (fun c => inA (Phi6 (E15 m) c 0)) (fun c => outA (Phi6 (E15 m) c _)) (hrest6 m)
    launch6 (q6 (E15 m)) (A_eq6 (E15 m)) (hF6 m)

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .region (reg2 m),
    .host (hseg hostOps3 hostOps3_sub hostOps3_fresh (W8 m)),
    .region (reg3 m),
    .host (hseg hostOps4 hostOps4_sub hostOps4_fresh (W10 m)),
    .region (reg4 m),
    .host (hseg hostOps5 hostOps5_sub hostOps5_fresh (W12 m)),
    .region (reg5 m),
    .host (hseg hostOps6 hostOps6_sub hostOps6_fresh (W14 m)),
    .region (reg6 m),
    .host (hseg hostOps7 hostOps7_sub hostOps7_fresh (W16 m)) ]

theorem main_run (c : Dev nD) : main (F := F) c = Pipeline.Seg.run (segs m) := (main_chain c).trans (by chain_rfl)

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = W17 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MM F))
            ⊢ BI.own (emb₁ (initOf (Pipeline.cells cfgs cellOf_inj) (Pipeline.launchToks cfgs cellOf_inj))) from .rfl)
        iexact Hu
      iapply (show (BI.emp : sProp (MM F)) ⊢ bigSep Finset.univ (fun _ : Dev nD => (BI.emp : sProp (MM F))) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m c b)
    (hfin := fun c s' => by
      iintro ⟨⟨Hh, -⟩, HSI⟩
      unfold StableHlo.held
      imodintro
      iapply (pointsTo_read_all (Pipeline.ucRefs τ sig) (fun b => (((c : Thread nD τ)).1, b)) (W17 m c) s')
      isplitl [Hh] <;> iassumption)
    (hQ := fun s h c => h c)

theorem run_result : θ_run defs (onTc (τ := τ) (main (F := F))) ⟨m, fun _ => 0, ρ⟩ (fun r => ∀ c : Dev nD,
      r.2.mem ((c.tc : Thread nD τ).loc main_v84) = W17 m c main_v84
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => by
    have k := fun b hb hw => (h c _ (mem_uc b hb)).trans (W17_arg m c b hw)
    exact ⟨h c _ (mem_uc main_v84 (by decide)), k main_arg0 (by decide) (by decide), k main_arg1 (by decide) (by decide), k main_arg2 (by decide) (by decide),
      k main_arg3 (by decide) (by decide), k main_arg4 (by decide) (by decide), k main_arg5 (by decide) (by decide), k main_arg6 (by decide) (by decide),
      k main_arg7 (by decide) (by decide), k main_arg8 (by decide) (by decide), k main_arg9 (by decide) (by decide), k main_arg10 (by decide) (by decide),
      k main_arg11 (by decide) (by decide), k main_arg12 (by decide) (by decide), k main_arg13 (by decide) (by decide), k main_arg14 (by decide) (by decide),
      k main_arg15 (by decide) (by decide), k main_arg16 (by decide) (by decide), k main_arg17 (by decide) (by decide)⟩) (run m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => (h c).2) (run_result m ρ)

end Cert.Kernel.Hand

end
-- ==== Proof.KI.Base.lean ====
import proofs.«416092_j83932250898780_3_alg».proof.Proof.Gen.KernelIdeal.Launch
import proofs.«416092_j83932250898780_3_alg».proof.Proof.Gen.KernelIdeal.Skeleton
import proofs.«416092_j83932250898780_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev MM (F : FTy → Type) : Type := MT nD τ sig Unit (Elt F) ℕ (UR sig nD τ) ℕ

abbrev Entry (F : FTy → Type) : Type := (c : Dev nD) → (b : Ref sig .tc) → Buf (Elt F) ((c : Thread nD τ).loc b)

abbrev 𝒱₀ : Variants := Variants.none

abbrev L : GSem nD τ sig → Finset Unit := fun _ => ∅
abbrev lv : GSem nD τ sig → Unit → ℕ := fun _ _ => 0

abbrev R (c : Dev nD) : sProp (MM F) :=
  iprop((∃ r, prngReg c r) ∗ ∃ W, owes (c : Thread nD τ) (0 : CellTallies nD τ sig Unit) W)

abbrev adm : (p : Fin 7) → (pcfgs (F := F) p).Adm := fun p => (cfgs p).toPCfg_adm

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Reg0.lean ====
import proofs.«416092_j83932250898780_3_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F] (V : Entry F)

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S1x64 := Rect.unit (s := S1x64) ![0, 0] S1x64.size inb_S1x64_S1x64_0_0
abbrev r0_3 : Rect S5000x64 := Rect.unit (s := S5000x64) ![0, 0] S5000x64.size inb_S5000x64_S5000x64_0_0

def out0_3 (x0 : Vec F S5000x128 .f32) (x1 : Vec F S128x64 .f32) (x2 : Vec F S1x64 .f32) : Vec F S5000x64 .f32 :=
  View.canon [⟨r0_3, k0_pay1 (View.ld x0 r0_0) (View.ld x1 r0_1) (View.ld x2 r0_2)⟩]

set_option maxHeartbeats 1000000 in
theorem sound_kernel0 (c : Dev nD) (E : Set ℕ) (i : grid0.Coords)
    (arg1 : Memref sig .tc .vmem S5000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x128 .f32) (x1 : Vec F S128x64 .f32) (x2 : Vec F S1x64 .f32) (K : PUnit → sProp (MM F)) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__embed_linear_kernel i arg1 harg1 arg2 harg2 arg3 harg3 arg4 harg4) K := by
  simp only [cc0__embed_linear_kernel_eq_skeleton]; unfold cc0__embed_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S5000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem owed0 (c : Dev nD) (t) : (dat0 V c).owed t = 0 := by dsimp only [dat0]
theorem Phi0 (c : Dev nD) (t) : (dat0 V c).Φ t = Pipeline.ΦA spec0 c := by dsimp only [dat0]
theorem q0 (c : Dev nD) (w) : (dat0 V c).q w = fullShare := by dsimp only [dat0]

theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)
        ∗ owns (c : Thread nD τ) (st0_3 t) fullShare ((dat0 V c).after 3 t))) := by
  unfold bodyAt0
  simp only [before0_0, before0_1, before0_2]
  rw [show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe H0 H1 H2
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«416092_j83932250898780_3_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F] (V : Entry F)

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S8000x32 := Rect.unit (s := S8000x32) ![0, 0] S8000x32.size inb_S8000x32_S8000x32_0_0
abbrev r1_1 : Rect S32x64 := Rect.unit (s := S32x64) ![0, 0] S32x64.size inb_S32x64_S32x64_0_0
abbrev r1_2 : Rect S1x64 := Rect.unit (s := S1x64) ![0, 0] S1x64.size inb_S1x64_S1x64_0_0
abbrev r1_3 : Rect S8000x64 := Rect.unit (s := S8000x64) ![0, 0] S8000x64.size inb_S8000x64_S8000x64_0_0

def out1_3 (x0 : Vec F S8000x32 .f32) (x1 : Vec F S32x64 .f32) (x2 : Vec F S1x64 .f32) : Vec F S8000x64 .bf16 :=
  View.canon [⟨r1_3, k1_pay1 (View.ld x0 r1_0) (View.ld x1 r1_1) (View.ld x2 r1_2)⟩]

set_option maxHeartbeats 1000000 in
theorem sound_kernel1 (c : Dev nD) (E : Set ℕ) (i : grid1.Coords)
    (arg1 : Memref sig .tc .vmem S8000x32 .f32) (harg1 : arg1.IsWhole) (arg2 : Memref sig .tc .vmem S32x64 .f32) (harg2 : arg2.IsWhole)
    (arg3 : Memref sig .tc .vmem S1x64 .f32) (harg3 : arg3.IsWhole) (arg4 : Memref sig .tc .vmem S8000x64 .bf16) (harg4 : arg4.IsWhole)
    (x0 : Vec F S8000x32 .f32) (x1 : Vec F S32x64 .f32) (x2 : Vec F S1x64 .f32) (K : PUnit → sProp (MM F)) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__embed_linear_kernel i arg1 harg1 arg2 harg2 arg3 harg3 arg4 harg4) K := by
  simp only [cc1__embed_linear_kernel_eq_skeleton]; unfold cc1__embed_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S8000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem owed1 (c : Dev nD) (t) : (dat1 V c).owed t = 0 := by dsimp only [dat1]
theorem Phi1 (c : Dev nD) (t) : (dat1 V c).Φ t = Pipeline.ΦA spec1 c := by dsimp only [dat1]
theorem q1 (c : Dev nD) (w) : (dat1 V c).q w = fullShare := by dsimp only [dat1]

theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t))) := by
  unfold bodyAt1
  simp only [before1_0, before1_1, before1_2]
  rw [show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  iframe H0 H1 H2
  isplitl [H3]; · iexists _; iexact H3
  iintro ⟨H0, H1, H2, H3⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«416092_j83932250898780_3_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

section Region2
variable (V : Entry F)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4000x64 := Rect.unit (s := S4000x64) ![0, 0] S4000x64.size inb_S4000x64_S4000x64_0_0
abbrev r2_1 : Rect S64x64 := Rect.unit (s := S64x64) ![0, 0] S64x64.size inb_S64x64_S64x64_0_0
abbrev r2_2 : Rect S4000x1 := Rect.unit (s := S4000x1) ![0, 0] S4000x1.size inb_S4000x1_S4000x1_0_0
abbrev r2_3 : Rect S4000x64 := Rect.unit (s := S4000x64) ![0, 0] S4000x64.size inb_S4000x64_S4000x64_0_0

def out2_3 (x0 : Vec F S4000x64 .f32) (x1 : Vec F S64x64 .f32) (x2 : Vec F S4000x1 .f32) : Vec F S4000x64 .bf16 :=
  View.canon [⟨r2_3, k2_pay1 (View.ld x0 r2_0) (View.ld x1 r2_1) (View.ld x2 r2_2)⟩]

set_option maxHeartbeats 1000000 in
theorem sound_kernel2 (c : Dev nD) (E : Set ℕ) (i : grid2.Coords)
    (arg1 : Memref sig .tc .vmem S4000x64 .f32) (harg1 : arg1.IsWhole) (arg2 : Memref sig .tc .vmem S64x64 .f32) (harg2 : arg2.IsWhole)
    (arg3 : Memref sig .tc .vmem S4000x1 .f32) (harg3 : arg3.IsWhole) (arg4 : Memref sig .tc .vmem S4000x64 .bf16) (harg4 : arg4.IsWhole)
    (x0 : Vec F S4000x64 .f32) (x1 : Vec F S64x64 .f32) (x2 : Vec F S4000x1 .f32) (K : PUnit → sProp (MM F)) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__gcn_linear_first_kernel i arg1 harg1 arg2 harg2 arg3 harg3 arg4 harg4) K := by
  simp only [cc2__gcn_linear_first_kernel_eq_skeleton]; unfold cc2__gcn_linear_first_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S4000x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem owed2 (c : Dev nD) (t) : (dat2 V c).owed t = 0 := by dsimp only [dat2]

theorem Phi2 (c : Dev nD) (t) : (dat2 V c).Φ t = Pipeline.ΦA spec2 c := by dsimp only [dat2]

theorem q2 (c : Dev nD) (w) : (dat2 V c).q w = fullShare := by dsimp only [dat2]

theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d)))
    ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)
        ∗ owns (c : Thread nD τ) (st2_3 t) fullShare ((dat2 V c).after 3 t))) := by
  unfold bodyAt2
  simp only [before2_0, before2_1, before2_2]
  rw [show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  iframe H0 H1 H2
  isplitl [H3]; · iexists _; iexact H3
  iintro ⟨H0, H1, H2, H3⟩
  iframe

theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Fold1.lean ====
import proofs.«416092_j83932250898780_3_alg».proof.Proof.Gen.KernelIdeal.Regions
import proofs.«416092_j83932250898780_3_alg».proof.Proof.KI.Reg0
import proofs.«416092_j83932250898780_3_alg».proof.Proof.KI.Reg1
import proofs.«416092_j83932250898780_3_alg».proof.Proof.KI.Reg2

noncomputable section

namespace Cert.KernelIdeal.Hand

open Cert.KernelIdeal Cert.KernelIdeal.Gen
open Idealize.ShloMosaic Idealize.ShloMosaic.TcCoe

variable {F : FTy → Type} [FloatOps F]

-- A function updated at one point is unchanged at every other point.
theorem upd_of {V : Valuation τ sig (Elt F)} {o r : Ref sig .tc} {L : List (Ref sig .tc)}
    {x : (Proc.devRef (τ := τ) .tc o).ty.Contents (Elt F)} (h : r ∉ o :: L) : Function.update V (Proc.devRef .tc o) x r = V r :=
  Function.update_of_ne (StableHlo.devRef_ne_of_ne (List.ne_of_not_mem_cons h)) _ _

-- A point outside the image of f is none of the values f takes on a list.
theorem not_mem_map {n : Nat} {f : Fin n → Ref sig .tc} {b : Ref sig .tc} (hb : b ∉ Finset.univ.image f) (L : List (Fin n)) :
    b ∉ L.map f :=
  fun h => let ⟨w, _, e⟩ := List.mem_map.mp h; hb (e ▸ Finset.mem_image_of_mem f (Finset.mem_univ w))

variable (m : (ℓ : Loc nD τ sig) → Buf (Elt F) ℓ)

abbrev W0 (c : Dev nD) : Valuation τ sig (Elt F) := fun b => m (c, b)
abbrev W1 (c : Dev nD) : Valuation τ sig (Elt F) := StableHlo.after hostOps0 (W0 m c)
abbrev E1 : Entry F := fun c b => W1 m c b
theorem W1_of (c : Dev nD) (r : Ref sig .tc) (h : r ∉ hostOps0_W) : W1 m c r = W0 m c r :=
  StableHlo.after_of_writes_sub hostOps0 _ hostOps0_writes h

def W2 (c : Dev nD) : Valuation τ sig (Elt F) :=
  (Function.update (W1 m c) (Proc.devRef .tc main_v1) ((dat0 (E1 m) c).arrAt 3 cfg0.N : Buf (Elt F) ((c : Thread nD τ).loc main_v1)))
abbrev E2 : Entry F := fun c b => W2 m c b
theorem W2_of (c : Dev nD) (r : Ref sig .tc) (h : r ∉ ([main_v1] : List (Ref sig .tc))) : W2 m c r = W1 m c r :=
  upd_of h
theorem W2_out (c : Dev nD) : W2 m c main_v1 = (dat0 (E1 m) c).arrAt 3 cfg0.N :=
  Function.update_self _ _ _
theorem hF0 (c : Dev nD) (w : Fin cfg0.W) : (dat0 (E1 m) c).arrAt w cfg0.N = E2 m c (Pipeline.arrRef spec0 w) := by
  by_cases h : w = 3
  · subst h; exact (W2_out m c).symm
  · exact ((dat0 _ c).arrAt_in w (by revert w; decide) _).trans (W2_of m c _ (by revert w; decide)).symm
theorem hrest0 (c : Dev nD) : ∀ b, b ∉ Finset.univ.image (Pipeline.arrRef spec0) → E2 m c b = E1 m c b :=
  fun b hb => W2_of m c b (not_mem_map hb [3])

abbrev W3 (c : Dev nD) : Valuation τ sig (Elt F) := StableHlo.after hostOps1 (W2 m c)
abbrev E3 : Entry F := fun c b => W3 m c b
theorem W3_of (c : Dev nD) (r : Ref sig .tc) (h : r ∉ hostOps1_W) : W3 m c r = W2 m c r :=
  StableHlo.after_of_writes_sub hostOps1 _ hostOps1_writes h

def W4 (c : Dev nD) : Valuation τ sig (Elt F) :=
  (Function.update (W3 m c) (Proc.devRef .tc main_v3) ((dat1 (E3 m) c).arrAt 3 cfg1.N : Buf (Elt F) ((c : Thread nD τ).loc main_v3)))
abbrev E4 : Entry F := fun c b => W4 m c b
theorem W4_of (c : Dev nD) (r : Ref sig .tc) (h : r ∉ ([main_v3] : List (Ref sig .tc))) : W4 m c r = W3 m c r :=
  upd_of h
theorem W4_out (c : Dev nD) : W4 m c main_v3 = (dat1 (E3 m) c).arrAt 3 cfg1.N :=
  Function.update_self _ _ _
theorem hF1 (c : Dev nD) (w : Fin cfg1.W) : (dat1 (E3 m) c).arrAt w cfg1.N = E4 m c (Pipeline.arrRef spec1 w) := by
  by_cases h : w = 3
  · subst h; exact (W4_out m c).symm
  · exact ((dat1 _ c).arrAt_in w (by revert w; decide) _).trans (W4_of m c _ (by revert w; decide)).symm
theorem hrest1 (c : Dev nD) : ∀ b, b ∉ Finset.univ.image (Pipeline.arrRef spec1) → E4 m c b = E3 m c b :=
  fun b hb => W4_of m c b (not_mem_map hb [3])

abbrev W5 (c : Dev nD) : Valuation τ sig (Elt F) := StableHlo.after hostOps2 (W4 m c)
theorem W5_of (c : Dev nD) (r : Ref sig .tc) (h : r ∉ hostOps2_W) : W5 m c r = W4 m c r :=
  StableHlo.after_of_writes_sub hostOps2 _ hostOps2_writes h

abbrev W6 (c : Dev nD) : Valuation τ sig (Elt F) := StableHlo.after hostOps2_1 (W5 m c)
theorem W6_of (c : Dev nD) (r : Ref sig .tc) (h : r ∉ hostOps2_1_W) : W6 m c r = W5 m c r :=
  StableHlo.after_of_writes_sub hostOps2_1 _ hostOps2_1_writes h

abbrev W7 (c : Dev nD) : Valuation τ sig (Elt F) := StableHlo.after hostOps2_2 (W6 m c)
abbrev E7 : Entry F := fun c b => W7 m c b
theorem W7_of (c : Dev nD) (r : Ref sig .tc) (h : r ∉ hostOps2_2_W) : W7 m c r = W6 m c r :=
  StableHlo.after_of_writes_sub hostOps2_2 _ hostOps2_2_writes h

def W8 (c : Dev nD) : Valuation τ sig (Elt F) :=
  (Function.update (W7 m c) (Proc.devRef .tc main_v29) ((dat2 (E7 m) c).arrAt 3 cfg2.N : Buf (Elt F) ((c : Thread nD τ).loc main_v29)))
abbrev E8 : Entry F := fun c b => W8 m c b
theorem W8_of (c : Dev nD) (r : Ref sig .tc) (h : r ∉ ([main_v29] : List (Ref sig .tc))) : W8 m c r = W7 m c r :=
  upd_of h
theorem W8_out (c : Dev nD) : W8 m c main_v29 = (dat2 (E7 m) c).arrAt 3 cfg2.N :=
  Function.update_self _ _ _
theorem hF2 (c : Dev nD) (w : Fin cfg2.W) : (dat2 (E7 m) c).arrAt w cfg2.N = E8 m c (Pipeline.arrRef spec2 w) := by
  by_cases h : w = 3
  · subst h; exact (W8_out m c).symm
  · exact ((dat2 _ c).arrAt_in w (by revert w; decide) _).trans (W8_of m c _ (by revert w; decide)).symm
theorem hrest2 (c : Dev nD) : ∀ b, b ∉ Finset.univ.image (Pipeline.arrRef spec2) → E8 m c b = E7 m c b :=
  fun b hb => W8_of m c b (not_mem_map hb [3])

end Cert.KernelIdeal.Hand

end
-- ==== Proof.KI.Reg3.lean ====
import proofs.«416092_j83932250898780_3_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

def iblk3 (V : Entry F) (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_x : Rect S4000x64 := Rect.unit (s := S4000x64) ![0, 0] S4000x64.size inb_S4000x64_S4000x64_0_0
abbrev r3_w : Rect S64x64 := Rect.unit (s := S64x64) ![0, 0] S64x64.size inb_S64x64_S64x64_0_0
abbrev r3_d : Rect S4000x1 := Rect.unit (s := S4000x1) ![0, 0] S4000x1.size inb_S4000x1_S4000x1_0_0
abbrev r3_b : Rect S1x64 := Rect.unit (s := S1x64) ![0, 0] S1x64.size inb_S1x64_S1x64_0_0

def out3_5 (x0 : Vec F S4000x64 .f32) (x1 : Vec F S64x64 .f32) (x2 : Vec F S4000x1 .f32) (x3 : Vec F S1x64 .f32) (x4 : Vec F S4000x1 .f32) : Vec F S4000x64 .bf16 :=
  View.canon [⟨r3_x, k3_pay1 (View.ld x0 r3_x) (View.ld x2 r3_d) (View.ld x3 r3_b) (View.ld x1 r3_w) (View.ld x4 r3_d)⟩]

set_option maxHeartbeats 1000000 in
theorem sound_kernel3 (c : Dev nD) (E : Set ℕ) (i : grid3.Coords)
    (arg1 : Memref sig .tc .vmem S4000x64 .f32) (harg1 : arg1.IsWhole) (arg2 : Memref sig .tc .vmem S64x64 .f32) (harg2 : arg2.IsWhole)
    (arg3 : Memref sig .tc .vmem S4000x1 .f32) (harg3 : arg3.IsWhole) (arg4 : Memref sig .tc .vmem S1x64 .f32) (harg4 : arg4.IsWhole)
    (arg5 : Memref sig .tc .vmem S4000x1 .f32) (harg5 : arg5.IsWhole) (arg6 : Memref sig .tc .vmem S4000x64 .bf16) (harg6 : arg6.IsWhole)
    (x0 : Vec F S4000x64 .f32) (x1 : Vec F S64x64 .f32) (x2 : Vec F S4000x1 .f32) (x3 : Vec F S1x64 .f32) (x4 : Vec F S4000x1 .f32)
    (K : PUnit → sProp (MM F)) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out3_5 x0 x1 x2 x3 x4)) -∗ K ⟨⟩))
      ⊢ wp frame (wpE (defs₀ (F := F)) Variants.none c none) E (cc3__gcn_linear_fused_kernel i arg1 harg1 arg2 harg2 arg3 harg3 arg4 harg4 arg5 harg5 arg6 harg6) K := by
  simp only [cc3__gcn_linear_fused_kernel_eq_skeleton]; unfold cc3__gcn_linear_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S4000x64.size (by rfl))

def dat3 (V : Entry F) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q w := match w with
    | ⟨0, _⟩ => fullShare
    | ⟨1, _⟩ => fullShare
    | ⟨2, _⟩ => fullShare.left
    | ⟨3, _⟩ => fullShare
    | ⟨4, _⟩ => fullShare.right
    | ⟨5, _⟩ => fullShare
  owed _ := 0

theorem owed3 (V : Entry F) (c : Dev nD) (t : Fin (cfg3.N + 1)) : (dat3 V c).owed t = 0 := rfl

theorem Phi3 (V : Entry F) (c : Dev nD) (t : Fin (cfg3.N + 1)) : (dat3 V c).Φ t = Pipeline.ΦA spec3 c := rfl

theorem before3_0 (V : Entry F) (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (V : Entry F) (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (V : Entry F) (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (V : Entry F) (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (V : Entry F) (c : Dev nD) (t : Fin cfg3.N) (d) : (dat3 V c).before 4 t d = iblk3 V c 4 t :=
  (dat3 V c).before_in_eq_fetched 4 rfl (fun _ => rfl) (fun _ _ _ => rfl) (fun _ => rfl) t d

theorem sound_body3 (V : Entry F) (c : Dev nD) (t : Fin cfg3.N) :
    (iprop((dat3 V c).Φ t.castSucc ∗ (dat3 V c).owesAt () t.castSucc
      ∗ (∃ d, owns c (st3_0 t) fullShare ((dat3 V c).before 0 t d))
      ∗ (∃ d, owns c (st3_1 t) fullShare ((dat3 V c).before 1 t d))
      ∗ (∃ d, owns c (st3_2 t) fullShare ((dat3 V c).before 2 t d))
      ∗ (∃ d, owns c (st3_3 t) fullShare ((dat3 V c).before 3 t d))
      ∗ (∃ d, owns c (st3_4 t) fullShare ((dat3 V c).before 4 t d))
      ∗ (∃ d, owns c (st3_5 t) fullShare ((dat3 V c).before 5 t d))) : sProp (MM F))
      ⊢ wp frame (wpE (defs₀ (F := F)) Variants.none c none) Set.univ (bodyAt3 t) (fun _ =>
    iprop((dat3 V c).Φ t.succ ∗ (dat3 V c).owesAt () t.succ
      ∗ owns c (st3_0 t) fullShare ((dat3 V c).after 0 t)
      ∗ owns c (st3_1 t) fullShare ((dat3 V c).after 1 t)
      ∗ owns c (st3_2 t) fullShare ((dat3 V c).after 2 t)
      ∗ owns c (st3_3 t) fullShare ((dat3 V c).after 3 t)
      ∗ owns c (st3_4 t) fullShare ((dat3 V c).after 4 t)
      ∗ owns c (st3_5 t) fullShare ((dat3 V c).after 5 t))) := by
  unfold bodyAt3
  simp only [before3_0, before3_1, before3_2, before3_3, before3_4]
  rw [show (dat3 V c).owesAt () t.succ = (dat3 V c).owesAt () t.castSucc from rfl]
  dsimp only [dat3]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ (st3_0 t) _ (st3_1 t) _ (st3_2 t) _ (st3_3 t) _ (st3_4 t) _ (st3_5 t) _ (iblk3 V c 0 t) (iblk3 V c 1 t) (iblk3 V c 2 t) (iblk3 V c 3 t) (iblk3 V c 4 t) _)
  iframe H0 H1 H2 H3 H4
  isplitl [H5]; · iexists _; iexact H5
  iintro ⟨H0, H1, H2, H3, H4, H5⟩
  iframe

theorem body_obligation3 (V : Entry F) (c : Dev nD) : BodyObligation (dat3 (F := F) V c) (defs₀ (F := F)) Variants.none () Set.univ := fun t => by
  rw [bigSep_W3, bigSep_W3]
  exact sound_body3 V c t

theorem bigSep_arr3 {M : Type} [URA M] (Φ : Ref sig .tc → sProp M) :
    bigSep (Finset.univ.image (Pipeline.arrRef spec3)) Φ = iprop(Φ main_v40 ∗ Φ main_arg10 ∗ Φ main_v28 ∗ Φ main_v41 ∗ Φ main_v42) :=
  bigSep_eq_bigSepL_of_eq [main_v40, main_arg10, main_v28, main_v41, main_v42] (by decide) (by decide) Φ

theorem arrSet3 (w : Fin cfg3.W) : (cfg3.win w).arr.view.set = Finset.univ := (arr_whole3 w).set_eq_univ

theorem enter3_w (V : Entry F) (c : Dev nD) (w : Fin cfg3.W) (q : PosShare TreeShare) :
    (((c : Thread nD τ).loc (Pipeline.arrRef spec3 w)) ↦{q} V c (Pipeline.arrRef spec3 w) : sProp (MM F))
      ⊢ ((cfg3.win w).arr.view.loc (c : Thread nD τ)) ↦[(cfg3.win w).arr.view.set]{q} (dat3 V c).arrAt w 0 := by
  rw [arrSet3]; first | done | exact .rfl

theorem leave3_w (V V' : Entry F) (c : Dev nD) (w : Fin cfg3.W) (h : (dat3 V c).arrAt w cfg3.N = V' c (Pipeline.arrRef spec3 w)) (q : PosShare TreeShare) :
    (((cfg3.win w).arr.view.loc (c : Thread nD τ)) ↦[(cfg3.win w).arr.view.set]{q} (dat3 V c).arrAt w cfg3.N : sProp (MM F))
      ⊢ ((c : Thread nD τ).loc (Pipeline.arrRef spec3 w)) ↦{q} V' c (Pipeline.arrRef spec3 w) := by
  rw [arrSet3, h]; first | done | exact .rfl

set_option maxHeartbeats 1000000 in

theorem enter3 (V : Entry F) (c : Dev nD) :
    (Pipeline.arrBufs (Ix := Unit) (Name := ℕ) (U := UR sig nD τ) (Lvl := ℕ) spec3 c (V c) : sProp (MM F))
      ⊢ (dat3 V c).arrays (fun w => (dat3 V c).arrAt w 0) := by
  unfold Pipeline.arrBufs Dat.arrays
  rw [bigSep_arr3, bigSep_W3]
  iintro ⟨H40, H10, H28, H41, H42⟩
  ihave H28s := (pointsTo_share (PosShare.mem_left_op_right fullShare)).1 $$ H28
  icases H28s with ⟨H28l, H28r⟩
  isplitl [H40]; · iapply (enter3_w V c 0 fullShare); iexact H40
  isplitl [H10]; · iapply (enter3_w V c 1 fullShare); iexact H10
  isplitl [H28l]; · iapply (enter3_w V c 2 fullShare.left); iexact H28l
  isplitl [H41]; · iapply (enter3_w V c 3 fullShare); iexact H41
  isplitl [H28r]; · iapply (enter3_w V c 4 fullShare.right); iexact H28r
  iapply (enter3_w V c 5 fullShare); iexact H42

set_option maxHeartbeats 1000000 in

theorem leave3 (V V' : Entry F) (c : Dev nD)
    (hout : V' c (Pipeline.arrRef spec3 5) = (dat3 V c).arrAt 5 cfg3.N)
    (hrest : ∀ b, b ≠ Pipeline.arrRef spec3 5 → V' c b = V c b) :
    (dat3 V c).arrays (fun w => (dat3 V c).arrAt w cfg3.N)
      ⊢ (Pipeline.arrBufs (Ix := Unit) (Name := ℕ) (U := UR sig nD τ) (Lvl := ℕ) spec3 c (V' c) : sProp (MM F)) := by
  unfold Pipeline.arrBufs Dat.arrays
  rw [bigSep_arr3, bigSep_W3]
  iintro ⟨H40, H10, H28l, H41, H28r, H42⟩
  ihave H40 := (leave3_w V V' c 0 (((dat3 V c).arrAt_in 0 rfl _).trans (hrest _ (by decide)).symm) _) $$ H40
  ihave H10 := (leave3_w V V' c 1 (((dat3 V c).arrAt_in 1 rfl _).trans (hrest _ (by decide)).symm) _) $$ H10
  ihave H28l := (leave3_w V V' c 2 (((dat3 V c).arrAt_in 2 rfl _).trans (hrest _ (by decide)).symm) _) $$ H28l
  ihave H41 := (leave3_w V V' c 3 (((dat3 V c).arrAt_in 3 rfl _).trans (hrest _ (by decide)).symm) _) $$ H41
  ihave H28r := (leave3_w V V' c 4 (((dat3 V c).arrAt_in 4 rfl _).trans (hrest _ (by decide)).symm) _) $$ H28r
  ihave H42 := (leave3_w V V' c 5 hout.symm _) $$ H42
  isplitl [H40]; · iexact H40
  isplitl [H10]; · iexact H10
  isplitl [H28l H28r]
  · iapply (pointsTo_share (PosShare.mem_left_op_right fullShare)).2
    isplitl [H28l]; · iexact H28l
    iexact H28r
  isplitl [H41]; · iexact H41
  iexact H42

end Cert.KernelIdeal.Hand

end
-- ==== Proof.KI.Reg4.lean ====
import proofs.«416092_j83932250898780_3_alg».proof.Proof.KI.Reg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

def iblk4 (V : Entry F) (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem cc4_eq_cc3 : cc4__gcn_linear_fused_kernel (F := F) = cc3__gcn_linear_fused_kernel (F := F) := rfl

def dat4 (V : Entry F) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out3_5 (iblk4 V c 0 t) (iblk4 V c 1 t) (iblk4 V c 2 t) (iblk4 V c 3 t) (iblk4 V c 4 t)
  Φ _ := Pipeline.ΦA spec4 c
  q w := match w with
    | ⟨0, _⟩ => fullShare
    | ⟨1, _⟩ => fullShare
    | ⟨2, _⟩ => fullShare.left
    | ⟨3, _⟩ => fullShare
    | ⟨4, _⟩ => fullShare.right
    | ⟨5, _⟩ => fullShare
  owed _ := 0

theorem owed4 (V : Entry F) (c : Dev nD) (t : Fin (cfg4.N + 1)) : (dat4 V c).owed t = 0 := rfl

theorem Phi4 (V : Entry F) (c : Dev nD) (t : Fin (cfg4.N + 1)) : (dat4 V c).Φ t = Pipeline.ΦA spec4 c := rfl

theorem before4_0 (V : Entry F) (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (V : Entry F) (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (V : Entry F) (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (V : Entry F) (c : Dev nD) (t : Fin cfg4.N) (d) : (dat4 V c).before 3 t d = iblk4 V c 3 t :=
  (dat4 V c).before_in_eq_fetched 3 rfl (fun _ => rfl) (fun _ _ _ => rfl) (fun _ => rfl) t d
theorem before4_4 (V : Entry F) (c : Dev nD) (t : Fin cfg4.N) (d) : (dat4 V c).before 4 t d = iblk4 V c 4 t :=
  (dat4 V c).before_in_eq_fetched 4 rfl (fun _ => rfl) (fun _ _ _ => rfl) (fun _ => rfl) t d

theorem sound_body4 (V : Entry F) (c : Dev nD) (t : Fin cfg4.N) :
    (iprop((dat4 V c).Φ t.castSucc ∗ (dat4 V c).owesAt () t.castSucc
      ∗ (∃ d, owns c (st4_0 t) fullShare ((dat4 V c).before 0 t d))
      ∗ (∃ d, owns c (st4_1 t) fullShare ((dat4 V c).before 1 t d))
      ∗ (∃ d, owns c (st4_2 t) fullShare ((dat4 V c).before 2 t d))
      ∗ (∃ d, owns c (st4_3 t) fullShare ((dat4 V c).before 3 t d))
      ∗ (∃ d, owns c (st4_4 t) fullShare ((dat4 V c).before 4 t d))
      ∗ (∃ d, owns c (st4_5 t) fullShare ((dat4 V c).before 5 t d))) : sProp (MM F))
      ⊢ wp frame (wpE (defs₀ (F := F)) Variants.none c none) Set.univ (bodyAt4 t) (fun _ =>
    iprop((dat4 V c).Φ t.succ ∗ (dat4 V c).owesAt () t.succ
      ∗ owns c (st4_0 t) fullShare ((dat4 V c).after 0 t)
      ∗ owns c (st4_1 t) fullShare ((dat4 V c).after 1 t)
      ∗ owns c (st4_2 t) fullShare ((dat4 V c).after 2 t)
      ∗ owns c (st4_3 t) fullShare ((dat4 V c).after 3 t)
      ∗ owns c (st4_4 t) fullShare ((dat4 V c).after 4 t)
      ∗ owns c (st4_5 t) fullShare ((dat4 V c).after 5 t))) := by
  unfold bodyAt4
  rw [cc4_eq_cc3]
  simp only [before4_0, before4_1, before4_2, before4_3, before4_4]
  rw [show (dat4 V c).owesAt () t.succ = (dat4 V c).owesAt () t.castSucc from rfl]
  dsimp only [dat4]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ (st4_0 t) _ (st4_1 t) _ (st4_2 t) _ (st4_3 t) _ (st4_4 t) _ (st4_5 t) _ (iblk4 V c 0 t) (iblk4 V c 1 t) (iblk4 V c 2 t) (iblk4 V c 3 t) (iblk4 V c 4 t) _)
  iframe H0 H1 H2 H3 H4
  isplitl [H5]; · iexists _; iexact H5
  iintro ⟨H0, H1, H2, H3, H4, H5⟩
  iframe

theorem body_obligation4 (V : Entry F) (c : Dev nD) : BodyObligation (dat4 (F := F) V c) (defs₀ (F := F)) Variants.none () Set.univ := fun t => by
  rw [bigSep_W4, bigSep_W4]
  exact sound_body4 V c t

theorem bigSep_arr4 {M : Type} [URA M] (Φ : Ref sig .tc → sProp M) :
    bigSep (Finset.univ.image (Pipeline.arrRef spec4)) Φ = iprop(Φ main_v53 ∗ Φ main_arg12 ∗ Φ main_v28 ∗ Φ main_v54 ∗ Φ main_v55) :=
  bigSep_eq_bigSepL_of_eq [main_v53, main_arg12, main_v28, main_v54, main_v55] (by decide) (by decide) Φ

theorem arrSet4 (w : Fin cfg4.W) : (cfg4.win w).arr.view.set = Finset.univ := (arr_whole4 w).set_eq_univ

theorem enter4_w (V : Entry F) (c : Dev nD) (w : Fin cfg4.W) (q : PosShare TreeShare) :
    (((c : Thread nD τ).loc (Pipeline.arrRef spec4 w)) ↦{q} V c (Pipeline.arrRef spec4 w) : sProp (MM F))
      ⊢ ((cfg4.win w).arr.view.loc (c : Thread nD τ)) ↦[(cfg4.win w).arr.view.set]{q} (dat4 V c).arrAt w 0 := by
  rw [arrSet4]; first | done | exact .rfl

theorem leave4_w (V V' : Entry F) (c : Dev nD) (w : Fin cfg4.W) (h : (dat4 V c).arrAt w cfg4.N = V' c (Pipeline.arrRef spec4 w)) (q : PosShare TreeShare) :
    (((cfg4.win w).arr.view.loc (c : Thread nD τ)) ↦[(cfg4.win w).arr.view.set]{q} (dat4 V c).arrAt w cfg4.N : sProp (MM F))
      ⊢ ((c : Thread nD τ).loc (Pipeline.arrRef spec4 w)) ↦{q} V' c (Pipeline.arrRef spec4 w) := by
  rw [arrSet4, h]; first | done | exact .rfl

set_option maxHeartbeats 1000000 in

theorem enter4 (V : Entry F) (c : Dev nD) :
    (Pipeline.arrBufs (Ix := Unit) (Name := ℕ) (U := UR sig nD τ) (Lvl := ℕ) spec4 c (V c) : sProp (MM F))
      ⊢ (dat4 V c).arrays (fun w => (dat4 V c).arrAt w 0) := by
  unfold Pipeline.arrBufs Dat.arrays
  rw [bigSep_arr4, bigSep_W4]
  iintro ⟨H40, H10, H28, H41, H42⟩
  ihave H28s := (pointsTo_share (PosShare.mem_left_op_right fullShare)).1 $$ H28
  icases H28s with ⟨H28l, H28r⟩
  isplitl [H40]; · iapply (enter4_w V c 0 fullShare); iexact H40
  isplitl [H10]; · iapply (enter4_w V c 1 fullShare); iexact H10
  isplitl [H28l]; · iapply (enter4_w V c 2 fullShare.left); iexact H28l
  isplitl [H41]; · iapply (enter4_w V c 3 fullShare); iexact H41
  isplitl [H28r]; · iapply (enter4_w V c 4 fullShare.right); iexact H28r
  iapply (enter4_w V c 5 fullShare); iexact H42

set_option maxHeartbeats 1000000 in

theorem leave4 (V V' : Entry F) (c : Dev nD)
    (hout : V' c (Pipeline.arrRef spec4 5) = (dat4 V c).arrAt 5 cfg4.N)
    (hrest : ∀ b, b ≠ Pipeline.arrRef spec4 5 → V' c b = V c b) :
    (dat4 V c).arrays (fun w => (dat4 V c).arrAt w cfg4.N)
      ⊢ (Pipeline.arrBufs (Ix := Unit) (Name := ℕ) (U := UR sig nD τ) (Lvl := ℕ) spec4 c (V' c) : sProp (MM F)) := by
  unfold Pipeline.arrBufs Dat.arrays
  rw [bigSep_arr4, bigSep_W4]
  iintro ⟨H40, H10, H28l, H41, H28r, H42⟩
  ihave H40 := (leave4_w V V' c 0 (((dat4 V c).arrAt_in 0 rfl _).trans (hrest _ (by decide)).symm) _) $$ H40
  ihave H10 := (leave4_w V V' c 1 (((dat4 V c).arrAt_in 1 rfl _).trans (hrest _ (by decide)).symm) _) $$ H10
  ihave H28l := (leave4_w V V' c 2 (((dat4 V c).arrAt_in 2 rfl _).trans (hrest _ (by decide)).symm) _) $$ H28l
  ihave H41 := (leave4_w V V' c 3 (((dat4 V c).arrAt_in 3 rfl _).trans (hrest _ (by decide)).symm) _) $$ H41
  ihave H28r := (leave4_w V V' c 4 (((dat4 V c).arrAt_in 4 rfl _).trans (hrest _ (by decide)).symm) _) $$ H28r
  ihave H42 := (leave4_w V V' c 5 hout.symm _) $$ H42
  isplitl [H40]; · iexact H40
  isplitl [H10]; · iexact H10
  isplitl [H28l H28r]
  · iapply (pointsTo_share (PosShare.mem_left_op_right fullShare)).2
    isplitl [H28l]; · iexact H28l
    iexact H28r
  isplitl [H41]; · iexact H41
  iexact H42

end Cert.KernelIdeal.Hand

end
-- ==== Proof.KI.Reg5.lean ====
import proofs.«416092_j83932250898780_3_alg».proof.Proof.KI.Base
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev cond5 (i : grid5.Coords) : Prop :=
  (Scalar.cmpi .ne (Scalar.extui (Scalar.cmpi .eq (BitVec.ofNat 32 (i 0).val) 0#32)) 0#32) = 1#1

theorem hcond5 : ∀ t : Fin cfg5.N, cond5 (grid5.coords t) ↔ t.val % 50 = 0 :=
  (by decide +kernel : ∀ t : Fin grid5.N, cond5 (grid5.coords t) ↔ t.val % 50 = 0)

abbrev rI0 : Rect S2000x64 := Rect.unit (s := S2000x64) ![0, 0] S2000x64.size inb_S2000x64_S2000x64_0_0
abbrev rI1 : Rect S2000x1 := Rect.unit (s := S2000x1) ![0, 0] S2000x1.size inb_S2000x1_S2000x1_0_0
abbrev rS : Rect S512x64 := Rect.unit (s := S512x64) ![0, 0] S512x64.size inb_S512x64_S512x64_0_0
abbrev rC : Rect S512x1 := Rect.unit (s := S512x1) ![0, 0] S512x1.size inb_S512x1_S512x1_0_0

def updS (x0 : Vec F S2000x64 .f32) (x1 : Vec F S2000x1 .f32) (x2 : Vec F S2000x1 .i32) (v : Vec F S512x64 .f32) : Vec F S512x64 .f32 :=
  k5_pay4 (View.ld x2 rI1) (View.ld x0 rI0) (View.ld x1 rI1) v

def updC (x2 : Vec F S2000x1 .i32) (v : Vec F S512x1 .f32) : Vec F S512x1 .f32 :=
  k5_pay5 (View.ld x2 rI1) v

theorem zero5 : (![0, 0] : Fin 2 → Nat) = fun _ => 0 := funext fun a => by fin_cases a <;> rfl

theorem read_writes5 {S : Shape} {e : EltTy} {κ : Kind} {sp : Space} (v : View sig κ sp S e) (f : v.ty.Contents (Elt F)) {off : Fin S.rank → ℕ} (h : off = fun _ => 0)
    (inb : ∀ a, off a + S.size a ≤ S.size a) (p : S.Idx → Elt F e) (L : List (View.Piece (Elt F) S e)) :
    View.read (Elt F) v (v.writes (Elt F) f ((⟨Rect.unit off S.size inb, p⟩ : View.Piece (Elt F) S e) :: L)) = p :=
  (View.read_writes_eq_canon v f _ fun y => ⟨_, List.mem_cons_self .., View.mem_set_unit_zero h inb y⟩).trans (View.canon_cons_unit_zero h inb p L)

section
variable (c : Dev nD) (E : Set ℕ) (i : grid5.Coords)
  (arg1 : Memref sig .tc .vmem S2000x64 .f32) (harg1 : arg1.IsWhole) (arg2 : Memref sig .tc .vmem S2000x1 .f32) (harg2 : arg2.IsWhole)
  (arg3 : Memref sig .tc .vmem S2000x1 .i32) (harg3 : arg3.IsWhole) (arg4 : Memref sig .tc .vmem S512x64 .f32) (harg4 : arg4.IsWhole)
  (arg5 : Memref sig .tc .vmem S512x1 .f32) (harg5 : arg5.IsWhole) (arg6 : Memref sig .tc .vmem S512x64 .f32) (harg6 : arg6.IsWhole)
  (arg7 : Memref sig .tc .vmem S512x1 .f32) (harg7 : arg7.IsWhole)
  (x0 : Vec F S2000x64 .f32) (x1 : Vec F S2000x1 .f32) (x2 : Vec F S2000x1 .i32) (K : PUnit → sProp (MM F))

abbrev ker5 (P6 P7 : sProp (MM F)) (s : Vec F S512x64 .f32) (n : Vec F S512x1 .f32) : Prop :=
  iprop(owns (c : Thread nD τ) arg1 fullShare x0 ∗ owns (c : Thread nD τ) arg2 fullShare x1 ∗ owns (c : Thread nD τ) arg3 fullShare x2
      ∗ (∃ d, owns (c : Thread nD τ) arg4 fullShare d) ∗ (∃ d, owns (c : Thread nD τ) arg5 fullShare d) ∗ P6 ∗ P7
      ∗ (iprop(owns (c : Thread nD τ) arg1 fullShare x0 ∗ owns (c : Thread nD τ) arg2 fullShare x1 ∗ owns (c : Thread nD τ) arg3 fullShare x2
          ∗ owns (c : Thread nD τ) arg4 fullShare (updS x0 x1 x2 s) ∗ owns (c : Thread nD τ) arg5 fullShare (updC x2 n)
          ∗ owns (c : Thread nD τ) arg6 fullShare (updS x0 x1 x2 s) ∗ owns (c : Thread nD τ) arg7 fullShare (updC x2 n)) -∗ K ⟨⟩))
    ⊢ wp frame (wpE (defs₀ (F := F)) Variants.none c none) E (cc5__pool_kernel i arg1 harg1 arg2 harg2 arg3 harg3 arg4 harg4 arg5 harg5 arg6 harg6 arg7 harg7) K

set_option maxHeartbeats 4000000 in
theorem sound_kernel5_A (hi : cond5 i) :
    ker5 c E i arg1 harg1 arg2 harg2 arg3 harg3 arg4 harg4 arg5 harg5 arg6 harg6 arg7 harg7 x0 x1 x2 K iprop(∃ d, owns (c : Thread nD τ) arg6 fullShare d) iprop(∃ d, owns (c : Thread nD τ) arg7 fullShare d) k5_pay1 k5_pay2 := by
  unfold ker5
  simp only [cc5__pool_kernel_eq_skeleton]; unfold cc5__pool_kernel_skel
  simp only [k5_part1_eq_skeleton]; unfold k5_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0; subst hf1; subst hf2
  sl_exec (disch := exact hi)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [read_writes5 (S := S512x64) _ _ zero5]
    simp only [View.readCov_cons_toLoadRect]
    rfl
  isplitl [H4]
  · iexists _; isplitr
    swap; · iexact H4
    ipureintro
    sl_unfold_run_names
    rw [read_writes5 (S := S512x1) _ _ zero5]
    simp only [View.readCov_cons_toLoadRect]
    rfl
  isplitl [H5]
  · iexists _; isplitr
    swap; · iexact H5
    ipureintro
    sl_unfold_run_names
    rw [read_writes5 (S := S512x64) _ _ zero5]
    simp only [View.readCov_cons_toLoadRect]
    rfl
  iexists _; isplitr
  swap; · iexact H6
  ipureintro
  sl_unfold_run_names
  rw [read_writes5 (S := S512x1) _ _ zero5]
  simp only [View.readCov_cons_toLoadRect]
  rfl

set_option maxHeartbeats 4000000 in
theorem sound_kernel5_B (hi : ¬ cond5 i) (a : Vec F S512x64 .f32) (b : Vec F S512x1 .f32) :
    ker5 c E i arg1 harg1 arg2 harg2 arg3 harg3 arg4 harg4 arg5 harg5 arg6 harg6 arg7 harg7 x0 x1 x2 K (owns (c : Thread nD τ) arg6 fullShare a) (owns (c : Thread nD τ) arg7 fullShare b) (View.ld a rS) (View.ld b rC) := by
  unfold ker5
  simp only [cc5__pool_kernel_eq_skeleton]; unfold cc5__pool_kernel_skel
  simp only [k5_part1_eq_skeleton]; unfold k5_part1_skel
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, Hk⟩
  subst hf0; subst hf1; subst hf2; subst hf5; subst hf6
  sl_exec (disch := exact hi)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [read_writes5 (S := S512x64) _ _ zero5, View.readCov_cons_toLoadRect]
    rfl
  isplitl [H4]
  · iexists _; isplitr
    swap; · iexact H4
    ipureintro
    sl_unfold_run_names
    rw [read_writes5 (S := S512x1) _ _ zero5, View.readCov_cons_toLoadRect]
    rfl
  isplitl [H5]
  · iexists _; isplitr
    swap; · iexact H5
    ipureintro
    sl_unfold_run_names
    rw [read_writes5 (S := S512x64) _ _ zero5]
    rfl
  iexists _; isplitr
  swap; · iexact H6
  ipureintro
  sl_unfold_run_names
  rw [read_writes5 (S := S512x1) _ _ zero5]
  rfl

end

def iblk5 (V : Entry F) (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def acc5 (V : Entry F) (c : Dev nD) : (n : ℕ) → n < cfg5.N → Vec F S512x64 .f32 × Vec F S512x1 .f32
  | 0, h => (updS (iblk5 V c 0 ⟨0, h⟩) (iblk5 V c 1 ⟨0, h⟩) (iblk5 V c 2 ⟨0, h⟩) k5_pay1, updC (iblk5 V c 2 ⟨0, h⟩) k5_pay2)
  | n + 1, h =>
    (updS (iblk5 V c 0 ⟨n + 1, h⟩) (iblk5 V c 1 ⟨n + 1, h⟩) (iblk5 V c 2 ⟨n + 1, h⟩) (View.ld (acc5 V c n (Nat.lt_of_succ_lt h)).1 rS),
      updC (iblk5 V c 2 ⟨n + 1, h⟩) (View.ld (acc5 V c n (Nat.lt_of_succ_lt h)).2 rC))

abbrev scM0 : Memref sig .tc .vmem S512x64 .f32 := Memref.whole cc5_scratch0
abbrev scM1 : Memref sig .tc .vmem S512x1 .f32 := Memref.whole cc5_scratch1

def Phi5 (V : Entry F) (c : Dev nD) : (n : ℕ) → n ≤ cfg5.N → sProp (MM F)
  | 0, _ => iprop((∃ r, prngReg c r) ∗ Pipeline.scopedRest (Ix := Unit) (Name := ℕ) (U := UR sig nD τ) (Lvl := ℕ) (Val := Elt F) spec5 c)
  | n + 1, h =>
    iprop((∃ r, prngReg c r)
      ∗ (owns (c : Thread nD τ) scM0 fullShare (acc5 V c n h).1 ∗ owns (c : Thread nD τ) scM1 fullShare (acc5 V c n h).2)
      ∗ Pipeline.scopedRestBut (Ix := Unit) (Name := ℕ) (U := UR sig nD τ) (Lvl := ℕ) (Val := Elt F) spec5 c [cc5_scratch0, cc5_scratch1])

theorem Phi5_zero (V : Entry F) (c : Dev nD) (h : 0 ≤ cfg5.N) :
    Phi5 V c 0 h = iprop((∃ r, prngReg c r)
      ∗ ((∃ d, owns (c : Thread nD τ) scM0 fullShare d) ∗ (∃ d, owns (c : Thread nD τ) scM1 fullShare d))
      ∗ Pipeline.scopedRestBut (Ix := Unit) (Name := ℕ) (U := UR sig nD τ) (Lvl := ℕ) (Val := Elt F) spec5 c [cc5_scratch0, cc5_scratch1]) := by
  rw [Phi5, scopedRest5_split]; simp only [scM0, scM1, owns_whole]; rfl

def dat5 (V : Entry F) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (acc5 V c t.val t.isLt).1
    | ⟨4, _⟩ => (acc5 V c t.val t.isLt).2
  Φ t := Phi5 V c t.val (Nat.le_of_lt_succ t.isLt)
  q _ := fullShare
  owed _ := 0

theorem A_eq5 (V : Entry F) (c : Dev nD) (w : Fin cfg5.W) : (dat5 V c).A w = V c (Pipeline.arrRef spec5 w) := by
  dsimp only [dat5]

theorem owed5 (V : Entry F) (c : Dev nD) (t) : (dat5 V c).owed t = 0 := by dsimp only [dat5]

theorem q5 (V : Entry F) (c : Dev nD) (w) : (dat5 V c).q w = fullShare := by dsimp only [dat5]

theorem before5_0 (V : Entry F) (c : Dev nD) (t : Fin cfg5.N) (d) : (dat5 V c).before 0 t d = iblk5 V c 0 t :=
  (dat5 V c).before_fetched 0 t (fetch5_0 t) d
theorem before5_1 (V : Entry F) (c : Dev nD) (t : Fin cfg5.N) (d) : (dat5 V c).before 1 t d = iblk5 V c 1 t :=
  (dat5 V c).before_fetched 1 t (fetch5_1 t) d
theorem before5_2 (V : Entry F) (c : Dev nD) (t : Fin cfg5.N) (d) : (dat5 V c).before 2 t d = iblk5 V c 2 t :=
  (dat5 V c).before_fetched 2 t (fetch5_2 t) d

set_option maxHeartbeats 4000000 in
theorem sound_body5 (V : Entry F) (c : Dev nD) (t : Fin cfg5.N) :
    iprop(Phi5 V c t.val (Nat.le_of_lt t.isLt) ∗ (dat5 V c).owesAt () t.castSucc
      ∗ (∃ d, owns (c : Thread nD τ) (st5_0 t) fullShare ((dat5 V c).before 0 t d))
      ∗ (∃ d, owns (c : Thread nD τ) (st5_1 t) fullShare ((dat5 V c).before 1 t d))
      ∗ (∃ d, owns (c : Thread nD τ) (st5_2 t) fullShare ((dat5 V c).before 2 t d))
      ∗ (∃ d, owns (c : Thread nD τ) (st5_3 t) fullShare ((dat5 V c).before 3 t d))
      ∗ (∃ d, owns (c : Thread nD τ) (st5_4 t) fullShare ((dat5 V c).before 4 t d)))
      ⊢ wp frame (wpE (defs₀ (F := F)) Variants.none c none) Set.univ (bodyAt5 t) (fun _ =>
        iprop(Phi5 V c (t.val + 1) t.isLt ∗ (dat5 V c).owesAt () t.castSucc
          ∗ owns (c : Thread nD τ) (st5_0 t) fullShare (iblk5 V c 0 t)
          ∗ owns (c : Thread nD τ) (st5_1 t) fullShare (iblk5 V c 1 t)
          ∗ owns (c : Thread nD τ) (st5_2 t) fullShare (iblk5 V c 2 t)
          ∗ owns (c : Thread nD τ) (st5_3 t) fullShare (acc5 V c t.val t.isLt).1 ∗ owns (c : Thread nD τ) (st5_4 t) fullShare (acc5 V c t.val t.isLt).2)) := by
  unfold bodyAt5
  simp only [before5_0, before5_1, before5_2]
  obtain ⟨n, hn⟩ := t
  cases n with
  | zero =>
    rw [Phi5_zero, Phi5, acc5]
    iintro ⟨⟨Hg, ⟨HS0, HS1⟩, Hrest⟩, Ho, ⟨%d0, H0⟩, ⟨%d1, H1⟩, ⟨%d2, H2⟩, ⟨%d3, H3⟩, ⟨%d4, H4⟩⟩
    iapply (sound_kernel5_A c Set.univ _ _ _ _ _ _ _ _ _ _ _ _ _ _ _ (iblk5 V c 0 ⟨0, hn⟩) (iblk5 V c 1 ⟨0, hn⟩) (iblk5 V c 2 ⟨0, hn⟩) _ ((hcond5 ⟨0, hn⟩).mpr rfl))
    iframe H0 H1 H2
    isplitl [H3]; · iexists _; iexact H3
    isplitl [H4]; · iexists _; iexact H4
    iframe HS0 HS1
    iintro ⟨H0, H1, H2, H3, H4, HS0, HS1⟩
    iframe
  | succ n =>
    rw [Phi5, Phi5, acc5]
    iintro ⟨⟨Hg, ⟨HS0, HS1⟩, Hrest⟩, Ho, ⟨%d0, H0⟩, ⟨%d1, H1⟩, ⟨%d2, H2⟩, ⟨%d3, H3⟩, ⟨%d4, H4⟩⟩
    iapply (sound_kernel5_B c Set.univ _ _ _ _ _ _ _ _ _ _ _ _ _ _ _ (iblk5 V c 0 ⟨n + 1, hn⟩) (iblk5 V c 1 ⟨n + 1, hn⟩) (iblk5 V c 2 ⟨n + 1, hn⟩) _ (fun h => by have : (n + 1) % 50 = 0 := (hcond5 ⟨n + 1, hn⟩).mp h; have := lt_of_lt_of_eq hn N_5; omega) _ _)
    iframe H0 H1 H2
    isplitl [H3]; · iexists _; iexact H3
    isplitl [H4]; · iexists _; iexact H4
    iframe HS0 HS1
    iintro ⟨H0, H1, H2, H3, H4, HS0, HS1⟩
    iframe

theorem body_obligation5 (V : Entry F) (c : Dev nD) : BodyObligation (dat5 (F := F) V c) (defs₀ (F := F)) Variants.none () Set.univ := fun t => by
  rw [bigSep_W5, bigSep_W5]
  exact sound_body5 V c t

theorem hin5 (V : Entry F) (c : Dev nD) :
    iprop((∃ r, prngReg c r) ∗ Pipeline.scopedRest (Ix := Unit) (Name := ℕ) (U := UR sig nD τ) (Lvl := ℕ) (Val := Elt F) spec5 c)
      ⊢ ((dat5 V c).Φ 0 : sProp (MM F)) := by
  rw [show (dat5 V c).Φ 0 = Phi5 V c 0 (Nat.zero_le _) from rfl]
  exact Idealize.SL.BI.Entails.refl _

theorem hout5 (V : Entry F) (c : Dev nD) :
    ((dat5 V c).Φ (Fin.last cfg5.N) : sProp (MM F))
      ⊢ iprop((∃ r, prngReg c r) ∗ Pipeline.scopedRest (Ix := Unit) (Name := ℕ) (U := UR sig nD τ) (Lvl := ℕ) (Val := Elt F) spec5 c) := by
  rw [show (dat5 V c).Φ (Fin.last cfg5.N) = Phi5 V c (49 + 1) (le_of_eq N_5.symm) from rfl, Phi5, scopedRest5_split]
  simp only [scM0, scM1, owns_whole]
  iintro ⟨Hg, ⟨HS0, HS1⟩, Hrest⟩
  isplitl [Hg]; · iexact Hg
  isplitl [HS0 HS1]
  · isplitl [HS0]; · iexists _; iexact HS0
    iexists _; iexact HS1
  iexact Hrest

end Cert.KernelIdeal.Hand
end
-- ==== Proof.KI.Reg6.lean ====
import proofs.«416092_j83932250898780_3_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

def iblk6 (V : Entry F) (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S512x64 := Rect.unit (s := S512x64) ![0, 0] S512x64.size inb_S512x64_S512x64_0_0
abbrev r6_1 : Rect S64x32 := Rect.unit (s := S64x32) ![0, 0] S64x32.size inb_S64x32_S64x32_0_0
abbrev r6_2 : Rect S1x32 := Rect.unit (s := S1x32) ![0, 0] S1x32.size inb_S1x32_S1x32_0_0
abbrev r6_3 : Rect S32x1 := Rect.unit (s := S32x1) ![0, 0] S32x1.size inb_S32x1_S32x1_0_0
abbrev r6_4 : Rect S1x1 := Rect.unit (s := S1x1) ![0, 0] S1x1.size inb_S1x1_S1x1_0_0
abbrev r6_5 : Rect S512x1 := Rect.unit (s := S512x1) ![0, 0] S512x1.size inb_S512x1_S512x1_0_0

def out6_5 (x0 : Vec F S512x64 .f32) (x1 : Vec F S64x32 .f32) (x2 : Vec F S1x32 .f32) (x3 : Vec F S32x1 .f32) (x4 : Vec F S1x1 .f32) : Vec F S512x1 .f32 :=
  View.canon [⟨r6_5, k6_pay1 (View.ld x0 r6_0) (View.ld x1 r6_1) (View.ld x2 r6_2) (View.ld x3 r6_3) (View.ld x4 r6_4)⟩]

set_option maxHeartbeats 1000000 in

theorem sound_kernel6 (c : Dev nD) (E : Set ℕ) (i : grid6.Coords)
    (arg1 : Memref sig .tc .vmem S512x64 .f32) (harg1 : arg1.IsWhole) (arg2 : Memref sig .tc .vmem S64x32 .f32) (harg2 : arg2.IsWhole)
    (arg3 : Memref sig .tc .vmem S1x32 .f32) (harg3 : arg3.IsWhole) (arg4 : Memref sig .tc .vmem S32x1 .f32) (harg4 : arg4.IsWhole)
    (arg5 : Memref sig .tc .vmem S1x1 .f32) (harg5 : arg5.IsWhole) (arg6 : Memref sig .tc .vmem S512x1 .f32) (harg6 : arg6.IsWhole)
    (x0 : Vec F S512x64 .f32) (x1 : Vec F S64x32 .f32) (x2 : Vec F S1x32 .f32) (x3 : Vec F S32x1 .f32) (x4 : Vec F S1x1 .f32)
    (K : PUnit → sProp (MM F)) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E (cc6__classifier_kernel i arg1 harg1 arg2 harg2 arg3 harg3 arg4 harg4 arg5 harg5 arg6 harg6) K := by
  simp only [cc6__classifier_kernel_eq_skeleton]; unfold cc6__classifier_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled [⟨r6_5, _⟩] S512x1.size (by rfl))

def dat6 (V : Entry F) (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (V : Entry F) (c : Dev nD) (w : Fin cfg6.W) : (dat6 V c).A w = V c (Pipeline.arrRef spec6 w) := by
  dsimp only [dat6]

theorem owed6 (V : Entry F) (c : Dev nD) (t) : (dat6 V c).owed t = 0 := by dsimp only [dat6]

theorem Phi6 (V : Entry F) (c : Dev nD) (t) : (dat6 V c).Φ t = Pipeline.ΦA spec6 c := by dsimp only [dat6]

theorem q6 (V : Entry F) (c : Dev nD) (w) : (dat6 V c).q w = fullShare := by dsimp only [dat6]

theorem before6_0 (V : Entry F) (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (V : Entry F) (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (V : Entry F) (c : Dev nD) (t : Fin cfg6.N) (d) : (dat6 V c).before 2 t d = iblk6 V c 2 t :=
  (dat6 V c).before_in_eq_fetched 2 rfl (fun _ => rfl) (fun _ _ _ => rfl) (fun _ => rfl) t d
theorem before6_3 (V : Entry F) (c : Dev nD) (t : Fin cfg6.N) (d) : (dat6 V c).before 3 t d = iblk6 V c 3 t :=
  (dat6 V c).before_in_eq_fetched 3 rfl (fun _ => rfl) (fun _ _ _ => rfl) (fun _ => rfl) t d
theorem before6_4 (V : Entry F) (c : Dev nD) (t : Fin cfg6.N) (d) : (dat6 V c).before 4 t d = iblk6 V c 4 t :=
  (dat6 V c).before_in_eq_fetched 4 rfl (fun _ => rfl) (fun _ _ _ => rfl) (fun _ => rfl) t d

theorem sound_body6 (V : Entry F) (c : Dev nD) (t : Fin cfg6.N) :
    iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d))
      ∗ (∃ d, owns (c : Thread nD τ) (st6_3 t) fullShare ((dat6 V c).before 3 t d))
      ∗ (∃ d, owns (c : Thread nD τ) (st6_4 t) fullShare ((dat6 V c).before 4 t d))
      ∗ (∃ d, owns (c : Thread nD τ) (st6_5 t) fullShare ((dat6 V c).before 5 t d)))
      ⊢ wp frame (wpE (defs₀ (F := F)) Variants.none c none) Set.univ (bodyAt6 t) (fun _ =>
        iprop((dat6 V c).Φ t.castSucc ∗ (dat6 V c).owesAt () t.castSucc
          ∗ owns (c : Thread nD τ) (st6_0 t) fullShare (iblk6 V c 0 t)
          ∗ owns (c : Thread nD τ) (st6_1 t) fullShare (iblk6 V c 1 t)
          ∗ owns (c : Thread nD τ) (st6_2 t) fullShare (iblk6 V c 2 t)
          ∗ owns (c : Thread nD τ) (st6_3 t) fullShare (iblk6 V c 3 t)
          ∗ owns (c : Thread nD τ) (st6_4 t) fullShare (iblk6 V c 4 t)
          ∗ owns (c : Thread nD τ) (st6_5 t) fullShare (out6_5 (iblk6 V c 0 t) (iblk6 V c 1 t) (iblk6 V c 2 t) (iblk6 V c 3 t) (iblk6 V c 4 t)))) := by
  unfold bodyAt6
  simp only [before6_0, before6_1, before6_2, before6_3, before6_4]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  iframe H0 H1 H2 H3 H4
  isplitl [H5]; · iexists _; iexact H5
  iintro ⟨H0, H1, H2, H3, H4, H5⟩
  iframe

theorem body_obligation6 (V : Entry F) (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Fold.lean ====
import proofs.«416092_j83932250898780_3_alg».proof.Proof.KI.Fold1
import proofs.«416092_j83932250898780_3_alg».proof.Proof.KI.Reg3
import proofs.«416092_j83932250898780_3_alg».proof.Proof.KI.Reg4
import proofs.«416092_j83932250898780_3_alg».proof.Proof.KI.Reg5
import proofs.«416092_j83932250898780_3_alg».proof.Proof.KI.Reg6

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ)

abbrev W9 (c : Dev nD) : Valuation τ sig (Elt F) := StableHlo.after hostOps3 (W8 m c)
abbrev E9 : Entry F := fun c b => W9 m c b
theorem W9_of (c : Dev nD) (r : Ref sig .tc) (h : r ∉ hostOps3_W) : W9 m c r = W8 m c r :=
  StableHlo.after_of_writes_sub hostOps3 _ hostOps3_writes h

def W10 (c : Dev nD) : Valuation τ sig (Elt F) :=
  (Function.update (W9 m c) (Proc.devRef .tc main_v42) ((dat3 (E9 m) c).arrAt 5 cfg3.N : Buf (Elt F) ((c : Thread nD τ).loc main_v42)))
abbrev E10 : Entry F := fun c b => W10 m c b
theorem W10_of (c : Dev nD) (r : Ref sig .tc) (h : r ∉ ([main_v42] : List (Ref sig .tc))) : W10 m c r = W9 m c r :=
  upd_of h
theorem W10_out (c : Dev nD) : W10 m c main_v42 = (dat3 (E9 m) c).arrAt 5 cfg3.N :=
  Function.update_self _ _ _
theorem hrest3 (c : Dev nD) : ∀ b, b ∉ Finset.univ.image (Pipeline.arrRef spec3) → E10 m c b = E9 m c b :=
  fun b hb => W10_of m c b (not_mem_map hb [5])

abbrev W11 (c : Dev nD) : Valuation τ sig (Elt F) := StableHlo.after hostOps4 (W10 m c)
abbrev E11 : Entry F := fun c b => W11 m c b
theorem W11_of (c : Dev nD) (r : Ref sig .tc) (h : r ∉ hostOps4_W) : W11 m c r = W10 m c r :=
  StableHlo.after_of_writes_sub hostOps4 _ hostOps4_writes h

def W12 (c : Dev nD) : Valuation τ sig (Elt F) :=
  (Function.update (W11 m c) (Proc.devRef .tc main_v55) ((dat4 (E11 m) c).arrAt 5 cfg4.N : Buf (Elt F) ((c : Thread nD τ).loc main_v55)))
abbrev E12 : Entry F := fun c b => W12 m c b
theorem W12_of (c : Dev nD) (r : Ref sig .tc) (h : r ∉ ([main_v55] : List (Ref sig .tc))) : W12 m c r = W11 m c r :=
  upd_of h
theorem W12_out (c : Dev nD) : W12 m c main_v55 = (dat4 (E11 m) c).arrAt 5 cfg4.N :=
  Function.update_self _ _ _
theorem hrest4 (c : Dev nD) : ∀ b, b ∉ Finset.univ.image (Pipeline.arrRef spec4) → E12 m c b = E11 m c b :=
  fun b hb => W12_of m c b (not_mem_map hb [5])

abbrev W13 (c : Dev nD) : Valuation τ sig (Elt F) := StableHlo.after hostOps5 (W12 m c)
abbrev E13 : Entry F := fun c b => W13 m c b
theorem W13_of (c : Dev nD) (r : Ref sig .tc) (h : r ∉ hostOps5_W) : W13 m c r = W12 m c r :=
  StableHlo.after_of_writes_sub hostOps5 _ hostOps5_writes h

def W14 (c : Dev nD) : Valuation τ sig (Elt F) :=
  (Function.update (Function.update (W13 m c) (Proc.devRef .tc main_v68_0) ((dat5 (E13 m) c).arrAt 3 cfg5.N : Buf (Elt F) ((c : Thread nD τ).loc main_v68_0))) (Proc.devRef .tc main_v68_1) ((dat5 (E13 m) c).arrAt 4 cfg5.N : Buf (Elt F) ((c : Thread nD τ).loc main_v68_1)))
abbrev E14 : Entry F := fun c b => W14 m c b
theorem W14_of (c : Dev nD) (r : Ref sig .tc) (h : r ∉ ([main_v68_0, main_v68_1] : List (Ref sig .tc))) : W14 m c r = W13 m c r :=
  (upd_of (List.not_mem_of_not_mem_cons h)).trans (upd_of h)
theorem W14_out0 (c : Dev nD) : W14 m c main_v68_0 = (dat5 (E13 m) c).arrAt 3 cfg5.N :=
  (upd_of (L := []) (by decide)).trans (Function.update_self _ _ _)
theorem W14_out1 (c : Dev nD) : W14 m c main_v68_1 = (dat5 (E13 m) c).arrAt 4 cfg5.N :=
  Function.update_self _ _ _
theorem hF5 (c : Dev nD) (w : Fin cfg5.W) : (dat5 (E13 m) c).arrAt w cfg5.N = E14 m c (Pipeline.arrRef spec5 w) := by
  by_cases h : w = 3
  · subst h; exact (W14_out0 m c).symm
  by_cases h' : w = 4
  · subst h'; exact (W14_out1 m c).symm
  · exact ((dat5 _ c).arrAt_in w (by revert w; decide) _).trans (W14_of m c _ (by revert w; decide)).symm
theorem hrest5 (c : Dev nD) : ∀ b, b ∉ Finset.univ.image (Pipeline.arrRef spec5) → E14 m c b = E13 m c b :=
  fun b hb => W14_of m c b (not_mem_map hb [3, 4])

abbrev W15 (c : Dev nD) : Valuation τ sig (Elt F) := StableHlo.after hostOps6 (W14 m c)
abbrev E15 : Entry F := fun c b => W15 m c b
theorem W15_of (c : Dev nD) (r : Ref sig .tc) (h : r ∉ hostOps6_W) : W15 m c r = W14 m c r :=
  StableHlo.after_of_writes_sub hostOps6 _ hostOps6_writes h

def W16 (c : Dev nD) : Valuation τ sig (Elt F) :=
  (Function.update (W15 m c) (Proc.devRef .tc main_v83) ((dat6 (E15 m) c).arrAt 5 cfg6.N : Buf (Elt F) ((c : Thread nD τ).loc main_v83)))
abbrev E16 : Entry F := fun c b => W16 m c b
theorem W16_of (c : Dev nD) (r : Ref sig .tc) (h : r ∉ ([main_v83] : List (Ref sig .tc))) : W16 m c r = W15 m c r :=
  upd_of h
theorem W16_out (c : Dev nD) : W16 m c main_v83 = (dat6 (E15 m) c).arrAt 5 cfg6.N :=
  Function.update_self _ _ _
theorem hF6 (c : Dev nD) (w : Fin cfg6.W) : (dat6 (E15 m) c).arrAt w cfg6.N = E16 m c (Pipeline.arrRef spec6 w) := by
  by_cases h : w = 5
  · subst h; exact (W16_out m c).symm
  · exact ((dat6 _ c).arrAt_in w (by revert w; decide) _).trans (W16_of m c _ (by revert w; decide)).symm
theorem hrest6 (c : Dev nD) : ∀ b, b ∉ Finset.univ.image (Pipeline.arrRef spec6) → E16 m c b = E15 m c b :=
  fun b hb => W16_of m c b (not_mem_map hb [5])

abbrev W17 (c : Dev nD) : Valuation τ sig (Elt F) := StableHlo.after hostOps7 (W16 m c)
theorem W17_of (c : Dev nD) (r : Ref sig .tc) (h : r ∉ hostOps7_W) : W17 m c r = W16 m c r :=
  StableHlo.after_of_writes_sub hostOps7 _ hostOps7_writes h

-- What no step writes is at the end what it was at the start.
theorem W17_arg (c : Dev nD) (r : Ref sig .tc)
    (h : r ∉ hostOps0_W ∧ r ∉ [main_v1] ∧ r ∉ hostOps1_W ∧ r ∉ [main_v3] ∧ r ∉ hostOps2_W ∧ r ∉ hostOps2_1_W ∧ r ∉ hostOps2_2_W
      ∧ r ∉ [main_v29] ∧ r ∉ hostOps3_W ∧ r ∉ [main_v42] ∧ r ∉ hostOps4_W ∧ r ∉ [main_v55] ∧ r ∉ hostOps5_W
      ∧ r ∉ [main_v68_0, main_v68_1] ∧ r ∉ hostOps6_W ∧ r ∉ [main_v83] ∧ r ∉ hostOps7_W) :
    W17 m c r = m ((c : Thread nD τ).loc r) := by
  obtain ⟨h0, h1, h2, h3, h4, h5, h6, h7, h8, h9, h10, h11, h12, h13, h14, h15, h16⟩ := h
  exact (W17_of m c r h16).trans <| (W16_of m c r h15).trans <| (W15_of m c r h14).trans <| (W14_of m c r h13).trans <|
    (W13_of m c r h12).trans <| (W12_of m c r h11).trans <| (W11_of m c r h10).trans <| (W10_of m c r h9).trans <|
    (W9_of m c r h8).trans <| (W8_of m c r h7).trans <| (W7_of m c r h6).trans <| (W6_of m c r h5).trans <|
    (W5_of m c r h4).trans <| (W4_of m c r h3).trans <| (W3_of m c r h2).trans <| (W2_of m c r h1).trans (W1_of m c r h0)

end Cert.KernelIdeal.Hand

end
-- ==== Proof.KI.Run.lean ====
import proofs.«416092_j83932250898780_3_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

def pdats : (p : Fin 7) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E7 m) c
  | ⟨3, _⟩ => fun c => dat3 (E9 m) c
  | ⟨4, _⟩ => fun c => dat4 (E11 m) c
  | ⟨5, _⟩ => fun c => dat5 (E13 m) c
  | ⟨6, _⟩ => fun c => dat6 (E15 m) c

abbrev Tₙ (c : Dev nD) : sProp (MM F) := iprop(StableHlo.held (c : Thread nD τ) (Pipeline.ucRefs τ sig) (W17 m c) ∗ ∃ r, prngReg c r)

abbrev pc (F : FTy → Type) [FloatOps F] (p : Fin 7) : Cfg sig Λ₀ := Pipeline.pin (pcfgs (F := F)) adm p

abbrev Ps (c : Dev nD) : sProp (MM F) := iprop(∃ r, prngReg c r)

theorem inA {c : Dev nD} {gr W : ℕ} {win : Fin W → Pipeline.WinSpec sig gr} {Φ : sProp (MM F)} (h : Φ = Pipeline.ΦA win c) :
    iprop(Ps c ∗ Pipeline.scopedRest win c) ⊢ Φ := by
  rw [h]; unfold Pipeline.ΦA; iintro ⟨Hp, Hr⟩; isplitl [Hr] <;> iassumption

theorem outA {c : Dev nD} {gr W : ℕ} {win : Fin W → Pipeline.WinSpec sig gr} {Φ : sProp (MM F)} (h : Φ = Pipeline.ΦA win c) :
    Φ ⊢ iprop(Ps c ∗ Pipeline.scopedRest win c) := by
  rw [h]; unfold Pipeline.ΦA; iintro ⟨Hr, Hp⟩; isplitl [Hp] <;> iassumption

section Region

variable (p : Fin 7) (Wi Wo : Dev nD → Valuation τ sig (Elt F))
  (hb : ∀ c, BodyObligation (pdats m p c) defs₀ 𝒱₀ () Set.univ)
  (h0 : ∀ c t, (pdats m p c).owed t = 0)
  (hr : ∀ c x, x ∈ (pdats m p c).recorded 0)
  (hi : ∀ c, iprop(Ps c ∗ Pipeline.scopedRest (pc F p).spec c) ⊢ (pdats m p c).Φ 0)
  (ho : ∀ c, (pdats m p c).Φ (Fin.last _) ⊢ iprop(Ps c ∗ Pipeline.scopedRest (pc F p).spec c))
  (win : Pipeline.WinFacts₀ (pc F p).spec)
  (hpos : ∀ w : Fin (pc F p).W, 0 < ((pc F p).spec w).block.numel)
  (hst : ∀ (w : Fin (pc F p).W) (s : Fin ((pc F p).spec w).nbuf), (((pc F p).spec w).stage s).IsWhole)

set_option backward.isDefEq.respectTransparency.types false in
def mkReg (hs : ∀ c, (unscopedBufs c (fun b => Wi c b) : sProp (MM F))
      ⊢ iprop((pdats m p c).arrays ((pdats m p c).arrAt · 0) ∗ Pipeline.unscopedRest (pc F p).spec c fun b => Wi c b))
    (hj : ∀ c, iprop((pdats m p c).arrays ((pdats m p c).arrAt · (pc F p).N) ∗ Pipeline.unscopedRest (pc F p).spec c fun b => Wi c b)
      ⊢ (unscopedBufs c (fun b => Wo c b) : sProp (MM F))) :
    Pipeline.RegionSeg (pcfgs (F := F)) adm (pdats m) () defs₀ 𝒱₀ L lv p where
  win := win
  block_pos := hpos
  stage_whole := hst
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Wi c) ∗ R c)
  post c := iprop(StableHlo.held (c : Thread nD τ) (Pipeline.ucRefs τ sig) (Wo c) ∗ R c)
  X := Ps
  Y := Ps
  Z c := Pipeline.unscopedRest (Ix := Unit) (Name := ℕ) (U := UR sig nD τ) (Lvl := ℕ) (pc F p).spec c fun b => Wi c b
  hentry c := by
    rw [Pipeline.ownSems0_none]
    have hs := hs c
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [h0 c]
      icases HO with ⟨%W, HO⟩; iexists W; isplitr; · ipureintro; exact fun _ _ => Or.inl (hr c _)
      iexact HO
    isplitl [Hp] <;> iassumption
  hin c := by
    iintro ⟨Hp, -, Hr⟩; iapply (hi c); isplitl [Hp] <;> iassumption
  hout c := by
    rw [Pipeline.ownSems0_none]
    iintro H
    ihave H := (ho c) $$ H
    icases H with ⟨Hp, Hr⟩
    isplitl [Hp]; · iexact Hp
    isplitr; · iempintro
    iexact Hr
  hexit c := by
    have hj := hj c
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin; rw [h0 c]
    icases HO with ⟨%W, -, HO⟩; iexists W; iexact HO

variable (hrest : ∀ c (b : Ref sig .tc), b ∉ Finset.univ.image (Pipeline.arrRef (pc F p).spec) → Wo c b = Wi c b)

set_option backward.isDefEq.respectTransparency.types false in
def mkRegW (lf : Pipeline.LaunchFacts (nD := nD) (τ := τ) cfgs p)
    (hq : ∀ c w, (pdats m p c).q w = fullShare)
    (hA : ∀ c w, (pdats m p c).A w = Wi c (Pipeline.arrRef (pc F p).spec w))
    (hF : ∀ c w, (pdats m p c).arrAt w (pc F p).N = Wo c (Pipeline.arrRef (pc F p).spec w)) :
    Pipeline.RegionSeg (pcfgs (F := F)) adm (pdats m) () defs₀ 𝒱₀ L lv p :=
  mkReg m p Wi Wo hb h0 hr hi ho lf.win.to₀ lf.block_pos lf.stage_whole
    (fun c => Pipeline.arrays_of_unscopedBufs (p := p) (pcfgs (F := F)) adm (pdats m) lf.win lf.arr_whole c
      ((pdats m p c).share_full (hq c)) _ (hA c))
    fun c => Pipeline.unscopedBufs_of_arrays (p := p) (pcfgs (F := F)) adm (Ix := Unit) (Name := ℕ) (U := UR sig nD τ) (Lvl := ℕ)
      lf.win lf.arr_whole c (pdats m) ((pdats m p c).share_full (hq c)) _ _ _ (hF c) (hrest c)

set_option backward.isDefEq.respectTransparency.types false in
def mkReg₀ (he : ∀ c, (Pipeline.arrBufs (pc F p).spec c (fun b => Wi c b) : sProp (MM F)) ⊢ (pdats m p c).arrays ((pdats m p c).arrAt · 0))
    (hl : ∀ c, (pdats m p c).arrays ((pdats m p c).arrAt · (pc F p).N) ⊢ (Pipeline.arrBufs (pc F p).spec c (fun b => Wo c b) : sProp (MM F))) :
    Pipeline.RegionSeg (pcfgs (F := F)) adm (pdats m) () defs₀ 𝒱₀ L lv p :=
  mkReg m p Wi Wo hb h0 hr hi ho win hpos hst
    (fun c => by rw [Pipeline.unscopedBufs_split₀ cfgs p win.arr_unscoped c]; exact sep_mono (he c) .rfl)
    fun c => by
      rw [Pipeline.unscopedBufs_split₀ cfgs p win.arr_unscoped c]
      refine sep_mono (hl c) (Entails.of_eq ?_)
      unfold Pipeline.unscopedRest
      exact bigSep_congr fun b hb => by beta_reduce; rw [hrest c b (Finset.mem_sdiff.mp hb).2]

end Region

set_option backward.isDefEq.respectTransparency.types false in
def reg0 : Pipeline.RegionSeg (pcfgs (F := F)) adm (pdats m) () defs₀ 𝒱₀ L lv 0 :=
  mkRegW m 0 (W1 m) (W2 m) (body_obligation0 (E1 m)) (owed0 (E1 m)) (fun _ _ => trivial)
    (fun c => inA (Phi0 (E1 m) c 0)) (fun c => outA (Phi0 (E1 m) c _)) (hrest0 m)
    launch0 (q0 (E1 m)) (A_eq0 (E1 m)) (hF0 m)

set_option backward.isDefEq.respectTransparency.types false in
def reg1 : Pipeline.RegionSeg (pcfgs (F := F)) adm (pdats m) () defs₀ 𝒱₀ L lv 1 :=
  mkRegW m 1 (W3 m) (W4 m) (body_obligation1 (E3 m)) (owed1 (E3 m)) (fun _ _ => trivial)
    (fun c => inA (Phi1 (E3 m) c 0)) (fun c => outA (Phi1 (E3 m) c _)) (hrest1 m)
    launch1 (q1 (E3 m)) (A_eq1 (E3 m)) (hF1 m)

set_option backward.isDefEq.respectTransparency.types false in
def reg2 : Pipeline.RegionSeg (pcfgs (F := F)) adm (pdats m) () defs₀ 𝒱₀ L lv 2 :=
  mkRegW m 2 (W7 m) (W8 m) (body_obligation2 (E7 m)) (owed2 (E7 m)) (fun _ _ => trivial)
    (fun c => inA (Phi2 (E7 m) c 0)) (fun c => outA (Phi2 (E7 m) c _)) (hrest2 m)
    launch2 (q2 (E7 m)) (A_eq2 (E7 m)) (hF2 m)

set_option backward.isDefEq.respectTransparency.types false in
def reg3 : Pipeline.RegionSeg (pcfgs (F := F)) adm (pdats m) () defs₀ 𝒱₀ L lv 3 :=
  mkReg₀ m 3 (W9 m) (W10 m) (body_obligation3 (E9 m)) (owed3 (E9 m)) (fun _ _ => trivial)
    (fun c => inA (Phi3 (E9 m) c 0)) (fun c => outA (Phi3 (E9 m) c _)) winFacts₀3 block_pos3 stage_whole3
    (hrest3 m) (enter3 (E9 m))
    fun c => leave3 (E9 m) (E10 m) c (W10_out m c) fun b hb => W10_of m c b (by simpa using hb)

set_option backward.isDefEq.respectTransparency.types false in
def reg4 : Pipeline.RegionSeg (pcfgs (F := F)) adm (pdats m) () defs₀ 𝒱₀ L lv 4 :=
  mkReg₀ m 4 (W11 m) (W12 m) (body_obligation4 (E11 m)) (owed4 (E11 m)) (fun _ _ => trivial)
    (fun c => inA (Phi4 (E11 m) c 0)) (fun c => outA (Phi4 (E11 m) c _)) winFacts₀4 block_pos4 stage_whole4
    (hrest4 m) (enter4 (E11 m))
    fun c => leave4 (E11 m) (E12 m) c (W12_out m c) fun b hb => W12_of m c b (by simpa using hb)

set_option backward.isDefEq.respectTransparency.types false in
def reg5 : Pipeline.RegionSeg (pcfgs (F := F)) adm (pdats m) () defs₀ 𝒱₀ L lv 5 :=
  mkRegW m 5 (W13 m) (W14 m) (body_obligation5 (E13 m)) (owed5 (E13 m)) (fun _ _ => trivial)
    (hin5 (E13 m)) (hout5 (E13 m)) (hrest5 m)
    launch5 (q5 (E13 m)) (A_eq5 (E13 m)) (hF5 m)

set_option backward.isDefEq.respectTransparency.types false in
def reg6 : Pipeline.RegionSeg (pcfgs (F := F)) adm (pdats m) () defs₀ 𝒱₀ L lv 6 :=
  mkRegW m 6 (W15 m) (W16 m) (body_obligation6 (E15 m)) (owed6 (E15 m)) (fun _ _ => trivial)
    (fun c => inA (Phi6 (E15 m) c 0)) (fun c => outA (Phi6 (E15 m) c _)) (hrest6 m)
    launch6 (q6 (E15 m)) (A_eq6 (E15 m)) (hF6 m)

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .region (reg2 m),
    .host (hseg hostOps3 hostOps3_sub hostOps3_fresh (W8 m)),
    .region (reg3 m),
    .host (hseg hostOps4 hostOps4_sub hostOps4_fresh (W10 m)),
    .region (reg4 m),
    .host (hseg hostOps5 hostOps5_sub hostOps5_fresh (W12 m)),
    .region (reg5 m),
    .host (hseg hostOps6 hostOps6_sub hostOps6_fresh (W14 m)),
    .region (reg6 m),
    .host (hseg hostOps7 hostOps7_sub hostOps7_fresh (W16 m)) ]

theorem main_run (c : Dev nD) : main (F := F) c = Pipeline.Seg.run (segs m) := (main_chain c).trans (by chain_rfl)

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = W17 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MM F))
            ⊢ BI.own (emb₁ (initOf (Pipeline.cells cfgs cellOf_inj) (Pipeline.launchToks cfgs cellOf_inj))) from .rfl)
        iexact Hu
      iapply (show (BI.emp : sProp (MM F)) ⊢ bigSep Finset.univ (fun _ : Dev nD => (BI.emp : sProp (MM F))) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m c b)
    (hfin := fun c s' => by
      iintro ⟨⟨Hh, -⟩, HSI⟩
      unfold StableHlo.held
      imodintro
      iapply (pointsTo_read_all (Pipeline.ucRefs τ sig) (fun b => (((c : Thread nD τ)).1, b)) (W17 m c) s')
      isplitl [Hh] <;> iassumption)
    (hQ := fun s h c => h c)

theorem run_result : θ_run defs (onTc (τ := τ) (main (F := F))) ⟨m, fun _ => 0, ρ⟩ (fun r => ∀ c : Dev nD,
      r.2.mem ((c.tc : Thread nD τ).loc main_v84) = W17 m c main_v84
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => by
    have k := fun b hb hw => (h c _ (mem_uc b hb)).trans (W17_arg m c b hw)
    exact ⟨h c _ (mem_uc main_v84 (by decide)), k main_arg0 (by decide) (by decide), k main_arg1 (by decide) (by decide), k main_arg2 (by decide) (by decide),
      k main_arg3 (by decide) (by decide), k main_arg4 (by decide) (by decide), k main_arg5 (by decide) (by decide), k main_arg6 (by decide) (by decide),
      k main_arg7 (by decide) (by decide), k main_arg8 (by decide) (by decide), k main_arg9 (by decide) (by decide), k main_arg10 (by decide) (by decide),
      k main_arg11 (by decide) (by decide), k main_arg12 (by decide) (by decide), k main_arg13 (by decide) (by decide), k main_arg14 (by decide) (by decide),
      k main_arg15 (by decide) (by decide), k main_arg16 (by decide) (by decide), k main_arg17 (by decide) (by decide)⟩) (run m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => (h c).2) (run_result m ρ)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Mat (n m : Nat) : Type := (⟨2, ![n, m]⟩ : Shape).Idx → EReal

abbrev IMat (n m : Nat) : Type := (⟨2, ![n, m]⟩ : Shape).Idx → BitVec 32

def dot {n i o : Nat} (x : Mat n i) (W : Mat i o) (r : Fin n) (f : Fin o) : EReal := ∑ k : Fin i, x (ix2 r k) * W (ix2 k f)

def embed {n i o : Nat} (x : Mat n i) (W : Mat i o) (b : Mat 1 o) (r : Fin n) (f : Fin o) : EReal := dot x W r f + b (ix2 0 f)

def gcnFirst {n i o : Nat} (h : Mat n i) (W : Mat i o) (d : Mat n 1) (r : Fin n) (f : Fin o) : EReal := dot h W r f * d (ix2 r 0)

def act {n i : Nat} (a : Mat n i) (d : Mat n 1) (b : Mat 1 i) (r : Fin n) (k : Fin i) : EReal := max (a (ix2 r k) * d (ix2 r 0) + b (ix2 0 k)) 0

def gcnFused {n i o : Nat} (a : Mat n i) (W : Mat i o) (d : Mat n 1) (b : Mat 1 i) (r : Fin n) (f : Fin o) : EReal :=
  (∑ k : Fin i, act a d b r k * W (ix2 k f)) * d (ix2 r 0)

def poolSum {n i G : Nat} (a : Mat n i) (d : Mat n 1) (bt : IMat n 1) (g : Fin G) (f : Fin i) : EReal :=
  ∑ r : Fin n, if (bt (ix2 r 0)).toInt = (g.val : Int) then a (ix2 r f) * d (ix2 r 0) else 0

def poolCnt {n G : Nat} (bt : IMat n 1) (g : Fin G) : EReal :=
  ∑ r : Fin n, if (bt (ix2 r 0)).toInt = (g.val : Int) then 1 else 0

def classifier {G i j : Nat} (gp : Mat G i) (W1 : Mat i j) (b1 : Mat 1 j) (W2 : Mat j 1) (b2 : Mat 1 1) (g : Fin G) : EReal :=
  (∑ q : Fin j, max (dot gp W1 g q + b1 (ix2 0 q)) 0 * W2 (ix2 q 0)) + b2 (ix2 0 0)

end Cert.Spec

end
-- ==== Proof.KI.Val0.lean ====
import proofs.«416092_j83932250898780_3_alg».proof.Proof.KI.Reg0
import proofs.«416092_j83932250898780_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx

theorem matmul_plain_apply {M K N : Nat} {φ₁ φ₂ : FTy} (D : DotDims ⟨2, ![M, K]⟩ ⟨2, ![K, N]⟩ ⟨2, ![M, N]⟩) (hD : D = DotDims.plain M K N)
    (a : FVec Ideal ⟨2, ![M, K]⟩ φ₁) (b : FVec Ideal ⟨2, ![K, N]⟩ φ₂) (p : Fin M) (q : Fin N) :
    matmul D none a b (constant (F := Ideal) ⟨2, ![M, N]⟩ .f32 0x00000000#32) (ix2 p q) = ∑ k : Fin K, a (ix2 p k) * b (ix2 k q) := by
  subst hD
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k := funext fun a => Fin.ext (by
    match a with
    | ⟨0, _⟩ => rfl
    | ⟨1, _⟩ => exact hk)
  have er : (DotDims.plain M K N).rhsIdx (ix2 p q) ((contrEquiv1 (DotDims.plain M K N) K rfl rfl).symm k) = ix2 k q := funext fun a => Fin.ext (by
    match a with
    | ⟨0, _⟩ => exact hk
    | ⟨1, _⟩ => rfl)
  rw [el, er]

theorem bias0_apply (x2 : Vec Ideal S1x64 .f32) (p : Fin 5000) (q : Fin 64) :
    broadcastTo S5000x64 (shapeCast S1x64 x2 shapeCasts_S1x64_S1x64) broadcasts_S1x64_S5000x64 (ix2 p q) = x2 (ix2 0 q) := by
  rw [broadcastTo_apply _ _ _ (ix2 0 q) (fun a => by match a with | ⟨0, _⟩ => rfl | ⟨1, _⟩ => rfl), shapeCast_self]

theorem pay0_apply (x0 : Vec Ideal S5000x128 .f32) (x1 : Vec Ideal S128x64 .f32) (x2 : Vec Ideal S1x64 .f32) (p : Fin 5000) (q : Fin 64) :
    k0_pay1 (F := Ideal) x0 x1 x2 (ix2 p q) = (∑ k : Fin 128, x0 (ix2 p k) * x1 (ix2 k q)) + x2 (ix2 0 q) := by
  unfold k0_pay1
  rw [addf_apply, matmul_plain_apply dot_S5000x128_S128x64_S5000x64_1_0_0_1_n_n rfl, bias0_apply]
  rfl

theorem zeros0 : (![0, 0] : Fin 2 → Nat) = fun _ => 0 := funext fun a => by fin_cases a <;> rfl

abbrev X0 (V : Entry Ideal) (c : Dev nD) : Cert.Spec.Mat 100000 128 := V c main_arg0
abbrev W0 (V : Entry Ideal) (c : Dev nD) : Cert.Spec.Mat 128 64 := V c main_arg4
abbrev B0 (V : Entry Ideal) (c : Dev nD) : Cert.Spec.Mat 1 64 := V c main_v0

abbrev G0 (V : Entry Ideal) (c : Dev nD) : S100000x64.Idx → EReal := fun i =>
  Cert.Spec.embed (X0 V c) (W0 V c) (B0 V c) (i 0) (i 1)

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem flushed0_eq (V : Entry Ideal) (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero zeros0]
  simp only [View.ld_unit_zero (S := S5000x128) zeros0, View.ld_unit_zero (S := S128x64) zeros0, View.ld_unit_zero (S := S1x64) zeros0]
  obtain ⟨e00, e01, e10, e11, e20, e21, e30, e31⟩ := idx_facts0 t
  have ht : t.val < 20 := lt_of_lt_of_eq t.isLt N_0
  funext j
  obtain ⟨p, q, rfl⟩ : ∃ (p : Fin 5000) (q : Fin 64), j = ix2 p q := ⟨j 0, j 1, eq_ix2 j⟩
  have hp : p.val < 5000 := p.isLt
  show k0_pay1 (F := Ideal) (iblk0 V c 0 t) (iblk0 V c 1 t) (iblk0 V c 2 t) (ix2 p q) = _
  rw [pay0_apply]
  have h3 : ((cfg0.win 3).blk t).view.emb (ix2 p q) = ix2 (⟨t.val * 5000 + p.val, by omega⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 64 + 1 * q.val = q.val; omega
  show _ = G0 V c (((cfg0.win 3).blk t).view.emb (ix2 p q))
  rw [h3]
  have r0 : ∀ k : Fin 128, iblk0 V c 0 t (ix2 p k) = X0 V c (ix2 (⟨t.val * 5000 + p.val, by omega⟩ : Fin 100000) k) := fun k => by
    refine congrArg (X0 V c) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  have r1 : ∀ k : Fin 128, iblk0 V c 1 t (ix2 k q) = W0 V c (ix2 k q) := fun k => by
    refine congrArg (W0 V c) (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega
  have r2 : iblk0 V c 2 t (ix2 (0 : Fin 1) q) = B0 V c (ix2 (0 : Fin 1) q) := by
    refine congrArg (B0 V c) (funext fun a => Fin.ext ?_)
    match a with
    | ⟨0, _⟩ => show win0_2.index t (0 : Fin 2) * 1 + 1 * 0 = 0; omega
    | ⟨1, _⟩ => show win0_2.index t (1 : Fin 2) * 64 + 1 * q.val = q.val; omega
  rw [r2]
  exact congrArg (· + _) (Finset.sum_congr rfl fun k _ => by rw [r0 k, r1 k])

theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 5000 := ⟨⟨(i 0).val / 5000, lt_of_lt_of_eq (by omega : (i 0).val / 5000 < 20) N_0.symm⟩, rfl⟩
  obtain ⟨-, -, -, -, -, -, e30, e31⟩ := idx_facts0 t
  refine ⟨t, flush0_3 t, ?_⟩
  show i ∈ ((View.whole main_v1).slice (win0_3.rect t)).set
  rw [View.set_slice_whole, Rect.mem_set_unit]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

theorem out0_apply (V : Entry Ideal) (c : Dev nD) (r : Fin 100000) (f : Fin 64) :
    (dat0 V c).arrAt 3 cfg0.N (ix2 r f) = Cert.Spec.embed (V c main_arg0) (V c main_arg4) (V c main_v0) r f := by
  rw [(dat0 V c).arrAt_eq_of_cover 3 (G0 V c) (fun t _ => flushed0_eq V c t) cover0]

end Cert.KernelIdeal.HandVal

end
-- ==== Proof.KI.Val1.lean ====
import proofs.«416092_j83932250898780_3_alg».proof.Proof.KI.Reg1
import proofs.«416092_j83932250898780_3_alg».proof.Proof.KI.Val0

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx

theorem bias1_apply (x2 : Vec Ideal S1x64 .f32) (p : Fin 8000) (q : Fin 64) :
    broadcastTo S8000x64 (shapeCast S1x64 x2 shapeCasts_S1x64_S1x64) broadcasts_S1x64_S8000x64 (ix2 p q) = x2 (ix2 0 q) := by
  rw [broadcastTo_apply _ _ _ (ix2 0 q) (fun a => by match a with | ⟨0, _⟩ => rfl | ⟨1, _⟩ => rfl), shapeCast_self]

theorem pay1_apply (x0 : Vec Ideal S8000x32 .f32) (x1 : Vec Ideal S32x64 .f32) (x2 : Vec Ideal S1x64 .f32) (p : Fin 8000) (q : Fin 64) :
    k1_pay1 (F := Ideal) x0 x1 x2 (ix2 p q) = (∑ k : Fin 32, x0 (ix2 p k) * x1 (ix2 k q)) + x2 (ix2 0 q) := by
  unfold k1_pay1
  rw [truncf_apply, addf_apply, matmul_plain_apply dot_S8000x32_S32x64_S8000x64_1_0_0_1_n_n rfl, bias1_apply]
  rfl

abbrev X1 (V : Entry Ideal) (c : Dev nD) : Cert.Spec.Mat 1600000 32 := V c main_arg2
abbrev W1 (V : Entry Ideal) (c : Dev nD) : Cert.Spec.Mat 32 64 := V c main_arg6
abbrev B1 (V : Entry Ideal) (c : Dev nD) : Cert.Spec.Mat 1 64 := V c main_v2

abbrev G1 (V : Entry Ideal) (c : Dev nD) : S1600000x64.Idx → EReal := fun i =>
  Cert.Spec.embed (X1 V c) (W1 V c) (B1 V c) (i 0) (i 1)

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem flushed1_eq (V : Entry Ideal) (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero zeros0]
  simp only [View.ld_unit_zero (S := S8000x32) zeros0, View.ld_unit_zero (S := S32x64) zeros0, View.ld_unit_zero (S := S1x64) zeros0]
  obtain ⟨e00, e01, e10, e11, e20, e21, e30, e31⟩ := idx_facts1 t
  have ht : t.val < 200 := lt_of_lt_of_eq t.isLt N_1
  funext j
  obtain ⟨p, q, rfl⟩ : ∃ (p : Fin 8000) (q : Fin 64), j = ix2 p q := ⟨j 0, j 1, eq_ix2 j⟩
  have hp : p.val < 8000 := p.isLt
  show k1_pay1 (F := Ideal) (iblk1 V c 0 t) (iblk1 V c 1 t) (iblk1 V c 2 t) (ix2 p q) = _
  rw [pay1_apply]
  have h3 : ((cfg1.win 3).blk t).view.emb (ix2 p q) = ix2 (⟨t.val * 8000 + p.val, by omega⟩ : Fin 1600000) q := by
    funext a; apply Fin.ext
    match a with
    | ⟨0, _⟩ => show win1_3.index t (0 : Fin 2) * 8000 + 1 * p.val = t.val * 8000 + p.val; omega
    | ⟨1, _⟩ => show win1_3.index t (1 : Fin 2) * 64 + 1 * q.val = q.val; omega
  show _ = G1 V c (((cfg1.win 3).blk t).view.emb (ix2 p q))
  rw [h3]
  have r0 : ∀ k : Fin 32, iblk1 V c 0 t (ix2 p k) = X1 V c (ix2 (⟨t.val * 8000 + p.val, by omega⟩ : Fin 1600000) k) := fun k => by
    refine congrArg (X1 V c) (funext fun a => Fin.ext ?_)
    match a with
    | ⟨0, _⟩ => show win1_0.index t (0 : Fin 2) * 8000 + 1 * p.val = t.val * 8000 + p.val; omega
    | ⟨1, _⟩ => show win1_0.index t (1 : Fin 2) * 32 + 1 * k.val = k.val; omega
  have r1 : ∀ k : Fin 32, iblk1 V c 1 t (ix2 k q) = W1 V c (ix2 k q) := fun k => by
    refine congrArg (W1 V c) (funext fun a => Fin.ext ?_)
    match a with
    | ⟨0, _⟩ => show win1_1.index t (0 : Fin 2) * 32 + 1 * k.val = k.val; omega
    | ⟨1, _⟩ => show win1_1.index t (1 : Fin 2) * 64 + 1 * q.val = q.val; omega
  have r2 : iblk1 V c 2 t (ix2 (0 : Fin 1) q) = B1 V c (ix2 (0 : Fin 1) q) := by
    refine congrArg (B1 V c) (funext fun a => Fin.ext ?_)
    match a with
    | ⟨0, _⟩ => show win1_2.index t (0 : Fin 2) * 1 + 1 * 0 = 0; omega
    | ⟨1, _⟩ => show win1_2.index t (1 : Fin 2) * 64 + 1 * q.val = q.val; omega
  rw [r2]
  exact congrArg (· + _) (Finset.sum_congr rfl fun k _ => by rw [r0 k, r1 k])

theorem cover1 (i : S1600000x64.Idx) : ∃ t : Fin cfg1.N, (cfg1.win 3).flush t = true ∧ i ∈ ((cfg1.win 3).blk t).view.set := by
  have hi0 : (i 0).val < 1600000 := (i 0).isLt
  have hi1 : (i 1).val < 64 := (i 1).isLt
  obtain ⟨t, ht⟩ : ∃ t : Fin cfg1.N, t.val = (i 0).val / 8000 := ⟨⟨(i 0).val / 8000, lt_of_lt_of_eq (by omega : (i 0).val / 8000 < 200) N_1.symm⟩, rfl⟩
  obtain ⟨-, -, -, -, -, -, e30, e31⟩ := idx_facts1 t
  refine ⟨t, flush1_3 t, ?_⟩
  show i ∈ ((View.whole main_v3).slice (win1_3.rect t)).set
  rw [View.set_slice_whole, Rect.mem_set_unit]
  intro a
  match a with
  | ⟨0, _⟩ => show win1_3.index t (0 : Fin 2) * 8000 ≤ (i 0).val ∧ (i 0).val < win1_3.index t (0 : Fin 2) * 8000 + 8000; omega
  | ⟨1, _⟩ => show win1_3.index t (1 : Fin 2) * 64 ≤ (i 1).val ∧ (i 1).val < win1_3.index t (1 : Fin 2) * 64 + 64; omega

theorem out1_apply (V : Entry Ideal) (c : Dev nD) (e : Fin 1600000) (f : Fin 64) :
    (dat1 V c).arrAt 3 cfg1.N (ix2 e f) = Cert.Spec.embed (V c main_arg2) (V c main_arg6) (V c main_v2) e f := by
  rw [(dat1 V c).arrAt_eq_of_cover 3 (G1 V c) (fun t _ => flushed1_eq V c t) cover1]

end Cert.KernelIdeal.HandVal

end
-- ==== Proof.Alg.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset

noncomputable section

namespace Cert.Alg

open Idealize.ShloMosaic

def seg {M N H : Nat} (hit : Fin M → Fin N → Prop) [∀ k v, Decidable (hit k v)] (u : Fin M → Fin H → EReal)
    (v : Fin N) (f : Fin H) : EReal := ∑ k : Fin M, if hit k v then u k f else 0

theorem finsum_mul_coe_nonneg {ι : Type} (t : Finset ι) (a : ι → EReal) (x : ℝ) (hx : 0 ≤ x) :
    (∑ i ∈ t, a i) * (x : EReal) = ∑ i ∈ t, a i * (x : EReal) := by
  classical
  induction t using Finset.induction_on with
  | empty => simp
  | insert i s hi ih =>
    rw [Finset.sum_insert hi, Finset.sum_insert hi,
      EReal.right_distrib_of_nonneg_of_ne_top (EReal.coe_nonneg.2 hx) (EReal.coe_ne_top x), ih]

theorem seg_scale {M N H : Nat} (hit : Fin M → Fin N → Prop) [∀ k v, Decidable (hit k v)] (P Q : Fin M → Fin N)
    (hQ : ∀ k v, hit k v → Q k = v)
    (d : Fin N → EReal) (hd : ∀ v, ∃ x : ℝ, 0 ≤ x ∧ d v = (x : EReal)) (p : Fin N → Fin H → EReal)
    (v : Fin N) (f : Fin H) :
    seg hit (fun k f => p (P k) f * (d (P k) * d (Q k))) v f
      = seg hit (fun k f => p (P k) f * d (P k)) v f * d v := by
  obtain ⟨x, hx0, hx⟩ := hd v
  unfold seg
  rw [hx, finsum_mul_coe_nonneg _ _ x hx0]
  refine Finset.sum_congr rfl fun k _ => ?_
  by_cases h : hit k v
  · rw [if_pos h, if_pos h]
    show p (P k) f * (d (P k) * d (Q k)) = p (P k) f * d (P k) * (x : EReal)
    rw [hQ k v h, hx, mul_assoc]
  · rw [if_neg h, if_neg h, zero_mul]

theorem finsum_ite_coe {ι : Type} (t : Finset ι) (s : ι → Prop) [DecidablePred s] (y : ℝ) :
    (∑ i ∈ t, if s i then (y : EReal) else 0) = ((((t.filter s).card : ℝ) * y : ℝ) : EReal) := by
  rw [← Finset.sum_filter, Finset.sum_const, ← EReal.coe_nsmul, nsmul_eq_mul]

theorem count_eq {ι : Type} [Fintype ι] (s : ι → Prop) [DecidablePred s] :
    (∑ i, if s i then (1 : EReal) else 0) = (((Finset.univ.filter s).card : ℝ) : EReal) := by
  have h := finsum_ite_coe Finset.univ s 1
  rwa [EReal.coe_one, mul_one] at h

theorem count_nat {ι : Type} [Fintype ι] (s : ι → Prop) [DecidablePred s] :
    ∃ n : ℕ, (∑ i, if s i then (1 : EReal) else 0) = ((n : ℝ) : EReal) := ⟨_, count_eq s⟩

theorem dinv_real (deg : EReal) (h : ∃ n : ℕ, deg = ((n : ℝ) : EReal)) :
    ∃ x : ℝ, 0 ≤ x ∧ (if 0 < deg then Ideal.rsqrt (max deg 1) else 0) = (x : EReal) := by
  obtain ⟨n, rfl⟩ := h
  by_cases hn : 0 < n
  ·
    have hn1 : (1 : ℝ) ≤ (n : ℝ) := by exact_mod_cast hn
    have hpos : (0 : EReal) < ((n : ℝ) : EReal) := EReal.coe_pos.2 (by linarith)
    have hmax : max ((n : ℝ) : EReal) 1 = ((n : ℝ) : EReal) := by
      rw [← EReal.coe_one]; exact max_eq_left (EReal.coe_le_coe_iff.2 hn1)
    refine ⟨(Real.sqrt (n : ℝ))⁻¹, inv_nonneg.2 (Real.sqrt_nonneg _), ?_⟩
    rw [if_pos hpos, hmax, Ideal.rsqrt_coe, if_neg (by linarith), if_neg (by linarith)]
  ·
    have hn0 : n = 0 := Nat.eq_zero_of_not_pos hn
    subst hn0
    refine ⟨0, le_refl _, ?_⟩
    rw [Nat.cast_zero, EReal.coe_zero, if_neg (lt_irrefl _)]

theorem pool_bias {N G H : Nat} (bh : Fin N → Fin G → Prop) [∀ i g, Decidable (bh i g)] (A : Fin N → Fin H → EReal)
    (b : Fin H → EReal) (hb : ∀ f, ∃ x : ℝ, b f = (x : EReal)) (g : Fin G) (f : Fin H) :
    Ideal.div (∑ i : Fin N, if bh i g then A i f + b f else 0)
        (max (∑ i : Fin N, if bh i g then (1 : EReal) else 0) 1)
      = Ideal.div (∑ i : Fin N, if bh i g then A i f else 0)
          (max (∑ i : Fin N, if bh i g then (1 : EReal) else 0) 1)
        + b f * (if (0 : EReal) < ∑ i : Fin N, if bh i g then (1 : EReal) else 0 then 1 else 0) := by
  obtain ⟨y, hy⟩ := hb f
  set c : ℕ := (Finset.univ.filter fun i : Fin N => bh i g).card with hc
  have hcount : (∑ i : Fin N, if bh i g then (1 : EReal) else 0) = ((c : ℝ) : EReal) := count_eq _
  have hsplit : (∑ i : Fin N, if bh i g then A i f + b f else 0)
      = (∑ i : Fin N, if bh i g then A i f else 0) + (((c : ℝ) * y : ℝ) : EReal) := by
    rw [← finsum_ite_coe (Finset.univ : Finset (Fin N)) (fun i => bh i g) y, ← Finset.sum_add_distrib]
    refine Finset.sum_congr rfl fun i _ => ?_
    by_cases h : bh i g
    · rw [if_pos h, if_pos h, if_pos h, hy]
    · rw [if_neg h, if_neg h, if_neg h, add_zero]
  have hmax : max (((c : ℝ) : EReal)) 1 = ((max (c : ℝ) 1 : ℝ) : EReal) := by
    rw [← EReal.coe_one]
    exact (Monotone.map_max fun _ _ hab => EReal.coe_le_coe_iff.2 hab).symm
  have hm1 : (1 : ℝ) ≤ max (c : ℝ) 1 := le_max_right _ _
  have hm0 : max (c : ℝ) 1 ≠ 0 := by linarith
  have hinv : (0 : ℝ) ≤ 1 / max (c : ℝ) 1 := by positivity
  rw [hcount, hmax, Ideal.div_coe hm0, Ideal.div_coe hm0, hsplit,
    EReal.right_distrib_of_nonneg_of_ne_top (EReal.coe_nonneg.2 hinv) (EReal.coe_ne_top _), hy]
  congr 1
  by_cases h0 : 0 < c
  · have hc1 : (1 : ℝ) ≤ (c : ℝ) := by exact_mod_cast h0
    have hpos : (0 : EReal) < ((c : ℝ) : EReal) := EReal.coe_pos.2 (by linarith)
    rw [if_pos hpos, mul_one, ← EReal.coe_mul, max_eq_left hc1]
    congr 1
    field_simp
  · have hc0 : c = 0 := Nat.eq_zero_of_not_pos h0
    rw [hc0, Nat.cast_zero, EReal.coe_zero, if_neg (lt_irrefl _), mul_zero, zero_mul, EReal.coe_zero, zero_mul]

end Cert.Alg
-- ==== Proof.Canon.lean ====
import proofs.«416092_j83932250898780_3_alg».proof.Proof.Spec
import proofs.«416092_j83932250898780_3_alg».proof.Proof.Alg
import Idealize.ShloMosaic.Lib.ValueIdxRank1

noncomputable section

namespace Cert.Canon

open Idealize.ShloMosaic Idealize.ShloMosaic.ValueIdx Cert.Spec

abbrev Vec1 (n : Nat) : Type := (⟨1, ![n]⟩ : Shape).Idx → EReal
abbrev IVec1 (n : Nat) : Type := (⟨1, ![n]⟩ : Shape).Idx → BitVec 32

variable (ei : IMat 2 1600000) (bt : IVec1 100000)

def rowRaw (k : Fin 1700000) : BitVec 32 :=
  if h : k.val < 1600000 then ei (ix2 (0 : Fin 2) (⟨k.val, h⟩ : Fin 1600000)) else BitVec.ofNat 32 (k.val - 1600000)

def colRaw (k : Fin 1700000) : BitVec 32 :=
  if h : k.val < 1600000 then ei (ix2 (1 : Fin 2) (⟨k.val, h⟩ : Fin 1600000)) else BitVec.ofNat 32 (k.val - 1600000)

def wrap (w : BitVec 32) : BitVec 32 := if w.slt 0#32 then w + 100000#32 else w

def clampRow (w : BitVec 32) : Fin 100000 := ⟨min w.toInt.toNat (100000 - 1), by omega⟩

def P (k : Fin 1700000) : Fin 100000 := clampRow (wrap (rowRaw ei k))
def Q (k : Fin 1700000) : Fin 100000 := clampRow (wrap (colRaw ei k))
def hit (k : Fin 1700000) (v : Fin 100000) : Prop := (colRaw ei k).toInt = (v.val : Int)
instance (k : Fin 1700000) (v : Fin 100000) : Decidable (hit ei k v) := by unfold hit; infer_instance

def shit (e : Fin 1600000) (v : Fin 100000) : Prop := (ei (ix2 (0 : Fin 2) e)).toInt = (v.val : Int)
instance (e : Fin 1600000) (v : Fin 100000) : Decidable (shit ei e v) := by unfold shit; infer_instance

def bh (i : Fin 100000) (g : Fin 512) : Prop := (bt (ix1 i)).toInt = (g.val : Int)
instance (i : Fin 100000) (g : Fin 512) : Decidable (bh bt i g) := by unfold bh; infer_instance

theorem hQ (k : Fin 1700000) (v : Fin 100000) (h : hit ei k v) : Q ei k = v := by
  unfold hit at h
  unfold Q clampRow wrap
  have hv := v.isLt
  have hnn : ¬ (colRaw ei k).slt 0#32 = true := by
    rw [BitVec.slt_eq_decide]
    simp only [BitVec.toInt_zero, decide_eq_true_eq, not_lt]
    omega
  rw [if_neg hnn]
  apply Fin.ext
  show min (colRaw ei k).toInt.toNat (100000 - 1) = v.val
  rw [h]; omega

def deg (v : Fin 100000) : EReal := 0 + ∑ k : Fin 1700000, if hit ei k v then (1 : EReal) else 0

def dinv (v : Fin 100000) : EReal := if 0 < deg ei v then Ideal.rsqrt (max (deg ei v) 1) else 0

theorem dinv_real (v : Fin 100000) : ∃ x : ℝ, 0 ≤ x ∧ dinv ei v = (x : EReal) := by
  unfold dinv
  refine Cert.Alg.dinv_real (deg ei v) ?_
  obtain ⟨n, hn⟩ := Cert.Alg.count_nat (fun k : Fin 1700000 => hit ei k v)
  exact ⟨n, by unfold deg; rw [zero_add]; exact hn⟩

def lin1 {n i o : Nat} (x : Mat n i) (W : Mat i o) (b : Vec1 o) (r : Fin n) (f : Fin o) : EReal := dot x W r f + b (ix1 f)

def feat (x : Mat 100000 128) (ea : Mat 1600000 32) (Wn : Mat 128 64) (bn : Vec1 64) (We : Mat 32 64) (be : Vec1 64)
    (r : Fin 100000) (f : Fin 64) : EReal :=
  lin1 x Wn bn r f + (0 + ∑ e : Fin 1600000, if shit ei e r then lin1 ea We be e f else 0)

end Cert.Canon

end
-- ==== Proof.Chain.lean ====
import proofs.«416092_j83932250898780_3_alg».proof.Proof.Alg

noncomputable section

namespace Cert.Chain

variable {N H : Nat}

def dotr (a : Fin N → Fin H → EReal) (W : Fin H → Fin H → EReal) (r : Fin N) (f : Fin H) : EReal := ∑ j : Fin H, a r j * W j f

end Cert.Chain

end
-- ==== Proof.Arr.lean ====
import proofs.«416092_j83932250898780_3_alg».proof.Proof.Canon
import proofs.«416092_j83932250898780_3_alg».proof.Proof.Chain

noncomputable section

namespace Cert.Arr

open Idealize.ShloMosaic Idealize.ShloMosaic.ValueIdx Cert.Spec Cert.Canon Cert.Chain

structure Args where
  x : Mat 100000 128
  ei : IMat 2 1600000
  ea : Mat 1600000 32
  bt : IVec1 100000
  Wn : Mat 128 64
  bn : Vec1 64
  We : Mat 32 64
  be : Vec1 64
  W1 : Mat 64 64
  b1 : Vec1 64
  W2 : Mat 64 64
  b2 : Vec1 64
  W3 : Mat 64 64
  b3 : Vec1 64
  Wc1 : Mat 64 32
  bc1 : Vec1 32
  Wc2 : Mat 32 1
  bc2 : Vec1 1

variable (a : Args)

def h (r : Fin 100000) (f : Fin 64) : EReal := feat a.ei a.x a.ea a.Wn a.bn a.We a.be r f
def d (v : Fin 100000) : EReal := dinv a.ei v
def wt (W : Mat 64 64) (j f : Fin 64) : EReal := W (ix2 j f)
def bs (b : Vec1 64) (f : Fin 64) : EReal := b (ix1 f)

def agg (wh : Fin 100000 → Fin 64 → EReal) (v : Fin 100000) (f : Fin 64) : EReal :=
  0 + ∑ k : Fin 1700000, if hit a.ei k v then wh (P a.ei k) f else 0

def wh1 (r : Fin 100000) (f : Fin 64) : EReal := dotr (h a) (wt a.W1) r f * d a r

def whNext (ag : Fin 100000 → Fin 64 → EReal) (b : Vec1 64) (W : Mat 64 64) (r : Fin 100000) (f : Fin 64) : EReal :=
  dotr (fun r j => max (ag r j * d a r + bs b j) 0) (wt W) r f * d a r
def agg1 := agg a (wh1 a)
def wh2 := whNext a (agg1 a) a.b1 a.W2
def agg2 := agg a (wh2 a)
def wh3 := whNext a (agg2 a) a.b2 a.W3
def agg3 := agg a (wh3 a)

def sumsK (g : Fin 512) (f : Fin 64) : EReal := ∑ i : Fin 100000, if bh a.bt i g then agg3 a i f * d a i else 0
def cntK (g : Fin 512) : EReal := ∑ i : Fin 100000, if bh a.bt i g then (1 : EReal) else 0
def gK (g : Fin 512) (f : Fin 64) : EReal :=
  Ideal.div (sumsK a g f) (max (cntK a g) 1) + bs a.b3 f * (if (0 : EReal) < cntK a g then 1 else 0)

def conv (inp : Fin 100000 → Fin 64 → EReal) (W : Mat 64 64) (b : Vec1 64) (v : Fin 100000) (f : Fin 64) : EReal :=
  (0 + ∑ k : Fin 1700000, if hit a.ei k v then dotr inp (wt W) (P a.ei k) f * (d a (P a.ei k) * d a (Q a.ei k)) else 0) + bs b f
def c1 := conv a (h a) a.W1 a.b1
def c2 := conv a (fun r j => max (c1 a r j) 0) a.W2 a.b2
def c3 := conv a (fun r j => max (c2 a r j) 0) a.W3 a.b3
def rsR (g : Fin 512) (f : Fin 64) : EReal := 0 + ∑ i : Fin 100000, if bh a.bt i g then c3 a i f else 0
def rcR (g : Fin 512) : EReal := 0 + ∑ i : Fin 100000, if bh a.bt i g then (1 : EReal) else 0
def gR (g : Fin 512) (f : Fin 64) : EReal := Ideal.div (rsR a g f) (max (rcR a g) 1)

def cls (gp : Fin 512 → Fin 64 → EReal) (g : Fin 512) : EReal :=
  (∑ q : Fin 32, max ((∑ k : Fin 64, gp g k * a.Wc1 (ix2 k q)) + a.bc1 (ix1 q)) 0 * a.Wc2 (ix2 q (0 : Fin 1))) + a.bc2 (ix1 (0 : Fin 1))
def outK (g : Fin 512) : EReal := cls a (gK a) g
def outR (g : Fin 512) : EReal := cls a (gR a) g

theorem conv_eq (inp : Fin 100000 → Fin 64 → EReal) (W : Mat 64 64) (b : Vec1 64) (v : Fin 100000) (f : Fin 64) :
    conv a inp W b v f = agg a (fun r f => dotr inp (wt W) r f * d a r) v f * d a v + bs b f := by
  have hs := Cert.Alg.seg_scale (hit a.ei) (P a.ei) (Q a.ei) (hQ a.ei) (d a) (dinv_real a.ei) (dotr inp (wt W)) v f
  unfold Cert.Alg.seg at hs
  unfold conv agg
  rw [zero_add, zero_add, hs]

theorem gK_eq_gR (hb3 : ∀ f : Fin 64, ∃ x : ℝ, a.b3 (ix1 f) = (x : EReal)) (g : Fin 512) (f : Fin 64) : gK a g f = gR a g f := by
  have e1 : ∀ v f, c1 a v f = agg1 a v f * d a v + bs a.b1 f := conv_eq a _ _ _
  have e2 : ∀ v f, c2 a v f = agg2 a v f * d a v + bs a.b2 f := by
    unfold c2; simp only [e1]; exact conv_eq a _ _ _
  have e3 : ∀ v f, c3 a v f = agg3 a v f * d a v + bs a.b3 f := by
    unfold c3; simp only [e2]; exact conv_eq a _ _ _
  unfold gK gR rsR rcR sumsK cntK
  simp only [e3, zero_add]
  exact (Cert.Alg.pool_bias (bh a.bt) (fun i f => agg3 a i f * d a i) (bs a.b3) hb3 g f).symm

theorem outK_eq_outR (hb3 : ∀ f : Fin 64, ∃ x : ℝ, a.b3 (ix1 f) = (x : EReal)) (g : Fin 512) : outK a g = outR a g := by
  unfold outK outR cls
  simp only [gK_eq_gR a hb3]

end Cert.Arr

end
-- ==== Proof.LibGather.lean ====
import Idealize.ShloMosaic.PureOps.Ideal
import Idealize.ShloMosaic.Lib.ValueIdx
import Idealize.ShloMosaic.Lib.StableHlo.Predicate

noncomputable section

namespace Cert.LibGather

open Idealize.ShloMosaic Idealize.ShloMosaic.ValueIdx

theorem gather_rows_apply {α : Type} {N C n w : Nat}
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![n, 1]⟩ w) (e : Fin n) (q : Fin C) (hN : 0 < N) :
    Host.gather d x idx (ix2 e q) = x (ix2 (⟨min (idx (ix2 e (0 : Fin 1))).toInt.toNat (N - 1), by omega⟩ : Fin N) q) := by
  obtain ⟨od, cs, ob, sb, sim, ivd, ss, wf⟩ := d
  simp only at hoff hcoll hob hsim hivd hss
  subst hoff hcoll hob hsim hivd hss
  unfold Host.gather
  congr 1
  funext a
  apply Fin.ext
  match a with
  | ⟨0, _⟩ =>
    show GatherDims.start _ (ix2 e q) idx 0 + GatherDims.batchCoord _ (ix2 e q) 0 + GatherDims.offCoord _ (ix2 e q) 0 = _
    rw [GatherDims.batchCoord_eq_zero _ _ _ List.not_mem_nil,
      GatherDims.offCoord_eq_zero _ _ _ (show (0 : Fin 2) ∉ (List.finRange 2).filter (· ∉ [(0 : Fin 2)] ++ []) by decide)]
    unfold GatherDims.start
    rw [dif_pos (List.mem_singleton.mpr rfl)]
    show min (idx _).toInt.toNat (N - 1) = _
    congr 4
    funext b
    match b with
    | ⟨0, _⟩ => rfl
    | ⟨1, _⟩ => rfl
  | ⟨1, _⟩ =>
    show GatherDims.start _ (ix2 e q) idx 1 + GatherDims.batchCoord _ (ix2 e q) 1 + GatherDims.offCoord _ (ix2 e q) 1 = q.val
    rw [GatherDims.batchCoord_eq_zero _ _ _ List.not_mem_nil]
    unfold GatherDims.start GatherDims.offCoord
    rw [dif_neg (show (1 : Fin 2) ∉ [(0 : Fin 2)] by decide), Nat.zero_add]
    exact (dif_pos (show (1 : Fin 2) ∈ (List.finRange 2).filter (· ∉ [(0 : Fin 2)] ++ []) by decide)).trans rfl

end Cert.LibGather

end
-- ==== Proof.LibIndexed.lean ====
import proofs.«416092_j83932250898780_3_alg».proof.Proof.LibGather
import Idealize.ShloMosaic.PureOps.Ideal
import Idealize.ShloMosaic.Lib.ValueIdx
import Idealize.ShloMosaic.Lib.ValueIdxRank1
import Idealize.ShloMosaic.Lib.StableHlo.Predicate
import Idealize.ShloMosaic.Lib.Pipeline.Value

noncomputable section

namespace Cert.LibIndexed

open Idealize.ShloMosaic Idealize.ShloMosaic.ValueIdx

theorem resultIdx?_eq_some {s si u : Shape} (d : ScatterDims s si u) {w : Nat} (j : u.Idx) (idx : IVec si w) (i : s.Idx) :
    d.resultIdx? j idx = some i ↔ ∀ a, d.start j idx a + d.window j a = ((i a).val : Int) := by
  unfold ScatterDims.resultIdx?
  constructor
  · intro h a
    split at h
    · next hall =>
      have h0 : (d.start j idx a + d.window j a).toNat = (i a).val := congrArg (fun f => (f a).val) (Option.some.inj h)
      have := (hall a).1
      omega
    · exact absurd h (by simp)
  · intro h
    have hall : ∀ a, 0 ≤ d.start j idx a + d.window j a ∧ d.start j idx a + d.window j a < s.size a := fun a => by
      have := (i a).isLt
      rw [h a]; omega
    rw [dif_pos hall]
    congr 1
    funext a
    apply Fin.ext
    show (d.start j idx a + d.window j a).toNat = (i a).val
    rw [h a]; omega

section Rows

variable {N C n w : Nat} (d : ScatterDims ⟨2, ![N, C]⟩ ⟨2, ![n, 1]⟩ ⟨2, ![n, C]⟩)
  (huw : d.updateWindowDims = [1]) (hiw : d.insertedWindowDims = [0]) (hsd : d.scatterDimsToOperandDims = [0])
  (hiv : d.indexVectorDim = 1) (idx : IVec ⟨2, ![n, 1]⟩ w) (e : Fin n) (q' : Fin C)

include huw hiw hsd hiv

theorem rows_coords : d.start (ix2 e q') idx 0 = (idx (ix2 e (0 : Fin 1))).toInt ∧ d.start (ix2 e q') idx 1 = 0
    ∧ d.window (ix2 e q') 0 = 0 ∧ d.window (ix2 e q') 1 = q'.val := by
  obtain ⟨uw, iw, sd, iv, wf⟩ := d
  simp only at huw hiw hsd hiv
  subst huw hiw hsd hiv
  refine ⟨?_, dif_neg (show (1 : Fin 2) ∉ [(0 : Fin 2)] by decide),
    dif_neg (show (0 : Fin 2) ∉ (List.finRange 2).filter (· ∉ [(0 : Fin 2)]) by decide),
    (dif_pos (show (1 : Fin 2) ∈ (List.finRange 2).filter (· ∉ [(0 : Fin 2)]) by decide)).trans rfl⟩
  unfold ScatterDims.start
  rw [dif_pos (List.mem_singleton.mpr rfl)]
  congr 2
  funext b
  match b with
  | ⟨0, _⟩ => rfl
  | ⟨1, _⟩ => rfl

theorem rows_resultIdx (r : Fin N) (q : Fin C) :
    d.resultIdx? (ix2 e q') idx = some (ix2 r q) ↔ (idx (ix2 e (0 : Fin 1))).toInt = (r.val : Int) ∧ q' = q := by
  obtain ⟨hs0, hs1, hw0, hw1⟩ := rows_coords d huw hiw hsd hiv idx e q'
  rw [resultIdx?_eq_some]
  constructor
  · intro h
    have h0 : d.start (ix2 e q') idx 0 + d.window (ix2 e q') 0 = (r.val : Int) := h 0
    have h1 : d.start (ix2 e q') idx 1 + d.window (ix2 e q') 1 = (q.val : Int) := h 1
    rw [hs0, hw0] at h0
    rw [hs1, hw1] at h1
    exact ⟨by omega, Fin.ext (by omega)⟩
  · rintro ⟨hS, rfl⟩ a
    match a with
    | ⟨0, _⟩ =>
      show d.start (ix2 e q') idx 0 + d.window (ix2 e q') 0 = (r.val : Int)
      rw [hs0, hw0, hS]; omega
    | ⟨1, _⟩ =>
      show d.start (ix2 e q') idx 1 + d.window (ix2 e q') 1 = (q'.val : Int)
      rw [hs1, hw1]; omega

end Rows

theorem scatterAdd_rows_apply {N C n w : Nat}
    (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![n, 1]⟩ w) (upd : (⟨2, ![n, C]⟩ : Shape).Idx → EReal)
    (r : Fin N) (q : Fin C) :
    Ideal.hostScatterAdd d x idx upd (ix2 r q)
      = x (ix2 r q) + ∑ e : Fin n, if (idx (ix2 e (0 : Fin 1))).toInt = (r.val : Int) then upd (ix2 e q) else 0 := by
  unfold Ideal.hostScatterAdd
  congr 1

  rw [Finset.sum_filter, sum_idx2]
  refine Finset.sum_congr rfl fun e _ => ?_
  by_cases hS : (idx (ix2 e (0 : Fin 1))).toInt = (r.val : Int)
  ·
    rw [if_pos hS, Finset.sum_eq_single q]
    · rw [if_pos ((rows_resultIdx d huw hiw hsd hiv idx e q r q).2 ⟨hS, rfl⟩)]
    · intro q' _ hne
      rw [if_neg (fun h => hne ((rows_resultIdx d huw hiw hsd hiv idx e q' r q).1 h).2)]
    · intro h; exact absurd (Finset.mem_univ q) h
  ·
    rw [if_neg hS]
    refine Finset.sum_eq_zero fun q' _ => ?_
    rw [if_neg (fun h => hS ((rows_resultIdx d huw hiw hsd hiv idx e q' r q).1 h).1)]

section Vec

variable {N n w : Nat} (d : ScatterDims ⟨1, ![N]⟩ ⟨2, ![n, 1]⟩ ⟨1, ![n]⟩)
  (huw : d.updateWindowDims = []) (hiw : d.insertedWindowDims = [0]) (hsd : d.scatterDimsToOperandDims = [0])
  (hiv : d.indexVectorDim = 1) (idx : IVec ⟨2, ![n, 1]⟩ w) (e : Fin n)

include huw hiw hsd hiv

theorem vec_coords : d.start (ix1 e) idx 0 = (idx (ix2 e (0 : Fin 1))).toInt ∧ d.window (ix1 e) 0 = 0 := by
  obtain ⟨uw, iw, sd, iv, wf⟩ := d
  simp only at huw hiw hsd hiv
  subst huw hiw hsd hiv
  refine ⟨?_, dif_neg (show (0 : Fin 1) ∉ (List.finRange 1).filter (· ∉ [(0 : Fin 1)]) by decide)⟩
  unfold ScatterDims.start
  rw [dif_pos (List.mem_singleton.mpr rfl)]
  congr 2
  funext b
  match b with
  | ⟨0, _⟩ => rfl
  | ⟨1, _⟩ => rfl

theorem vec_resultIdx (r : Fin N) :
    d.resultIdx? (ix1 e) idx = some (ix1 r) ↔ (idx (ix2 e (0 : Fin 1))).toInt = (r.val : Int) := by
  obtain ⟨hs0, hw0⟩ := vec_coords d huw hiw hsd hiv idx e
  rw [resultIdx?_eq_some]
  constructor
  · intro h
    have h0 : d.start (ix1 e) idx 0 + d.window (ix1 e) 0 = (r.val : Int) := h 0
    rw [hs0, hw0] at h0
    omega
  · intro hS a
    match a with
    | ⟨0, _⟩ =>
      show d.start (ix1 e) idx 0 + d.window (ix1 e) 0 = (r.val : Int)
      rw [hs0, hw0, hS]; omega

end Vec

theorem scatterAdd_vec_apply {N n w : Nat}
    (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![n, 1]⟩ w) (upd : (⟨1, ![n]⟩ : Shape).Idx → EReal)
    (r : Fin N) :
    Ideal.hostScatterAdd d x idx upd (ix1 r)
      = x (ix1 r) + ∑ e : Fin n, if (idx (ix2 e (0 : Fin 1))).toInt = (r.val : Int) then upd (ix1 e) else 0 := by
  unfold Ideal.hostScatterAdd
  congr 1

  rw [Finset.sum_filter, ← Equiv.sum_comp (idxEquiv1 (n := n)).symm]
  refine Finset.sum_congr rfl fun e _ => ?_
  show (if d.resultIdx? (ix1 e) idx = some (ix1 r) then upd (ix1 e) else 0) = _
  by_cases hS : (idx (ix2 e (0 : Fin 1))).toInt = (r.val : Int)
  · rw [if_pos hS, if_pos ((vec_resultIdx d huw hiw hsd hiv idx e r).2 hS)]
  · rw [if_neg hS, if_neg (fun h => hS ((vec_resultIdx d huw hiw hsd hiv idx e r).1 h))]

end Cert.LibIndexed

end
-- ==== Proof.KI.KVal1.lean ====
import proofs.«416092_j83932250898780_3_alg».proof.Proof.KI.Fold1
import proofs.«416092_j83932250898780_3_alg».proof.Proof.KI.Val0
import proofs.«416092_j83932250898780_3_alg».proof.Proof.KI.Val1
import proofs.«416092_j83932250898780_3_alg».proof.Proof.Arr
import proofs.«416092_j83932250898780_3_alg».proof.Proof.LibIndexed
import Idealize.ShloMosaic.PureOps.Ideal.Laws
import Idealize.ShloMosaic.Lib.IdealHost
import Idealize.ShloMosaic.Lib.ValueIdx
import Idealize.ShloMosaic.Lib.ValueIdxRank1
import Idealize.ShloMosaic.Lib.Pipeline.Value
import Idealize.ShloMosaic.Lib.ValueLayout
import Idealize.ShloMosaic.Lib.StableHlo.Predicate

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open scoped BigOperators

variable (m : (ℓ : Loc nD τ sig) → Buf (Elt Ideal) ℓ)

def kargs (c : Dev nD) : Cert.Arr.Args :=
  { x := m ((c : Thread nD τ).loc main_arg0), ei := m ((c : Thread nD τ).loc main_arg1), ea := m ((c : Thread nD τ).loc main_arg2),
    bt := m ((c : Thread nD τ).loc main_arg3), Wn := m ((c : Thread nD τ).loc main_arg4), bn := m ((c : Thread nD τ).loc main_arg5),
    We := m ((c : Thread nD τ).loc main_arg6), be := m ((c : Thread nD τ).loc main_arg7), W1 := m ((c : Thread nD τ).loc main_arg8),
    b1 := m ((c : Thread nD τ).loc main_arg9), W2 := m ((c : Thread nD τ).loc main_arg10), b2 := m ((c : Thread nD τ).loc main_arg11),
    W3 := m ((c : Thread nD τ).loc main_arg12), b3 := m ((c : Thread nD τ).loc main_arg13), Wc1 := m ((c : Thread nD τ).loc main_arg14),
    bc1 := m ((c : Thread nD τ).loc main_arg15), Wc2 := m ((c : Thread nD τ).loc main_arg16), bc2 := m ((c : Thread nD τ).loc main_arg17) }

variable (c : Dev nD)

namespace K1

theorem W4_arg1 : W4 m c main_arg1 = m ((c : Thread nD τ).loc main_arg1) :=
  (W4_of m c main_arg1 (by decide)).trans <| (W3_of m c main_arg1 (by decide)).trans <| (W2_of m c main_arg1 (by decide)).trans <| (W1_of m c main_arg1 (by decide))

theorem slots_apply (ρ : Fin 2) (X : S2x1600000.Idx → BitVec 32) (hs : S2x1600000.Slices ![ρ.val, 0] S1x1600000) (k : Fin 1700000) :
    concatenate S1700000 0
      [⟨S1600000, shapeCast S1600000 (extractStridedSlice S1x1600000 ![ρ.val, 0] X hs) shapeCasts_S1x1600000_S1600000⟩,
        ⟨S100000, iotaInDim S100000 32 0⟩] concatenates_S1600000_S100000_S1700000_d0 (ix1 k)
      = if h : k.val < 1600000 then X (ix2 ρ (⟨k.val, h⟩ : Fin 1600000)) else BitVec.ofNat 32 (k.val - 1600000) := by
  split
  · next h =>
    refine (concatenate_pair_apply_left (t := S1700000) (s₁ := S1600000) (s₂ := S100000) (0 : Fin 1) _ _ concatenates_S1600000_S100000_S1700000_d0 (ix1 k) rfl (ix1 (⟨k.val, h⟩ : Fin 1600000)) (fun b => ?_)).trans ?_
    · match b with
      | ⟨0, _⟩ => rfl
    refine (shapeCast_1a_a_apply _ shapeCasts_S1x1600000_S1600000 (⟨k.val, h⟩ : Fin 1600000)).trans ?_
    exact slice2_axis0_apply ρ.val X hs (0 : Fin 1) (⟨k.val, h⟩ : Fin 1600000) ρ (by simp)
  · next h =>
    have hk := k.isLt
    refine (concatenate_pair_apply_right (t := S1700000) (s₁ := S1600000) (s₂ := S100000) (0 : Fin 1) _ _ concatenates_S1600000_S100000_S1700000_d0 (ix1 k) rfl rfl (ix1 (⟨k.val - 1600000, by omega⟩ : Fin 100000)) (fun b hb => ?_) ?_).trans ?_
    · match b with
      | ⟨0, _⟩ => exact absurd rfl hb
    · show (k.val - 1600000) + 1600000 = k.val
      omega
    · rfl

def words (ρ : Fin 2) (hs : S2x1600000.Slices ![ρ.val, 0] S1x1600000) : S1700000.Idx → BitVec 32 :=
  concatenate S1700000 0
    [⟨S1600000, shapeCast S1600000 (extractStridedSlice S1x1600000 ![ρ.val, 0] (W4 m c main_arg1 : S2x1600000.Idx → BitVec 32) hs) shapeCasts_S1x1600000_S1600000⟩,
      ⟨S100000, iotaInDim S100000 32 0⟩] concatenates_S1600000_S100000_S1700000_d0

theorem words_apply (ρ : Fin 2) (hs : S2x1600000.Slices ![ρ.val, 0] S1x1600000) (k : Fin 1700000) :
    words m c ρ hs (ix1 k)
      = if h : k.val < 1600000 then (kargs m c).ei (ix2 ρ (⟨k.val, h⟩ : Fin 1600000)) else BitVec.ofNat 32 (k.val - 1600000) := by
  unfold words
  rw [W4_arg1]
  exact slots_apply ρ _ hs k

theorem column_apply {α : Type} {n : Nat} (h : (⟨1, ![n]⟩ : Shape).BroadcastsInDim ⟨2, ![n, 1]⟩ ![0])
    (v : (⟨1, ![n]⟩ : Shape).Idx → α) (k : Fin n) : broadcastInDim ⟨2, ![n, 1]⟩ ![0] h v (ix2 k (0 : Fin 1)) = v (ix1 k) :=
  broadcastInDim_apply _ h v (ix2 k (0 : Fin 1)) (ix1 k) (fun a => by
    match a with
    | ⟨0, _⟩ => show k.val = if n = 1 then 0 else k.val; split <;> omega)

theorem col_cast_apply {α : Type} {n : Nat} (x : (⟨1, ![n]⟩ : Shape).Idx → α) (h : (⟨1, ![n]⟩ : Shape).ShapeCasts ⟨2, ![n, 1]⟩)
    (r : Fin n) : shapeCast ⟨2, ![n, 1]⟩ x h (ix2 r (0 : Fin 1)) = x (ix1 r) :=
  shapeCast_apply x h _ _ (by
    rw [Shape.rowMajor_val_two, Shape.rowMajor_val_one]
    show r.val = r.val * 1 + 0
    rw [Nat.mul_one, Nat.add_zero])

theorem zeros_apply {t : Shape} (h : S_.BroadcastsInDim t ![]) (j : t.Idx) :
    broadcastInDim t ![] h (constant (F := Ideal) S_ .f32 0x00000000#32) j = (0 : EReal) := by
  rw [broadcastInDim_scalar_apply, constant_apply]
  exact Ideal.ofBits_zero_f32
theorem ones_apply {t : Shape} (h : S_.BroadcastsInDim t ![]) (j : t.Idx) :
    broadcastInDim t ![] h (constant (F := Ideal) S_ .f32 0x3F800000#32) j = (1 : EReal) := by
  rw [broadcastInDim_scalar_apply, constant_apply]
  exact Ideal.ofBits_one_f32

theorem scatterAdd_ideal {s si su : Shape} {w : Nat} {φ : FTy} (d : ScatterDims s si su) (x : FVec Ideal s φ) (idx : IVec si w) (upd : FVec Ideal su φ) :
    Host.scatterAdd (F := Ideal) d x idx upd = Ideal.hostScatterAdd d x idx upd := rfl

def degTerm : S100000.Idx → EReal :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 (words m c 1 slices_S2x1600000_S1x1600000_1_0))
    (broadcastInDim S1700000 ![] bcast_S_S1700000 (constant (F := Ideal) S_ .f32 0x3F800000#32))

theorem degTerm_apply (r : Fin 100000) : degTerm m c (ix1 r) = Cert.Canon.deg (kargs m c).ei r := by
  unfold degTerm
  rw [scatterAdd_ideal]
  refine (Cert.LibIndexed.scatterAdd_vec_apply scatter_S100000_S1700000x1_S1700000_n_0_0_1 rfl rfl rfl rfl _ _ _ r).trans ?_
  unfold Cert.Canon.deg
  refine congrArg₂ (· + ·) (zeros_apply bcast_S_S100000 _) (Finset.sum_congr rfl fun k _ => ?_)
  rw [column_apply, words_apply, ones_apply]
  exact if_congr Iff.rfl rfl rfl

theorem where_apply (dg zero one other : FVec Ideal S100000 .f32) (i : S100000.Idx) :
    select (cmpf .ogt dg zero) (Host.rsqrt (maximumf dg one)) other i
      = if zero i < dg i then Ideal.rsqrt (max (dg i) (one i)) else other i := by
  show (if BitVec.ofBool (decide (zero i < dg i)) = 1#1 then Ideal.rsqrt (max (dg i) (one i)) else other i) = _
  exact if_congr ((StableHlo.Predicate.ofBool_eq_one_iff _).trans decide_eq_true_iff) rfl rfl

theorem nodeBias_apply (f : Fin 64) :
    (Hand.W1 m c main_v0 : S1x64.Idx → EReal) (ix2 (0 : Fin 1) f) = (kargs m c).bn (ix1 f) := by
  have e : (Hand.W1 m c main_v0 : S1x64.Idx → EReal) = shapeCast S1x64 (Hand.W0 m c main_arg5 : S64.Idx → EReal) shapeCasts_S64_S1x64 := by
    after_results
    rfl
  rw [e]
  exact shapeCast_a_1a_apply _ shapeCasts_S64_S1x64 (0 : Fin 1) f

theorem edgeBias_apply (f : Fin 64) :
    (W3 m c main_v2 : S1x64.Idx → EReal) (ix2 (0 : Fin 1) f) = (kargs m c).be (ix1 f) := by
  have e : (W3 m c main_v2 : S1x64.Idx → EReal) = shapeCast S1x64 (W2 m c main_arg7 : S64.Idx → EReal) shapeCasts_S64_S1x64 := by
    after_results
    rfl
  rw [e, W2_of m c main_arg7 (by decide), W1_of m c main_arg7 (by decide)]
  exact shapeCast_a_1a_apply _ shapeCasts_S64_S1x64 (0 : Fin 1) f

theorem v1_apply (r : Fin 100000) (f : Fin 64) :
    (W4 m c main_v1 : S100000x64.Idx → EReal) (ix2 r f)
      = Cert.Canon.lin1 (kargs m c).x (kargs m c).Wn (kargs m c).bn r f := by
  rw [W4_of m c main_v1 (by decide), W3_of m c main_v1 (by decide), W2_out]
  refine (out0_apply (E1 m) c r f).trans ?_
  unfold Cert.Spec.embed Cert.Canon.lin1
  refine congrArg₂ (· + ·) ?_ (nodeBias_apply m c f)
  show Cert.Spec.dot (Hand.W1 m c main_arg0) (Hand.W1 m c main_arg4) r f = _
  rw [W1_of m c main_arg0 (by decide), W1_of m c main_arg4 (by decide)]
  rfl

theorem v3_apply (e : Fin 1600000) (f : Fin 64) :
    (W4 m c main_v3 : S1600000x64.Idx → EReal) (ix2 e f)
      = Cert.Canon.lin1 (kargs m c).ea (kargs m c).We (kargs m c).be e f := by
  rw [W4_out]
  refine (out1_apply (E3 m) c e f).trans ?_
  unfold Cert.Spec.embed Cert.Canon.lin1
  refine congrArg₂ (· + ·) ?_ (edgeBias_apply m c f)
  show Cert.Spec.dot (W3 m c main_arg2) (W3 m c main_arg6) e f = _
  rw [W3_of m c main_arg2 (by decide), W2_of m c main_arg2 (by decide), W1_of m c main_arg2 (by decide),
    W3_of m c main_arg6 (by decide), W2_of m c main_arg6 (by decide), W1_of m c main_arg6 (by decide)]
  rfl

def srcIdx : S1600000x1.Idx → BitVec 32 :=
  broadcastInDim S1600000x1 ![0] bcast_S1600000_S1600000x1_0
    (shapeCast S1600000 (extractStridedSlice S1x1600000 ![0, 0] (W4 m c main_arg1 : S2x1600000.Idx → BitVec 32) slices_S2x1600000_S1x1600000_0_0) shapeCasts_S1x1600000_S1600000)

theorem srcIdx_apply (e : Fin 1600000) : srcIdx m c (ix2 e (0 : Fin 1)) = (kargs m c).ei (ix2 (0 : Fin 2) e) := by
  unfold srcIdx
  rw [column_apply, shapeCast_1a_a_apply, W4_arg1]
  exact slice2_axis0_apply 0 _ slices_S2x1600000_S1x1600000_0_0 (0 : Fin 1) e (0 : Fin 2) rfl

def edgeSum : S100000x64.Idx → EReal :=
  Host.scatterAdd (F := Ideal) scatter_S100000x64_S1600000x1_S1600000x64_1_0_0_1
    (broadcastInDim S100000x64 ![] bcast_S_S100000x64 (constant (F := Ideal) S_ .f32 0x00000000#32))
    (srcIdx m c)
    (extf .f32 (W4 m c main_v3 : FVec Ideal S1600000x64 .bf16) bitsLt_bf16_f32)

theorem edgeSum_apply (r : Fin 100000) (f : Fin 64) :
    edgeSum m c (ix2 r f) = 0 + ∑ e : Fin 1600000, if Cert.Canon.shit (kargs m c).ei e r
      then Cert.Canon.lin1 (kargs m c).ea (kargs m c).We (kargs m c).be e f else 0 := by
  unfold edgeSum
  rw [scatterAdd_ideal]
  refine (Cert.LibIndexed.scatterAdd_rows_apply scatter_S100000x64_S1600000x1_S1600000x64_1_0_0_1 rfl rfl rfl rfl _ _ _ r f).trans ?_
  refine congrArg₂ (· + ·) (zeros_apply bcast_S_S100000x64 _) (Finset.sum_congr rfl fun e _ => ?_)
  rw [srcIdx_apply, extf_apply, v3_apply]
  exact if_congr Iff.rfl rfl rfl

end K1

open K1

theorem k_rowRaw (k : Fin 1700000) :
    (W7 m c main_v14 : S1700000.Idx → BitVec 32) (ix1 k) = Cert.Canon.rowRaw (kargs m c).ei k := by
  have e : (W5 m c main_v14 : S1700000.Idx → BitVec 32) = words m c 0 slices_S2x1600000_S1x1600000_0_0 := by
    after_results
    rfl
  rw [W7_of m c main_v14 (by decide), W6_of m c main_v14 (by decide), e]
  exact words_apply m c 0 _ k

theorem k_colRaw (k : Fin 1700000) :
    (W7 m c main_v17 : S1700000.Idx → BitVec 32) (ix1 k) = Cert.Canon.colRaw (kargs m c).ei k := by
  have e : (W5 m c main_v17 : S1700000.Idx → BitVec 32) = words m c 1 slices_S2x1600000_S1x1600000_1_0 := by
    after_results
    rfl
  rw [W7_of m c main_v17 (by decide), W6_of m c main_v17 (by decide), e]
  exact words_apply m c 1 _ k

theorem v23_eq : (W5 m c main_v23 : S100000.Idx → BitVec 1) = cmpf .ogt (degTerm m c) (broadcastInDim S100000 ![] bcast_S_S100000 (constant (F := Ideal) S_ .f32 0x00000000#32)) := by
  after_results
  rfl
theorem v26_eq : (W5 m c main_v26 : S100000.Idx → EReal) = Host.rsqrt (maximumf (degTerm m c) (broadcastInDim S100000 ![] bcast_S_S100000 (constant (F := Ideal) S_ .f32 0x3F800000#32))) := by
  after_results
  rfl
theorem cst4_eq : (W5 m c main_cst_4 : S_.Idx → EReal) = constant (F := Ideal) S_ .f32 0x00000000#32 := by
  after_results

theorem k_dinv (r : Fin 100000) :
    (W7 m c main_v28 : S100000x1.Idx → EReal) (ix2 r (0 : Fin 1)) = Cert.Arr.d (kargs m c) r := by
  have e7 : (W7 m c main_v28 : S100000x1.Idx → EReal)
      = shapeCast S100000x1 (W6 m c main_v27 : S100000.Idx → EReal) shapeCasts_S100000_S100000x1 := by
    show StableHlo.after hostOps2_2 (W6 m c) (Proc.devRef .tc main_v28) = _
    generalize W6 m c = V
    after_results
    rfl
  have e6 : (W6 m c main_v27 : S100000.Idx → EReal)
      = select (W5 m c main_v23 : S100000.Idx → BitVec 1) (W5 m c main_v26 : S100000.Idx → EReal)
          (broadcastInDim S100000 ![] bcast_S_S100000 (W5 m c main_cst_4 : S_.Idx → EReal)) := by
    show StableHlo.after hostOps2_1 (W5 m c) (Proc.devRef .tc main_v27) = _
    generalize W5 m c = V
    after_results
    rfl
  rw [e7, col_cast_apply, e6, v23_eq, v26_eq, cst4_eq, where_apply, degTerm_apply, zeros_apply, ones_apply]
  unfold Cert.Arr.d Cert.Canon.dinv
  exact if_congr Iff.rfl rfl rfl

theorem k_feat (r : Fin 100000) (f : Fin 64) :
    (W7 m c main_v10 : S100000x64.Idx → EReal) (ix2 r f) = Cert.Arr.h (kargs m c) r f := by
  have e : (W5 m c main_v10 : S100000x64.Idx → EReal)
      = (addf (W4 m c main_v1 : FVec Ideal S100000x64 .f32) (edgeSum m c) : FVec Ideal S100000x64 .f32) := by
    after_results
    rfl
  rw [W7_of m c main_v10 (by decide), W6_of m c main_v10 (by decide), e, addf_apply, v1_apply, edgeSum_apply]
  unfold Cert.Arr.h Cert.Canon.feat
  rfl

end Cert.KernelIdeal.HandVal

end
-- ==== Proof.KI.Val2.lean ====
import proofs.«416092_j83932250898780_3_alg».proof.Proof.KI.Reg2
import proofs.«416092_j83932250898780_3_alg».proof.Proof.KI.Val0

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx

theorem scales_along_lanes2 (x : FVec Ideal S4000x1 .f32) (p : Fin 4000) (q : Fin 64) :
    broadcastTo S4000x64 x broadcasts_S4000x1_S4000x64 (ix2 p q) = x (ix2 p 0) :=
  broadcastTo_apply x broadcasts_S4000x1_S4000x64 (ix2 p q) (ix2 p (0 : Fin 1)) (fun a => by
    match a with
    | ⟨0, _⟩ => show p.val = if (4000 : Nat) = 1 then 0 else p.val; rw [if_neg (by decide)]
    | ⟨1, _⟩ => show (0 : Nat) = if (1 : Nat) = 1 then 0 else q.val; rw [if_pos rfl])

theorem stored2_apply (x0 : Vec Ideal S4000x64 .f32) (x1 : Vec Ideal S64x64 .f32) (x2 : Vec Ideal S4000x1 .f32) (p : Fin 4000) (q : Fin 64) :
    k2_pay1 (F := Ideal) x0 x1 x2 (ix2 p q) = (∑ k : Fin 64, x0 (ix2 p k) * x1 (ix2 k q)) * x2 (ix2 p 0) := by
  unfold k2_pay1
  simp only [shapeCast_self]
  rw [truncf_apply, mulf_apply, matmul_plain_apply dot_S4000x64_S64x64_S4000x64_1_0_0_1_n_n rfl, scales_along_lanes2]
  simp only [truncf_apply]

theorem block_indices2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem features_block2 (V : Entry Ideal) (c : Dev nD) (t : Fin cfg2.N) (p : Fin 4000) (k : Fin 64) (i : Fin 100000)
    (hi : i.val = t.val * 4000 + p.val) :
    (iblk2 V c 0 t : Vec Ideal S4000x64 .f32) (ix2 p k) = (V c main_v10 : S100000x64.Idx → Elt Ideal .f32) (ix2 i k) := by
  obtain ⟨e0, e1, -⟩ := block_indices2 t
  refine congrArg (V c main_v10 : S100000x64.Idx → Elt Ideal .f32) (funext fun a => Fin.ext ?_)
  match a with
  | ⟨0, _⟩ => show win2_0.index t (0 : Fin 2) * 4000 + 1 * p.val = i.val; rw [e0, hi]; omega
  | ⟨1, _⟩ => show win2_0.index t (1 : Fin 2) * 64 + 1 * k.val = k.val; rw [e1]; omega

theorem weight_block2 (V : Entry Ideal) (c : Dev nD) (t : Fin cfg2.N) (k : Fin 64) (q : Fin 64) :
    (iblk2 V c 1 t : Vec Ideal S64x64 .f32) (ix2 k q) = (V c main_arg8 : S64x64.Idx → Elt Ideal .f32) (ix2 k q) := by
  obtain ⟨-, -, e2, e3, -⟩ := block_indices2 t
  refine congrArg (V c main_arg8 : S64x64.Idx → Elt Ideal .f32) (funext fun a => Fin.ext ?_)
  match a with
  | ⟨0, _⟩ => show win2_1.index t (0 : Fin 2) * 64 + 1 * k.val = k.val; rw [e2]; omega
  | ⟨1, _⟩ => show win2_1.index t (1 : Fin 2) * 64 + 1 * q.val = q.val; rw [e3]; omega

theorem scales_block2 (V : Entry Ideal) (c : Dev nD) (t : Fin cfg2.N) (p : Fin 4000) (i : Fin 100000)
    (hi : i.val = t.val * 4000 + p.val) :
    (iblk2 V c 2 t : Vec Ideal S4000x1 .f32) (ix2 p 0) = (V c main_v28 : S100000x1.Idx → Elt Ideal .f32) (ix2 i 0) := by
  obtain ⟨-, -, -, -, e4, e5, -⟩ := block_indices2 t
  refine congrArg (V c main_v28 : S100000x1.Idx → Elt Ideal .f32) (funext fun a => Fin.ext ?_)
  match a with
  | ⟨0, _⟩ => show win2_2.index t (0 : Fin 2) * 4000 + 1 * p.val = i.val; rw [e4, hi]; omega
  | ⟨1, _⟩ => show win2_2.index t (1 : Fin 2) * 1 + 1 * (0 : Fin 1).val = (0 : Fin 1).val; rw [e5]; rfl

def layer2 (V : Entry Ideal) (c : Dev nD) : S100000x64.Idx → Elt Ideal .bf16 :=
  fun i => Cert.Spec.gcnFirst (V c main_v10 : S100000x64.Idx → Elt Ideal .f32) (V c main_arg8 : S64x64.Idx → Elt Ideal .f32)
    (V c main_v28 : S100000x1.Idx → Elt Ideal .f32) (i 0) (i 1)

theorem written_back2 (V : Entry Ideal) (c : Dev nD) (t : Fin cfg2.N) :
    (dat2 V c).flushed 3 t = ((cfg2.win 3).blk t).view.read (Elt Ideal) (layer2 V c) := by
  have hN : cfg2.N = 25 := N_2
  show (cfg2.win 3).cut (grid2.coords t) ((dat2 V c).after 3 t) = _
  rw [after2_3]
  unfold out2_3
  rw [View.canon_unit_zero zeros0]
  simp only [View.ld_unit_zero (S := S4000x64) zeros0, View.ld_unit_zero (S := S64x64) zeros0, View.ld_unit_zero (S := S4000x1) zeros0]
  obtain ⟨-, -, -, -, -, -, e6, e7⟩ := block_indices2 t
  funext j
  obtain ⟨p, q, rfl⟩ : ∃ (p : Fin 4000) (q : Fin 64), j = ix2 p q := ⟨j 0, j 1, eq_ix2 j⟩
  have ht : t.val < 25 := hN ▸ t.isLt
  let i : Fin 100000 := ⟨t.val * 4000 + p.val, by have := p.isLt; omega⟩
  have hemb : ((cfg2.win 3).blk t).view.emb (ix2 p q) = (ix2 i q : S100000x64.Idx) := by
    funext a
    apply Fin.ext
    match a with
    | ⟨0, _⟩ => show win2_3.index t (0 : Fin 2) * 4000 + 1 * p.val = t.val * 4000 + p.val; rw [e6]; omega
    | ⟨1, _⟩ => show win2_3.index t (1 : Fin 2) * 64 + 1 * q.val = q.val; rw [e7]; omega
  show k2_pay1 (F := Ideal) (iblk2 V c 0 t : Vec Ideal S4000x64 .f32) (iblk2 V c 1 t : Vec Ideal S64x64 .f32) (iblk2 V c 2 t : Vec Ideal S4000x1 .f32) (ix2 p q)
    = layer2 V c (((cfg2.win 3).blk t).view.emb (ix2 p q))
  rw [stored2_apply, hemb]
  show _ = Cert.Spec.gcnFirst (V c main_v10 : S100000x64.Idx → Elt Ideal .f32) (V c main_arg8 : S64x64.Idx → Elt Ideal .f32)
    (V c main_v28 : S100000x1.Idx → Elt Ideal .f32) i q
  unfold Cert.Spec.gcnFirst Cert.Spec.dot
  rw [scales_block2 V c t p i rfl]
  congr 1
  refine Finset.sum_congr rfl fun k _ => ?_
  rw [features_block2 V c t p k i rfl, weight_block2 V c t k q]

theorem rows_cover2 (i : S100000x64.Idx) : ∃ t : Fin cfg2.N, (cfg2.win 3).flush t = true ∧ i ∈ ((cfg2.win 3).blk t).view.set := by
  have hN : cfg2.N = 25 := N_2
  have hi0 : (i 0).val < 100000 := (i 0).isLt
  have hi1 : (i 1).val < 64 := (i 1).isLt
  have hlt : (i 0).val / 4000 < cfg2.N := by rw [hN]; omega
  refine ⟨⟨(i 0).val / 4000, hlt⟩, flush2_3 _, ?_⟩
  show i ∈ ((View.whole main_v29).slice (win2_3.rect ⟨(i 0).val / 4000, hlt⟩)).set
  rw [View.set_slice_whole, Rect.mem_set_unit]
  obtain ⟨-, -, -, -, -, -, e6, e7⟩ := block_indices2 ⟨(i 0).val / 4000, hlt⟩
  intro a
  match a with
  | ⟨0, _⟩ =>
    show win2_3.index ⟨(i 0).val / 4000, hlt⟩ (0 : Fin 2) * 4000 ≤ (i 0).val ∧ (i 0).val < win2_3.index ⟨(i 0).val / 4000, hlt⟩ (0 : Fin 2) * 4000 + 4000
    rw [e6]; show (i 0).val / 4000 * 4000 ≤ (i 0).val ∧ (i 0).val < (i 0).val / 4000 * 4000 + 4000; omega
  | ⟨1, _⟩ =>
    show win2_3.index ⟨(i 0).val / 4000, hlt⟩ (1 : Fin 2) * 64 ≤ (i 1).val ∧ (i 1).val < win2_3.index ⟨(i 0).val / 4000, hlt⟩ (1 : Fin 2) * 64 + 64
    rw [e7]; omega

theorem out2_apply (V : Entry Ideal) (c : Dev nD) (r : Fin 100000) (f : Fin 64) :
    (dat2 V c).arrAt 3 cfg2.N (ix2 r f) = Cert.Spec.gcnFirst (V c main_v10) (V c main_arg8) (V c main_v28) r f := by
  rw [(dat2 V c).arrAt_eq_of_cover 3 (layer2 V c) (fun t _ => written_back2 V c t) rows_cover2]
  rfl

end Cert.KernelIdeal.HandVal

end
-- ==== Proof.KI.Val3.lean ====
import proofs.«416092_j83932250898780_3_alg».proof.Proof.KI.Reg3
import proofs.«416092_j83932250898780_3_alg».proof.Proof.KI.Val0

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx

theorem bcastCol3_apply (x : FVec Ideal S4000x1 .f32) (p : Fin 4000) (q : Fin 64) :
    broadcastTo S4000x64 (shapeCast S4000x1 x shapeCasts_S4000x1_S4000x1) broadcasts_S4000x1_S4000x64 (ix2 p q) = x (ix2 p 0) := by
  rw [shapeCast_self]
  exact broadcastTo_apply x broadcasts_S4000x1_S4000x64 (ix2 p q) (ix2 p 0) (fun a => match a with
    | ⟨0, _⟩ => by show p.val = if (4000 : Nat) = 1 then 0 else p.val; rw [if_neg (by decide)]
    | ⟨1, _⟩ => by show (0 : Nat) = if (1 : Nat) = 1 then 0 else q.val; rw [if_pos rfl])

theorem bcastRow3_apply (x : FVec Ideal S1x64 .f32) (p : Fin 4000) (q : Fin 64) :
    broadcastTo S4000x64 (shapeCast S1x64 x shapeCasts_S1x64_S1x64) broadcasts_S1x64_S4000x64 (ix2 p q) = x (ix2 0 q) := by
  rw [shapeCast_self]
  exact broadcastTo_apply x broadcasts_S1x64_S4000x64 (ix2 p q) (ix2 0 q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])

theorem pay3_apply (x0 : Vec Ideal S4000x64 .f32) (x2 : Vec Ideal S4000x1 .f32) (x6 : Vec Ideal S1x64 .f32) (x13 : Vec Ideal S64x64 .f32)
    (x16 : Vec Ideal S4000x1 .f32) (p : Fin 4000) (q : Fin 64) :
    k3_pay1 (F := Ideal) x0 x2 x6 x13 x16 (ix2 p q)
      = (∑ k : Fin 64, max (x0 (ix2 p k) * x2 (ix2 p 0) + x6 (ix2 0 k)) 0 * x13 (ix2 k q)) * x16 (ix2 p 0) := by
  unfold k3_pay1
  rw [truncf_apply, mulf_apply, bcastCol3_apply, matmul_plain_apply dot_S4000x64_S64x64_S4000x64_1_0_0_1_n_n rfl]
  refine congrArg (· * x16 (ix2 p 0)) (Finset.sum_congr rfl fun k _ => ?_)
  rw [truncf_apply, truncf_apply, maximumf_apply, addf_apply, mulf_apply, bcastCol3_apply, bcastRow3_apply, shapeCast_self, broadcast_apply,
    Ideal.ofBits_def, Ideal.ofBits_zero_f32]

theorem hz3 : (![0, 0] : Fin 2 → Nat) = fun _ => 0 := funext fun a => by fin_cases a <;> rfl

theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

def row3 (t : Fin cfg3.N) (p : Fin 4000) : Fin 100000 :=
  ⟨t.val * 4000 + p.val, by have h : t.val < grid3.N := t.isLt; rw [N_3] at h; have := p.isLt; omega⟩

theorem iblk3_0_apply (V : Entry Ideal) (c : Dev nD) (t : Fin cfg3.N) (p : Fin 4000) (k : Fin 64) :
    iblk3 V c 0 t (ix2 p k) = V c main_v40 (ix2 (row3 t p) k) := by
  have h := idx3 t
  show V c main_v40 (((cfg3.win 0).blk t).view.emb (ix2 p k)) = _
  refine congrArg (V c main_v40) (funext fun a => Fin.ext ?_)
  match a with
  | ⟨0, _⟩ => show win3_0.index t (0 : Fin 2) * 4000 + 1 * p.val = t.val * 4000 + p.val; omega
  | ⟨1, _⟩ => show win3_0.index t (1 : Fin 2) * 64 + 1 * k.val = k.val; omega

theorem iblk3_1_apply (V : Entry Ideal) (c : Dev nD) (t : Fin cfg3.N) (k : Fin 64) (q : Fin 64) :
    iblk3 V c 1 t (ix2 k q) = V c main_arg10 (ix2 k q) := by
  have h := idx3 t
  show V c main_arg10 (((cfg3.win 1).blk t).view.emb (ix2 k q)) = _
  refine congrArg (V c main_arg10) (funext fun a => Fin.ext ?_)
  match a with
  | ⟨0, _⟩ => show win3_1.index t (0 : Fin 2) * 64 + 1 * k.val = k.val; omega
  | ⟨1, _⟩ => show win3_1.index t (1 : Fin 2) * 64 + 1 * q.val = q.val; omega

theorem iblk3_2_apply (V : Entry Ideal) (c : Dev nD) (t : Fin cfg3.N) (p : Fin 4000) :
    iblk3 V c 2 t (ix2 p 0) = V c main_v28 (ix2 (row3 t p) 0) := by
  have h := idx3 t
  show V c main_v28 (((cfg3.win 2).blk t).view.emb (ix2 p 0)) = _
  refine congrArg (V c main_v28) (funext fun a => Fin.ext ?_)
  match a with
  | ⟨0, _⟩ => show win3_2.index t (0 : Fin 2) * 4000 + 1 * p.val = t.val * 4000 + p.val; omega
  | ⟨1, _⟩ => show win3_2.index t (1 : Fin 2) * 1 + 1 * 0 = 0; omega

theorem iblk3_3_apply (V : Entry Ideal) (c : Dev nD) (t : Fin cfg3.N) (k : Fin 64) :
    iblk3 V c 3 t (ix2 0 k) = V c main_v41 (ix2 0 k) := by
  have h := idx3 t
  show V c main_v41 (((cfg3.win 3).blk t).view.emb (ix2 0 k)) = _
  refine congrArg (V c main_v41) (funext fun a => Fin.ext ?_)
  match a with
  | ⟨0, _⟩ => show win3_3.index t (0 : Fin 2) * 1 + 1 * 0 = 0; omega
  | ⟨1, _⟩ => show win3_3.index t (1 : Fin 2) * 64 + 1 * k.val = k.val; omega

theorem iblk3_4_apply (V : Entry Ideal) (c : Dev nD) (t : Fin cfg3.N) (p : Fin 4000) :
    iblk3 V c 4 t (ix2 p 0) = V c main_v28 (ix2 (row3 t p) 0) := by
  have h := idx3 t
  show V c main_v28 (((cfg3.win 4).blk t).view.emb (ix2 p 0)) = _
  refine congrArg (V c main_v28) (funext fun a => Fin.ext ?_)
  match a with
  | ⟨0, _⟩ => show win3_4.index t (0 : Fin 2) * 4000 + 1 * p.val = t.val * 4000 + p.val; omega
  | ⟨1, _⟩ => show win3_4.index t (1 : Fin 2) * 1 + 1 * 0 = 0; omega

def G3 (V : Entry Ideal) (c : Dev nD) : S100000x64.Idx → EReal :=
  fun i => Cert.Spec.gcnFused (V c main_v40) (V c main_arg10) (V c main_v28) (V c main_v41) (i 0) (i 1)

theorem flushed3_eq (V : Entry Ideal) (c : Dev nD) (t : Fin cfg3.N) :
    (dat3 V c).flushed 5 t = ((cfg3.win 5).blk t).view.read (Elt Ideal) (G3 V c) := by
  show (cfg3.win 5).cut (grid3.coords t) ((dat3 V c).after 5 t) = _
  dsimp only [dat3]
  unfold out3_5
  rw [View.canon_unit_zero hz3]
  simp only [View.ld_unit_zero (S := S4000x64) hz3, View.ld_unit_zero (S := S64x64) hz3, View.ld_unit_zero (S := S4000x1) hz3, View.ld_unit_zero (S := S1x64) hz3]
  have h := idx3 t
  funext j
  obtain ⟨p, q, rfl⟩ : ∃ (p : Fin 4000) (q : Fin 64), j = ix2 p q := ⟨j 0, j 1, eq_ix2 j⟩
  have h5 : ((cfg3.win 5).blk t).view.emb (ix2 p q) = ix2 (row3 t p) q := funext fun a => Fin.ext (by
    match a with
    | ⟨0, _⟩ => show win3_5.index t (0 : Fin 2) * 4000 + 1 * p.val = t.val * 4000 + p.val; omega
    | ⟨1, _⟩ => show win3_5.index t (1 : Fin 2) * 64 + 1 * q.val = q.val; omega)
  show k3_pay1 (F := Ideal) (iblk3 V c 0 t) (iblk3 V c 2 t) (iblk3 V c 3 t) (iblk3 V c 1 t) (iblk3 V c 4 t) (ix2 p q) = G3 V c (((cfg3.win 5).blk t).view.emb (ix2 p q))
  rw [h5, pay3_apply, iblk3_2_apply, iblk3_4_apply]
  unfold G3 Cert.Spec.gcnFused Cert.Spec.act
  refine congrArg (· * V c main_v28 (ix2 (row3 t p) 0)) (Finset.sum_congr rfl fun k _ => ?_)
  rw [iblk3_0_apply, iblk3_1_apply, iblk3_3_apply]

theorem mem_blk3 (t : Fin cfg3.N) (i : S100000x64.Idx) :
    i ∈ ((cfg3.win 5).blk t).view.set ↔ ∀ a : Fin 2, win3_5.index t a * S4000x64.size a ≤ (i a).val ∧ (i a).val < win3_5.index t a * S4000x64.size a + S4000x64.size a := by
  show i ∈ ((View.whole main_v42).slice (win3_5.rect t)).set ↔ _
  rw [View.set_slice_whole, Rect.mem_set_unit]
  exact Iff.rfl

theorem cover3 (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  let t : Fin cfg3.N := ⟨(i 0).val / 4000, by rw [show cfg3.N = 25 from N_3]; omega⟩
  have h := idx3 t
  have ht : t.val = (i 0).val / 4000 := rfl
  refine ⟨t, flush3_5 t, ?_⟩
  rw [mem_blk3]
  intro a
  match a with
  | ⟨0, _⟩ => show win3_5.index t (0 : Fin 2) * 4000 ≤ (i 0).val ∧ (i 0).val < win3_5.index t (0 : Fin 2) * 4000 + 4000; omega
  | ⟨1, _⟩ => show win3_5.index t (1 : Fin 2) * 64 ≤ (i 1).val ∧ (i 1).val < win3_5.index t (1 : Fin 2) * 64 + 64; omega

theorem out3_apply (V : Entry Ideal) (c : Dev nD) (r : Fin 100000) (f : Fin 64) :
    (dat3 V c).arrAt 5 cfg3.N (ix2 r f) = Cert.Spec.gcnFused (V c main_v40) (V c main_arg10) (V c main_v28) (V c main_v41) r f := by
  rw [(dat3 V c).arrAt_eq_of_cover 5 (G3 V c) (fun t _ => flushed3_eq V c t) cover3]; rfl

end Cert.KernelIdeal.HandVal

end
-- ==== Proof.KI.Val4.lean ====
import proofs.«416092_j83932250898780_3_alg».proof.Proof.KI.Reg4
import proofs.«416092_j83932250898780_3_alg».proof.Proof.KI.Val3

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx

theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

def row4 (t : Fin cfg4.N) (p : Fin 4000) : Fin 100000 :=
  ⟨t.val * 4000 + p.val, by have h : t.val < grid4.N := t.isLt; rw [N_4] at h; have := p.isLt; omega⟩

theorem iblk4_0_apply (V : Entry Ideal) (c : Dev nD) (t : Fin cfg4.N) (p : Fin 4000) (k : Fin 64) :
    iblk4 V c 0 t (ix2 p k) = V c main_v53 (ix2 (row4 t p) k) := by
  have h := idx4 t
  show V c main_v53 (((cfg4.win 0).blk t).view.emb (ix2 p k)) = _
  refine congrArg (V c main_v53) (funext fun a => Fin.ext ?_)
  match a with
  | ⟨0, _⟩ => show win4_0.index t (0 : Fin 2) * 4000 + 1 * p.val = t.val * 4000 + p.val; omega
  | ⟨1, _⟩ => show win4_0.index t (1 : Fin 2) * 64 + 1 * k.val = k.val; omega

theorem iblk4_1_apply (V : Entry Ideal) (c : Dev nD) (t : Fin cfg4.N) (k : Fin 64) (q : Fin 64) :
    iblk4 V c 1 t (ix2 k q) = V c main_arg12 (ix2 k q) := by
  have h := idx4 t
  show V c main_arg12 (((cfg4.win 1).blk t).view.emb (ix2 k q)) = _
  refine congrArg (V c main_arg12) (funext fun a => Fin.ext ?_)
  match a with
  | ⟨0, _⟩ => show win4_1.index t (0 : Fin 2) * 64 + 1 * k.val = k.val; omega
  | ⟨1, _⟩ => show win4_1.index t (1 : Fin 2) * 64 + 1 * q.val = q.val; omega

theorem iblk4_2_apply (V : Entry Ideal) (c : Dev nD) (t : Fin cfg4.N) (p : Fin 4000) :
    iblk4 V c 2 t (ix2 p 0) = V c main_v28 (ix2 (row4 t p) 0) := by
  have h := idx4 t
  show V c main_v28 (((cfg4.win 2).blk t).view.emb (ix2 p 0)) = _
  refine congrArg (V c main_v28) (funext fun a => Fin.ext ?_)
  match a with
  | ⟨0, _⟩ => show win4_2.index t (0 : Fin 2) * 4000 + 1 * p.val = t.val * 4000 + p.val; omega
  | ⟨1, _⟩ => show win4_2.index t (1 : Fin 2) * 1 + 1 * 0 = 0; omega

theorem iblk4_3_apply (V : Entry Ideal) (c : Dev nD) (t : Fin cfg4.N) (k : Fin 64) :
    iblk4 V c 3 t (ix2 0 k) = V c main_v54 (ix2 0 k) := by
  have h := idx4 t
  show V c main_v54 (((cfg4.win 3).blk t).view.emb (ix2 0 k)) = _
  refine congrArg (V c main_v54) (funext fun a => Fin.ext ?_)
  match a with
  | ⟨0, _⟩ => show win4_3.index t (0 : Fin 2) * 1 + 1 * 0 = 0; omega
  | ⟨1, _⟩ => show win4_3.index t (1 : Fin 2) * 64 + 1 * k.val = k.val; omega

theorem iblk4_4_apply (V : Entry Ideal) (c : Dev nD) (t : Fin cfg4.N) (p : Fin 4000) :
    iblk4 V c 4 t (ix2 p 0) = V c main_v28 (ix2 (row4 t p) 0) := by
  have h := idx4 t
  show V c main_v28 (((cfg4.win 4).blk t).view.emb (ix2 p 0)) = _
  refine congrArg (V c main_v28) (funext fun a => Fin.ext ?_)
  match a with
  | ⟨0, _⟩ => show win4_4.index t (0 : Fin 2) * 4000 + 1 * p.val = t.val * 4000 + p.val; omega
  | ⟨1, _⟩ => show win4_4.index t (1 : Fin 2) * 1 + 1 * 0 = 0; omega

def G4 (V : Entry Ideal) (c : Dev nD) : S100000x64.Idx → EReal :=
  fun i => Cert.Spec.gcnFused (V c main_v53) (V c main_arg12) (V c main_v28) (V c main_v54) (i 0) (i 1)

theorem flushed4_eq (V : Entry Ideal) (c : Dev nD) (t : Fin cfg4.N) :
    (dat4 V c).flushed 5 t = ((cfg4.win 5).blk t).view.read (Elt Ideal) (G4 V c) := by
  show (cfg4.win 5).cut (grid4.coords t) ((dat4 V c).after 5 t) = _
  dsimp only [dat4]
  unfold out3_5
  rw [View.canon_unit_zero hz3]
  simp only [View.ld_unit_zero (S := S4000x64) hz3, View.ld_unit_zero (S := S64x64) hz3, View.ld_unit_zero (S := S4000x1) hz3, View.ld_unit_zero (S := S1x64) hz3]
  have h := idx4 t
  funext j
  obtain ⟨p, q, rfl⟩ : ∃ (p : Fin 4000) (q : Fin 64), j = ix2 p q := ⟨j 0, j 1, eq_ix2 j⟩
  have h5 : ((cfg4.win 5).blk t).view.emb (ix2 p q) = ix2 (row4 t p) q := funext fun a => Fin.ext (by
    match a with
    | ⟨0, _⟩ => show win4_5.index t (0 : Fin 2) * 4000 + 1 * p.val = t.val * 4000 + p.val; omega
    | ⟨1, _⟩ => show win4_5.index t (1 : Fin 2) * 64 + 1 * q.val = q.val; omega)
  show k3_pay1 (F := Ideal) (iblk4 V c 0 t) (iblk4 V c 2 t) (iblk4 V c 3 t) (iblk4 V c 1 t) (iblk4 V c 4 t) (ix2 p q) = G4 V c (((cfg4.win 5).blk t).view.emb (ix2 p q))
  rw [h5, pay3_apply, iblk4_2_apply, iblk4_4_apply]
  unfold G4 Cert.Spec.gcnFused Cert.Spec.act
  refine congrArg (· * V c main_v28 (ix2 (row4 t p) 0)) (Finset.sum_congr rfl fun k _ => ?_)
  rw [iblk4_0_apply, iblk4_1_apply, iblk4_3_apply]

theorem mem_blk4 (t : Fin cfg4.N) (i : S100000x64.Idx) :
    i ∈ ((cfg4.win 5).blk t).view.set ↔ ∀ a : Fin 2, win4_5.index t a * S4000x64.size a ≤ (i a).val ∧ (i a).val < win4_5.index t a * S4000x64.size a + S4000x64.size a := by
  show i ∈ ((View.whole main_v55).slice (win4_5.rect t)).set ↔ _
  rw [View.set_slice_whole, Rect.mem_set_unit]
  exact Iff.rfl

theorem cover4 (i : S100000x64.Idx) : ∃ t : Fin cfg4.N, (cfg4.win 5).flush t = true ∧ i ∈ ((cfg4.win 5).blk t).view.set := by
  have hi0 : (i 0).val < 100000 := (i 0).isLt
  have hi1 : (i 1).val < 64 := (i 1).isLt
  let t : Fin cfg4.N := ⟨(i 0).val / 4000, by rw [show cfg4.N = 25 from N_4]; omega⟩
  have h := idx4 t
  have ht : t.val = (i 0).val / 4000 := rfl
  refine ⟨t, flush4_5 t, ?_⟩
  rw [mem_blk4]
  intro a
  match a with
  | ⟨0, _⟩ => show win4_5.index t (0 : Fin 2) * 4000 ≤ (i 0).val ∧ (i 0).val < win4_5.index t (0 : Fin 2) * 4000 + 4000; omega
  | ⟨1, _⟩ => show win4_5.index t (1 : Fin 2) * 64 ≤ (i 1).val ∧ (i 1).val < win4_5.index t (1 : Fin 2) * 64 + 64; omega

theorem out4_apply (V : Entry Ideal) (c : Dev nD) (r : Fin 100000) (f : Fin 64) :
    (dat4 V c).arrAt 5 cfg4.N (ix2 r f) = Cert.Spec.gcnFused (V c main_v53) (V c main_arg12) (V c main_v28) (V c main_v54) r f := by
  rw [(dat4 V c).arrAt_eq_of_cover 5 (G4 V c) (fun t _ => flushed4_eq V c t) cover4]; rfl

end Cert.KernelIdeal.HandVal

end
-- ==== Proof.KI.Val5.lean ====
import proofs.«416092_j83932250898780_3_alg».proof.Proof.KI.Reg5
import proofs.«416092_j83932250898780_3_alg».proof.Proof.KI.Val0
import proofs.«416092_j83932250898780_3_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.ValueIdx

namespace Pool5

theorem one_f32 : Ideal.ofBits .f32 0x3F800000#32 = 1 := IdealRules.sign_bit.ideal_onePat .f32
theorem one_bf16 : Ideal.ofBits .bf16 0x3F80#16 = 1 := IdealRules.sign_bit.ideal_onePat .bf16

theorem word_eq_iff (b : BitVec 32) (g : Fin 512) : b = BitVec.ofNat 32 g.val ↔ b.toInt = (g.val : Int) := by
  rw [← BitVec.toInt_inj, StableHlo.Predicate.toInt_ofNat_small _ (by have := g.isLt; omega)]

theorem pay3_apply (v3 : Vec Ideal S2000x1 .i32) (g : Fin 512) (r : Fin 2000) :
    k5_pay3 (F := Ideal) v3 (ix2 g r) = if (v3 (ix2 r (0 : Fin 1))).toInt = (g.val : Int) then 1 else 0 := by
  unfold k5_pay3
  rw [transpose_ix2_apply, truncf_apply, select_apply, broadcast_apply, broadcast_apply]
  show Scalar.select (IntOp.cmpi .eq (broadcastTo S2000x512 (shapeCast S2000x1 v3 shapeCasts_S2000x1_S2000x1) broadcasts_S2000x1_S2000x512 (ix2 r g))
      (iota .tc S2000x512 32 [1] iota_S2000x512_d1_w32 (ix2 r g))) (Ideal.ofBits .f32 0x3F800000#32) (Ideal.ofBits .f32 0x00000000#32) = _
  rw [iota_single_apply, shapeCast_self,
    broadcastTo_apply v3 broadcasts_S2000x1_S2000x512 (ix2 r g) (ix2 r (0 : Fin 1)) (fun a => match a with
      | ⟨0, _⟩ => by show r.val = if (2000 : Nat) = 1 then 0 else r.val; rw [if_neg (by decide)]
      | ⟨1, _⟩ => by show (0 : Nat) = if (1 : Nat) = 1 then 0 else g.val; rw [if_pos rfl]),
    one_f32, Ideal.ofBits_zero_f32]
  show Scalar.select (IntOp.cmpi .eq (v3 (ix2 r (0 : Fin 1))) (BitVec.ofNat 32 g.val)) (1 : EReal) 0 = _
  by_cases h : (v3 (ix2 r (0 : Fin 1))).toInt = (g.val : Int)
  · rw [if_pos h, StableHlo.Predicate.cmpi_eq_iff.mpr ((word_eq_iff _ g).mpr h), select_one]
  · rw [if_neg h, eq_zero_of_ne_one (fun e => h ((word_eq_iff _ g).mp (StableHlo.Predicate.cmpi_eq_iff.mp e))), select_zero]

theorem pay1_apply (j : S512x64.Idx) : k5_pay1 (F := Ideal) j = 0 := by
  unfold k5_pay1
  rw [shapeCast_self, broadcast_apply]
  exact Ideal.ofBits_zero_f32
theorem pay2_apply (j : S512x1.Idx) : k5_pay2 (F := Ideal) j = 0 := by
  unfold k5_pay2
  rw [shapeCast_self, broadcast_apply]
  exact Ideal.ofBits_zero_f32

theorem pay4_apply (v3 : Vec Ideal S2000x1 .i32) (v13 : Vec Ideal S2000x64 .f32) (v15 : Vec Ideal S2000x1 .f32) (v23 : Vec Ideal S512x64 .f32)
    (g : Fin 512) (f : Fin 64) :
    k5_pay4 (F := Ideal) v3 v13 v15 v23 (ix2 g f)
      = v23 (ix2 g f) + ∑ r : Fin 2000, k5_pay3 (F := Ideal) v3 (ix2 g r) * (v13 (ix2 r f) * v15 (ix2 r (0 : Fin 1))) := by
  unfold k5_pay4
  rw [shapeCast_self, addf_apply, matmul_plain_apply dot_S512x2000_S2000x64_S512x64_1_0_0_1_n_n rfl]
  congr 1
  refine Finset.sum_congr rfl fun k _ => ?_
  rw [truncf_apply, mulf_apply, shapeCast_self, shapeCast_self,
    broadcastTo_apply v15 broadcasts_S2000x1_S2000x64 (ix2 k f) (ix2 k (0 : Fin 1)) (fun a => match a with
      | ⟨0, _⟩ => by show k.val = if (2000 : Nat) = 1 then 0 else k.val; rw [if_neg (by decide)]
      | ⟨1, _⟩ => by show (0 : Nat) = if (1 : Nat) = 1 then 0 else f.val; rw [if_pos rfl])]

theorem pay5_apply (v3 : Vec Ideal S2000x1 .i32) (v28 : Vec Ideal S512x1 .f32) (g : Fin 512) :
    k5_pay5 (F := Ideal) v3 v28 (ix2 g (0 : Fin 1)) = v28 (ix2 g (0 : Fin 1)) + ∑ r : Fin 2000, k5_pay3 (F := Ideal) v3 (ix2 g r) := by
  unfold k5_pay5
  rw [shapeCast_self, addf_apply, matmul_plain_apply dot_S512x2000_S2000x1_S512x1_1_0_0_1_n_n rfl]
  congr 1
  refine Finset.sum_congr rfl fun k _ => ?_
  rw [broadcast_apply]
  show k5_pay3 (F := Ideal) v3 (ix2 g k) * Ideal.ofBits .bf16 0x3F80#16 = _
  rw [one_bf16, mul_one]

theorem sum_rows_blocks (G : Fin 100000 → EReal) :
    ∑ r : Fin 100000, G r
      = ∑ t : Fin 50, ∑ k : Fin 2000, G ⟨t.val * 2000 + k.val, by have := t.isLt; have := k.isLt; omega⟩ := by
  have e : ∑ r : Fin 100000, G r
      = ∑ p : Fin 50 × Fin 2000, G ⟨p.1.val * 2000 + p.2.val, by have := p.1.isLt; have := p.2.isLt; omega⟩ := by
    refine (Fintype.sum_equiv (finProdFinEquiv (m := 50) (n := 2000)) _ _ fun p => ?_).symm
    exact congrArg G (Fin.ext (by
      show p.1.val * 2000 + p.2.val = (finProdFinEquiv (m := 50) (n := 2000) p).val
      rw [finProdFinEquiv_apply_val]; omega))
  rw [e, Fintype.sum_prod_type]

def upTo (B : Fin 50 → EReal) (n : ℕ) : EReal := ∑ i ∈ Finset.range (n + 1), if h : i < 50 then B ⟨i, h⟩ else 0

theorem upTo_zero (B : Fin 50 → EReal) : upTo B 0 = B ⟨0, by decide⟩ := by
  unfold upTo; rw [Finset.sum_range_one, dif_pos (by decide)]

theorem upTo_succ (B : Fin 50 → EReal) (n : ℕ) (h : n + 1 < 50) : upTo B (n + 1) = upTo B n + B ⟨n + 1, h⟩ := by
  unfold upTo; rw [Finset.sum_range_succ _ (n + 1), dif_pos h]

theorem upTo_last (B : Fin 50 → EReal) : upTo B 49 = ∑ t : Fin 50, B t := by
  unfold upTo
  rw [Finset.sum_range (fun i => if h : i < 50 then B ⟨i, h⟩ else 0)]
  exact Finset.sum_congr rfl fun t _ => by rw [dif_pos t.isLt]

theorem updS_eq (x0 : Vec Ideal S2000x64 .f32) (x1 : Vec Ideal S2000x1 .f32) (x2 : Vec Ideal S2000x1 .i32) (v : Vec Ideal S512x64 .f32) :
    updS (F := Ideal) x0 x1 x2 v = k5_pay4 x2 x0 x1 v := by
  unfold updS
  simp only [View.ld_unit_zero (S := S2000x64) zero5, View.ld_unit_zero (S := S2000x1) zero5]

theorem updC_eq (x2 : Vec Ideal S2000x1 .i32) (v : Vec Ideal S512x1 .f32) : updC (F := Ideal) x2 v = k5_pay5 x2 v := by
  unfold updC
  simp only [View.ld_unit_zero (S := S2000x1) zero5]

theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

theorem lt50 (t : Fin cfg5.N) : t.val < 50 := lt_of_lt_of_eq t.isLt (show cfg5.N = 50 from N_5)

abbrev rowOf (t : Fin cfg5.N) (k : Fin 2000) : Fin 100000 := ⟨t.val * 2000 + k.val, by have := lt50 t; have := k.isLt; omega⟩

theorem iblk5_0_apply (V : Entry Ideal) (c : Dev nD) (t : Fin cfg5.N) (k : Fin 2000) (f : Fin 64) :
    iblk5 V c 0 t (ix2 k f) = V c main_v66 (ix2 (rowOf t k) f) := by
  obtain ⟨e0, e1, -⟩ := idx_facts5 t
  refine congrArg (V c main_v66) (funext fun a => Fin.ext ?_)
  match a with
  | ⟨0, _⟩ => show win5_0.index t (0 : Fin 2) * 2000 + 1 * k.val = t.val * 2000 + k.val; omega
  | ⟨1, _⟩ => show win5_0.index t (1 : Fin 2) * 64 + 1 * f.val = f.val; omega

theorem iblk5_1_apply (V : Entry Ideal) (c : Dev nD) (t : Fin cfg5.N) (k : Fin 2000) :
    iblk5 V c 1 t (ix2 k (0 : Fin 1)) = V c main_v28 (ix2 (rowOf t k) (0 : Fin 1)) := by
  obtain ⟨-, -, e0, e1, -⟩ := idx_facts5 t
  refine congrArg (V c main_v28) (funext fun a => Fin.ext ?_)
  match a with
  | ⟨0, _⟩ => show win5_1.index t (0 : Fin 2) * 2000 + 1 * k.val = t.val * 2000 + k.val; omega
  | ⟨1, _⟩ => show win5_1.index t (1 : Fin 2) * 1 + 1 * 0 = 0; omega

theorem iblk5_2_apply (V : Entry Ideal) (c : Dev nD) (t : Fin cfg5.N) (k : Fin 2000) :
    iblk5 V c 2 t (ix2 k (0 : Fin 1)) = V c main_v67 (ix2 (rowOf t k) (0 : Fin 1)) := by
  obtain ⟨-, -, -, -, e0, e1, -⟩ := idx_facts5 t
  refine congrArg (V c main_v67) (funext fun a => Fin.ext ?_)
  match a with
  | ⟨0, _⟩ => show win5_2.index t (0 : Fin 2) * 2000 + 1 * k.val = t.val * 2000 + k.val; omega
  | ⟨1, _⟩ => show win5_2.index t (1 : Fin 2) * 1 + 1 * 0 = 0; omega

def termS (a : Spec.Mat 100000 64) (d : Spec.Mat 100000 1) (bt : Spec.IMat 100000 1) (g : Fin 512) (f : Fin 64) (r : Fin 100000) : EReal :=
  if (bt (ix2 r (0 : Fin 1))).toInt = (g.val : Int) then a (ix2 r f) * d (ix2 r (0 : Fin 1)) else 0

def termC (bt : Spec.IMat 100000 1) (g : Fin 512) (r : Fin 100000) : EReal :=
  if (bt (ix2 r (0 : Fin 1))).toInt = (g.val : Int) then 1 else 0

def blockSum (T : Fin 100000 → EReal) (t : Fin 50) : EReal :=
  ∑ k : Fin 2000, T ⟨t.val * 2000 + k.val, by have := t.isLt; have := k.isLt; omega⟩

theorem stepS_apply (V : Entry Ideal) (c : Dev nD) (t : Fin cfg5.N) (v : Vec Ideal S512x64 .f32) (g : Fin 512) (f : Fin 64) :
    updS (iblk5 V c 0 t) (iblk5 V c 1 t) (iblk5 V c 2 t) v (ix2 g f)
      = v (ix2 g f) + blockSum (termS (V c main_v66) (V c main_v28) (V c main_v67) g f) ⟨t.val, lt50 t⟩ := by
  rw [updS_eq, pay4_apply]
  refine congrArg (v (ix2 g f) + ·) ?_
  unfold blockSum
  refine Finset.sum_congr rfl fun k _ => ?_
  rw [pay3_apply, iblk5_0_apply, iblk5_1_apply, iblk5_2_apply]
  unfold termS
  simp only [ite_mul, one_mul, zero_mul]

theorem stepC_apply (V : Entry Ideal) (c : Dev nD) (t : Fin cfg5.N) (v : Vec Ideal S512x1 .f32) (g : Fin 512) :
    updC (iblk5 V c 2 t) v (ix2 g (0 : Fin 1))
      = v (ix2 g (0 : Fin 1)) + blockSum (termC (V c main_v67) g) ⟨t.val, lt50 t⟩ := by
  rw [updC_eq, pay5_apply]
  refine congrArg (v (ix2 g (0 : Fin 1)) + ·) ?_
  unfold blockSum
  refine Finset.sum_congr rfl fun k _ => ?_
  rw [pay3_apply, iblk5_2_apply]
  unfold termC
  rfl

theorem accS_apply (V : Entry Ideal) (c : Dev nD) (g : Fin 512) (f : Fin 64) (n : ℕ) : ∀ (h : n < cfg5.N),
    (acc5 V c n h).1 (ix2 g f) = upTo (blockSum (termS (V c main_v66) (V c main_v28) (V c main_v67) g f)) n := by
  induction n with
  | zero =>
    intro h
    rw [acc5, upTo_zero]
    dsimp only
    rw [stepS_apply, pay1_apply, zero_add]
  | succ n ih =>
    intro h
    have h50 : n + 1 < 50 := lt_of_lt_of_eq h (show cfg5.N = 50 from N_5)
    rw [acc5, upTo_succ _ n h50, ← ih (Nat.lt_of_succ_lt h)]
    dsimp only
    rw [stepS_apply, View.ld_unit_zero (S := S512x64) zero5]

theorem accC_apply (V : Entry Ideal) (c : Dev nD) (g : Fin 512) (n : ℕ) : ∀ (h : n < cfg5.N),
    (acc5 V c n h).2 (ix2 g (0 : Fin 1)) = upTo (blockSum (termC (V c main_v67) g)) n := by
  induction n with
  | zero =>
    intro h
    rw [acc5, upTo_zero]
    dsimp only
    rw [stepC_apply, pay2_apply, zero_add]
  | succ n ih =>
    intro h
    have h50 : n + 1 < 50 := lt_of_lt_of_eq h (show cfg5.N = 50 from N_5)
    rw [acc5, upTo_succ _ n h50, ← ih (Nat.lt_of_succ_lt h)]
    dsimp only
    rw [stepC_apply, View.ld_unit_zero (S := S512x1) zero5]

theorem accS_last (V : Entry Ideal) (c : Dev nD) (g : Fin 512) (f : Fin 64) (n : ℕ) (h : n < cfg5.N) (e : n = 49) :
    (acc5 V c n h).1 (ix2 g f) = Spec.poolSum (V c main_v66) (V c main_v28) (V c main_v67) g f := by
  subst e
  rw [accS_apply, upTo_last]
  unfold Spec.poolSum
  exact (sum_rows_blocks (termS (V c main_v66) (V c main_v28) (V c main_v67) g f)).symm

theorem accC_last (V : Entry Ideal) (c : Dev nD) (g : Fin 512) (n : ℕ) (h : n < cfg5.N) (e : n = 49) :
    (acc5 V c n h).2 (ix2 g (0 : Fin 1)) = Spec.poolCnt (V c main_v67) g := by
  subst e
  rw [accC_apply, upTo_last]
  unfold Spec.poolCnt
  exact (sum_rows_blocks (termC (V c main_v67) g)).symm

theorem blk3_read (G : S512x64.Idx → EReal) (t : Fin cfg5.N) (g : Fin 512) (f : Fin 64) :
    ((cfg5.win 3).blk t).view.read (Elt Ideal) G (ix2 g f) = G (ix2 g f) := by
  obtain ⟨-, -, -, -, -, -, e0, e1, -⟩ := idx_facts5 t
  refine congrArg G (funext fun a => Fin.ext ?_)
  match a with
  | ⟨0, _⟩ => show win5_3.index t (0 : Fin 2) * 512 + 1 * g.val = g.val; omega
  | ⟨1, _⟩ => show win5_3.index t (1 : Fin 2) * 64 + 1 * f.val = f.val; omega

theorem blk4_read (G : S512x1.Idx → EReal) (t : Fin cfg5.N) (g : Fin 512) :
    ((cfg5.win 4).blk t).view.read (Elt Ideal) G (ix2 g (0 : Fin 1)) = G (ix2 g (0 : Fin 1)) := by
  obtain ⟨-, -, -, -, -, -, -, -, e0, e1⟩ := idx_facts5 t
  refine congrArg G (funext fun a => Fin.ext ?_)
  match a with
  | ⟨0, _⟩ => show win5_4.index t (0 : Fin 2) * 512 + 1 * g.val = g.val; omega
  | ⟨1, _⟩ => show win5_4.index t (1 : Fin 2) * 1 + 1 * 0 = 0; omega

def sumArr (V : Entry Ideal) (c : Dev nD) : S512x64.Idx → EReal :=
  fun i => Spec.poolSum (V c main_v66) (V c main_v28) (V c main_v67) (i 0) (i 1)
def cntArr (V : Entry Ideal) (c : Dev nD) : S512x1.Idx → EReal :=
  fun i => Spec.poolCnt (V c main_v67) (i 0)

abbrev tLast : Fin cfg5.N := ⟨49, by rw [show cfg5.N = 50 from N_5]; decide⟩

theorem out5_sum (V : Entry Ideal) (c : Dev nD) :
    (dat5 V c).arrAt 3 cfg5.N = sumArr V c := by
  refine (dat5 V c).arrAt_eq_of_cover 3 (sumArr V c) (fun t hf => ?_) (fun i => ?_)
  · have h49 : t.val = 49 := by have := (flush5_3 t).mp hf; have := lt50 t; omega
    show (cfg5.win 3).cut (grid5.coords t) (acc5 V c t.val t.isLt).1 = _
    funext j
    obtain ⟨g, f, rfl⟩ : ∃ (g : Fin 512) (f : Fin 64), j = ix2 g f := ⟨j 0, j 1, eq_ix2 j⟩
    exact (accS_last V c g f t.val t.isLt h49).trans (blk3_read (sumArr V c) t g f).symm
  · refine ⟨tLast, (flush5_3 tLast).mpr rfl, ?_⟩
    show i ∈ ((View.whole main_v68_0).slice (win5_3.rect tLast)).set
    rw [View.set_slice_whole, Rect.mem_set_unit]
    obtain ⟨-, -, -, -, -, -, e0, e1, -⟩ := idx_facts5 tLast
    have h0 := idx2_lt0 i
    have h1 := idx2_lt1 i
    intro a
    match a with
    | ⟨0, _⟩ => show win5_3.index tLast (0 : Fin 2) * 512 ≤ (i 0).val ∧ (i 0).val < win5_3.index tLast (0 : Fin 2) * 512 + 512; omega
    | ⟨1, _⟩ => show win5_3.index tLast (1 : Fin 2) * 64 ≤ (i 1).val ∧ (i 1).val < win5_3.index tLast (1 : Fin 2) * 64 + 64; omega

theorem out5_cnt (V : Entry Ideal) (c : Dev nD) :
    (dat5 V c).arrAt 4 cfg5.N = cntArr V c := by
  refine (dat5 V c).arrAt_eq_of_cover 4 (cntArr V c) (fun t hf => ?_) (fun i => ?_)
  · have h49 : t.val = 49 := by have := (flush5_4 t).mp hf; have := lt50 t; omega
    show (cfg5.win 4).cut (grid5.coords t) (acc5 V c t.val t.isLt).2 = _
    funext j
    obtain ⟨g, z, rfl⟩ : ∃ (g : Fin 512) (z : Fin 1), j = ix2 g z := ⟨j 0, j 1, eq_ix2 j⟩
    obtain rfl : z = 0 := Subsingleton.elim _ _
    exact (accC_last V c g t.val t.isLt h49).trans (blk4_read (cntArr V c) t g).symm
  · refine ⟨tLast, (flush5_4 tLast).mpr rfl, ?_⟩
    show i ∈ ((View.whole main_v68_1).slice (win5_4.rect tLast)).set
    rw [View.set_slice_whole, Rect.mem_set_unit]
    obtain ⟨-, -, -, -, -, -, -, -, e0, e1⟩ := idx_facts5 tLast
    have h0 := idx2_lt0 i
    have h1 := idx2_lt1 i
    intro a
    match a with
    | ⟨0, _⟩ => show win5_4.index tLast (0 : Fin 2) * 512 ≤ (i 0).val ∧ (i 0).val < win5_4.index tLast (0 : Fin 2) * 512 + 512; omega
    | ⟨1, _⟩ => show win5_4.index tLast (1 : Fin 2) * 1 ≤ (i 1).val ∧ (i 1).val < win5_4.index tLast (1 : Fin 2) * 1 + 1; omega

end Pool5

theorem out5_sum_apply (V : Entry Ideal) (c : Dev nD) (g : Fin 512) (f : Fin 64) :
    (dat5 V c).arrAt 3 cfg5.N (ix2 g f) = Cert.Spec.poolSum (V c main_v66) (V c main_v28) (V c main_v67) g f :=
  congrFun (Pool5.out5_sum V c) (ix2 g f)

theorem out5_cnt_apply (V : Entry Ideal) (c : Dev nD) (g : Fin 512) :
    (dat5 V c).arrAt 4 cfg5.N (ix2 g (0 : Fin 1)) = Cert.Spec.poolCnt (V c main_v67) g :=
  congrFun (Pool5.out5_cnt V c) (ix2 g (0 : Fin 1))

end Cert.KernelIdeal.HandVal
end
-- ==== Proof.KI.Val6.lean ====
import proofs.«416092_j83932250898780_3_alg».proof.Proof.KI.Reg6
import proofs.«416092_j83932250898780_3_alg».proof.Proof.KI.Val0
import proofs.«416092_j83932250898780_3_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.ValueIdx

theorem bcast_row32 {α : Type} (x : S1x32.Idx → α) (r : Fin 512) (f : Fin 32) :
    broadcastTo S512x32 x broadcasts_S1x32_S512x32 (ix2 r f) = x (ix2 (0 : Fin 1) f) :=
  broadcastTo_apply x _ _ _ (fun a => by
    match a with
    | ⟨0, _⟩ => rfl
    | ⟨1, _⟩ => rfl)

theorem bcast_scalar {α : Type} (x : S1x1.Idx → α) (r : Fin 512) (f : Fin 1) :
    broadcastTo S512x1 x broadcasts_S1x1_S512x1 (ix2 r f) = x (ix2 (0 : Fin 1) (0 : Fin 1)) :=
  broadcastTo_apply x _ _ _ (fun a => by
    match a with
    | ⟨0, _⟩ => rfl
    | ⟨1, _⟩ => rfl)

theorem pay6_apply (x0 : Vec Ideal S512x64 .f32) (x1 : Vec Ideal S64x32 .f32) (x2 : Vec Ideal S1x32 .f32) (x3 : Vec Ideal S32x1 .f32) (x4 : Vec Ideal S1x1 .f32)
    (g : Fin 512) :
    k6_pay1 (F := Ideal) x0 x1 x2 x3 x4 (ix2 g (0 : Fin 1)) = Cert.Spec.classifier x0 x1 x2 x3 x4 g := by
  unfold k6_pay1 Cert.Spec.classifier Cert.Spec.dot
  simp only [shapeCast_self]
  rw [addf_apply, matmul_plain_apply dot_S512x32_S32x1_S512x1_1_0_0_1_n_n rfl, bcast_scalar]
  refine congrArg (· + x4 (ix2 0 0)) (Finset.sum_congr rfl fun q _ => ?_)
  rw [truncf_apply, truncf_apply, maximumf_apply, addf_apply, matmul_plain_apply dot_S512x64_S64x32_S512x32_1_0_0_1_n_n rfl, bcast_row32, broadcast_apply]
  simp only [truncf_apply]
  show max _ (Ideal.ofBits .f32 0x00000000#32) * _ = _
  rw [Ideal.ofBits_zero_f32]

theorem hz6 : (![0, 0] : Fin 2 → Nat) = fun _ => 0 := funext fun a => by fin_cases a <;> rfl

theorem idx_facts6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

def G6 (V : Entry Ideal) (c : Dev nD) : S512x1.Idx → EReal :=
  fun i => Cert.Spec.classifier (V c main_v80) (V c main_arg14) (V c main_v81) (V c main_arg16) (V c main_v82) (i 0)

theorem emb6_0 (t : Fin cfg6.N) (y : S512x64.Idx) : ((cfg6.win 0).blk t).view.emb y = y := by
  obtain ⟨e0, e1, -⟩ := idx_facts6 t
  funext a; apply Fin.ext
  match a with
  | ⟨0, _⟩ => show win6_0.index t (0 : Fin 2) * 512 + 1 * (y 0).val = (y 0).val; omega
  | ⟨1, _⟩ => show win6_0.index t (1 : Fin 2) * 64 + 1 * (y 1).val = (y 1).val; omega
theorem emb6_1 (t : Fin cfg6.N) (y : S64x32.Idx) : ((cfg6.win 1).blk t).view.emb y = y := by
  obtain ⟨-, -, e0, e1, -⟩ := idx_facts6 t
  funext a; apply Fin.ext
  match a with
  | ⟨0, _⟩ => show win6_1.index t (0 : Fin 2) * 64 + 1 * (y 0).val = (y 0).val; omega
  | ⟨1, _⟩ => show win6_1.index t (1 : Fin 2) * 32 + 1 * (y 1).val = (y 1).val; omega
theorem emb6_2 (t : Fin cfg6.N) (y : S1x32.Idx) : ((cfg6.win 2).blk t).view.emb y = y := by
  obtain ⟨-, -, -, -, e0, e1, -⟩ := idx_facts6 t
  funext a; apply Fin.ext
  match a with
  | ⟨0, _⟩ => show win6_2.index t (0 : Fin 2) * 1 + 1 * (y 0).val = (y 0).val; omega
  | ⟨1, _⟩ => show win6_2.index t (1 : Fin 2) * 32 + 1 * (y 1).val = (y 1).val; omega
theorem emb6_3 (t : Fin cfg6.N) (y : S32x1.Idx) : ((cfg6.win 3).blk t).view.emb y = y := by
  obtain ⟨-, -, -, -, -, -, e0, e1, -⟩ := idx_facts6 t
  funext a; apply Fin.ext
  match a with
  | ⟨0, _⟩ => show win6_3.index t (0 : Fin 2) * 32 + 1 * (y 0).val = (y 0).val; omega
  | ⟨1, _⟩ => show win6_3.index t (1 : Fin 2) * 1 + 1 * (y 1).val = (y 1).val; omega
theorem emb6_4 (t : Fin cfg6.N) (y : S1x1.Idx) : ((cfg6.win 4).blk t).view.emb y = y := by
  obtain ⟨-, -, -, -, -, -, -, -, e0, e1, -⟩ := idx_facts6 t
  funext a; apply Fin.ext
  match a with
  | ⟨0, _⟩ => show win6_4.index t (0 : Fin 2) * 1 + 1 * (y 0).val = (y 0).val; omega
  | ⟨1, _⟩ => show win6_4.index t (1 : Fin 2) * 1 + 1 * (y 1).val = (y 1).val; omega
theorem emb6_5 (t : Fin cfg6.N) (y : S512x1.Idx) : ((cfg6.win 5).blk t).view.emb y = y := by
  obtain ⟨-, -, -, -, -, -, -, -, -, -, e0, e1⟩ := idx_facts6 t
  funext a; apply Fin.ext
  match a with
  | ⟨0, _⟩ => show win6_5.index t (0 : Fin 2) * 512 + 1 * (y 0).val = (y 0).val; omega
  | ⟨1, _⟩ => show win6_5.index t (1 : Fin 2) * 1 + 1 * (y 1).val = (y 1).val; omega

theorem iblk6_0_eq (V : Entry Ideal) (c : Dev nD) (t : Fin cfg6.N) : (iblk6 V c 0 t : S512x64.Idx → EReal) = V c main_v80 :=
  funext fun y => congrArg (V c main_v80) (emb6_0 t y)
theorem iblk6_1_eq (V : Entry Ideal) (c : Dev nD) (t : Fin cfg6.N) : (iblk6 V c 1 t : S64x32.Idx → EReal) = V c main_arg14 :=
  funext fun y => congrArg (V c main_arg14) (emb6_1 t y)
theorem iblk6_2_eq (V : Entry Ideal) (c : Dev nD) (t : Fin cfg6.N) : (iblk6 V c 2 t : S1x32.Idx → EReal) = V c main_v81 :=
  funext fun y => congrArg (V c main_v81) (emb6_2 t y)
theorem iblk6_3_eq (V : Entry Ideal) (c : Dev nD) (t : Fin cfg6.N) : (iblk6 V c 3 t : S32x1.Idx → EReal) = V c main_arg16 :=
  funext fun y => congrArg (V c main_arg16) (emb6_3 t y)
theorem iblk6_4_eq (V : Entry Ideal) (c : Dev nD) (t : Fin cfg6.N) : (iblk6 V c 4 t : S1x1.Idx → EReal) = V c main_v82 :=
  funext fun y => congrArg (V c main_v82) (emb6_4 t y)

theorem flushed6_eq (V : Entry Ideal) (c : Dev nD) (t : Fin cfg6.N) :
    (dat6 V c).flushed 5 t = ((cfg6.win 5).blk t).view.read (Elt Ideal) (G6 V c) := by
  show (cfg6.win 5).cut (grid6.coords t) (out6_5 (iblk6 V c 0 t) (iblk6 V c 1 t) (iblk6 V c 2 t) (iblk6 V c 3 t) (iblk6 V c 4 t)) = _
  unfold out6_5
  rw [View.canon_unit_zero hz6]
  simp only [View.ld_unit_zero (S := S512x64) hz6, View.ld_unit_zero (S := S64x32) hz6, View.ld_unit_zero (S := S1x32) hz6,
    View.ld_unit_zero (S := S32x1) hz6, View.ld_unit_zero (S := S1x1) hz6]
  refine funext fun (j : S512x1.Idx) => ?_
  show k6_pay1 (F := Ideal) (iblk6 V c 0 t) (iblk6 V c 1 t) (iblk6 V c 2 t) (iblk6 V c 3 t) (iblk6 V c 4 t) j
    = G6 V c (((cfg6.win 5).blk t).view.emb j)
  rw [emb6_5]
  obtain ⟨p, q, rfl⟩ : ∃ (p : Fin 512) (q : Fin 1), j = ix2 p q := ⟨j 0, j 1, eq_ix2 j⟩
  obtain rfl : q = 0 := Subsingleton.elim _ _
  rw [pay6_apply, iblk6_0_eq, iblk6_1_eq, iblk6_2_eq, iblk6_3_eq, iblk6_4_eq]
  rfl

theorem cover6 (i : S512x1.Idx) : ∃ t : Fin cfg6.N, (cfg6.win 5).flush t = true ∧ i ∈ ((cfg6.win 5).blk t).view.set := by
  refine ⟨t6_0, flush6_5 t6_0, ?_⟩
  show i ∈ ((View.whole main_v83).slice (win6_5.rect t6_0)).set
  rw [View.set_slice_whole, Rect.mem_set_unit]
  obtain ⟨-, -, -, -, -, -, -, -, -, -, e0, e1⟩ := idx_facts6 t6_0
  intro a
  match a with
  | ⟨0, _⟩ => show win6_5.index t6_0 (0 : Fin 2) * 512 ≤ (i 0).val ∧ (i 0).val < win6_5.index t6_0 (0 : Fin 2) * 512 + 512; have hi : (i 0).val < 512 := (i 0).isLt; omega
  | ⟨1, _⟩ => show win6_5.index t6_0 (1 : Fin 2) * 1 ≤ (i 1).val ∧ (i 1).val < win6_5.index t6_0 (1 : Fin 2) * 1 + 1; have hi : (i 1).val < 1 := (i 1).isLt; omega

theorem arr6_eq (V : Entry Ideal) (c : Dev nD) : (dat6 V c).arrAt 5 cfg6.N = G6 V c :=
  (dat6 V c).arrAt_eq_of_cover 5 (G6 V c) (fun t _ => flushed6_eq V c t) cover6

theorem out6_apply (V : Entry Ideal) (c : Dev nD) (g : Fin 512) :
    (dat6 V c).arrAt 5 cfg6.N (ix2 g (0 : Fin 1)) = Cert.Spec.classifier (V c main_v80) (V c main_arg14) (V c main_v81) (V c main_arg16) (V c main_v82) g := by
  rw [arr6_eq]; rfl

end Cert.KernelIdeal.HandVal

end
-- ==== Proof.KI.KVal.lean ====
import proofs.«416092_j83932250898780_3_alg».proof.Proof.KI.Fold
import proofs.«416092_j83932250898780_3_alg».proof.Proof.KI.KVal1
import proofs.«416092_j83932250898780_3_alg».proof.Proof.KI.Val2
import proofs.«416092_j83932250898780_3_alg».proof.Proof.KI.Val3
import proofs.«416092_j83932250898780_3_alg».proof.Proof.KI.Val4
import proofs.«416092_j83932250898780_3_alg».proof.Proof.KI.Val5
import proofs.«416092_j83932250898780_3_alg».proof.Proof.KI.Val6
import Idealize.ShloMosaic.Lib.KernelVsHost

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ)

namespace Layers

open K1

variable (src tgt : (⟨S1700000, .i32⟩ : BufTy).Contents (Elt Ideal)) (x : (⟨S100000x64, .bf16⟩ : BufTy).Contents (Elt Ideal))

def segOps : (⟨S100000x64, .f32⟩ : BufTy).Contents (Elt Ideal) :=
  Host.scatterAdd scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 tgt)
    (extf .f32 (Host.gather gather_S100000x64_S1700000x1_S1700000x64_1_0_n_n_0_1_164 x
      (broadcastInDim S1700000x1 ![0] bcast_S1700000_S1700000x1_0
        (select (cmpi .slt src (broadcastInDim S1700000 ![] bcast_S_S1700000 (constantI S_ 32 0#32)))
          (addi src (broadcastInDim S1700000 ![] bcast_S_S1700000 (constantI S_ 32 100000#32))) src))) bitsLt_bf16_f32)

theorem wrapped_apply (k : Fin 1700000) :
    select (cmpi .slt src (broadcastInDim S1700000 ![] bcast_S_S1700000 (constantI S_ 32 0#32)))
      (addi src (broadcastInDim S1700000 ![] bcast_S_S1700000 (constantI S_ 32 100000#32))) src (ix1 k)
      = Cert.Canon.wrap (src (ix1 k)) := by
  show Scalar.select (IntOp.cmpi .slt (src (ix1 k)) (broadcastInDim S1700000 ![] bcast_S_S1700000 (constantI S_ 32 0#32) (ix1 k)))
      (IntOp.addi (src (ix1 k)) (broadcastInDim S1700000 ![] bcast_S_S1700000 (constantI S_ 32 100000#32) (ix1 k))) (src (ix1 k)) = _
  rw [broadcastInDim_scalar_apply, broadcastInDim_scalar_apply]
  show (if BitVec.ofBool ((src (ix1 k)).slt 0#32) = 1#1 then src (ix1 k) + 100000#32 else src (ix1 k)) = _
  unfold Cert.Canon.wrap
  exact if_congr (StableHlo.Predicate.ofBool_eq_one_iff _) rfl rfl

theorem segOps_apply (v : Fin 100000) (f : Fin 64) :
    segOps src tgt x (ix2 v f)
      = 0 + ∑ k : Fin 1700000, if (tgt (ix1 k)).toInt = (v.val : Int)
          then x (ix2 (Cert.Canon.clampRow (Cert.Canon.wrap (src (ix1 k)))) f) else 0 := by
  unfold segOps
  rw [scatterAdd_ideal]
  refine (Cert.LibIndexed.scatterAdd_rows_apply scatter_S100000x64_S1700000x1_S1700000x64_1_0_0_1 rfl rfl rfl rfl _ _ _ v f).trans ?_
  refine congrArg₂ (· + ·) (zeros_apply bcast_S_S100000x64 _) (Finset.sum_congr rfl fun k _ => ?_)
  rw [column_apply, extf_apply, Cert.LibGather.gather_rows_apply _ rfl rfl rfl rfl rfl rfl x _ k f (by decide)]
  show (if _ then x (ix2 (Cert.Canon.clampRow _) f) else 0) = _
  rw [column_apply, wrapped_apply]

theorem uncol_cast_apply {α : Type} {n : Nat} (x : (⟨2, ![n, 1]⟩ : Shape).Idx → α) (h : (⟨2, ![n, 1]⟩ : Shape).ShapeCasts ⟨1, ![n]⟩)
    (r : Fin n) : shapeCast ⟨1, ![n]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

open Cert.Spec Cert.Canon in
theorem first_read (a : Cert.Arr.Args) (Hh : Mat 100000 64) (W : Mat 64 64) (D : Mat 100000 1)
    (hH : ∀ (r : Fin 100000) (k : Fin 64), Hh (ix2 r k) = Cert.Arr.h a r k)
    (hW : W = a.W1) (hD : ∀ r : Fin 100000, D (ix2 r (0 : Fin 1)) = Cert.Arr.d a r) (r : Fin 100000) (f : Fin 64) :
    gcnFirst Hh W D r f = Cert.Arr.wh1 a r f := by
  unfold gcnFirst dot Cert.Arr.wh1 Cert.Chain.dotr Cert.Arr.wt
  rw [hD r, hW]
  refine congrArg (fun s : EReal => s * Cert.Arr.d a r) (Finset.sum_congr rfl fun k _ => ?_)
  rw [hH r k]

open Cert.Spec Cert.Canon in
theorem fused_read (a : Cert.Arr.Args) (ag : Fin 100000 → Fin 64 → EReal) (b : Vec1 64) (W : Mat 64 64)
    (A : Mat 100000 64) (W' : Mat 64 64) (D : Mat 100000 1) (B : Mat 1 64)
    (hA : ∀ (r : Fin 100000) (k : Fin 64), A (ix2 r k) = ag r k) (hW : W' = W)
    (hD : ∀ r : Fin 100000, D (ix2 r (0 : Fin 1)) = Cert.Arr.d a r)
    (hB : ∀ k : Fin 64, B (ix2 (0 : Fin 1) k) = b (ix1 k)) (r : Fin 100000) (f : Fin 64) :
    gcnFused A W' D B r f = Cert.Arr.whNext a ag b W r f := by
  unfold gcnFused act Cert.Arr.whNext Cert.Chain.dotr Cert.Arr.wt Cert.Arr.bs
  rw [hD r, hW]
  refine congrArg (fun s : EReal => s * Cert.Arr.d a r) (Finset.sum_congr rfl fun k _ => ?_)
  rw [hA r k, hB k]

open Cert.Spec Cert.Canon in
theorem pool_sum_read (a : Cert.Arr.Args) (A : Mat 100000 64) (D : Mat 100000 1) (S : IMat 100000 1)
    (hA : ∀ (i : Fin 100000) (f : Fin 64), A (ix2 i f) = Cert.Arr.agg3 a i f)
    (hD : ∀ i : Fin 100000, D (ix2 i (0 : Fin 1)) = Cert.Arr.d a i)
    (hS : ∀ i : Fin 100000, S (ix2 i (0 : Fin 1)) = a.bt (ix1 i)) (g : Fin 512) (f : Fin 64) :
    poolSum A D S g f = Cert.Arr.sumsK a g f := by
  unfold poolSum Cert.Arr.sumsK
  refine Finset.sum_congr rfl fun i _ => ?_
  rw [hA i f, hD i, hS i]
  exact if_congr Iff.rfl rfl rfl

open Cert.Spec Cert.Canon in
theorem pool_cnt_read (a : Cert.Arr.Args) (S : IMat 100000 1)
    (hS : ∀ i : Fin 100000, S (ix2 i (0 : Fin 1)) = a.bt (ix1 i)) (g : Fin 512) :
    poolCnt S g = Cert.Arr.cntK a g := by
  unfold poolCnt Cert.Arr.cntK
  refine Finset.sum_congr rfl fun i _ => ?_
  rw [hS i]
  exact if_congr Iff.rfl rfl rfl

open Cert.Spec Cert.Canon in
theorem cls_read (a : Cert.Arr.Args) (gp : Fin 512 → Fin 64 → EReal) (G : Mat 512 64) (W1 : Mat 64 32) (B1 : Mat 1 32)
    (W2 : Mat 32 1) (B2 : Mat 1 1)
    (hG : ∀ (g : Fin 512) (k : Fin 64), G (ix2 g k) = gp g k) (hW1 : W1 = a.Wc1)
    (hB1 : ∀ q : Fin 32, B1 (ix2 (0 : Fin 1) q) = a.bc1 (ix1 q)) (hW2 : W2 = a.Wc2)
    (hB2 : B2 (ix2 (0 : Fin 1) (0 : Fin 1)) = a.bc2 (ix1 (0 : Fin 1))) (g : Fin 512) :
    classifier G W1 B1 W2 B2 g = Cert.Arr.cls a gp g := by
  unfold classifier dot Cert.Arr.cls
  rw [hB2, hW1, hW2]
  refine congrArg (fun s : EReal => s + a.bc2 (ix1 (0 : Fin 1))) (Finset.sum_congr rfl fun q _ => ?_)
  rw [hB1 q]
  refine congrArg (fun s : EReal => max (s + a.bc1 (ix1 q)) 0 * a.Wc2 (ix2 q (0 : Fin 1))) (Finset.sum_congr rfl fun k _ => ?_)
  rw [hG g k]

def poolOps (sums : (⟨S512x64, .f32⟩ : BufTy).Contents (Elt Ideal)) (cnt : (⟨S512x1, .f32⟩ : BufTy).Contents (Elt Ideal))
    (b : (⟨S64, .f32⟩ : BufTy).Contents (Elt Ideal)) : (⟨S512x64, .f32⟩ : BufTy).Contents (Elt Ideal) :=
  addf
    (Host.divf sums (broadcastInDim S512x64 ![0, 1] bcast_S512x1_S512x64_0_1
      (maximumf cnt (broadcastInDim S512x1 ![] bcast_S_S512x1 (constant (F := Ideal) S_ .f32 0x3F800000#32)))))
    (mulf (broadcastInDim S512x64 ![0, 1] bcast_S1x64_S512x64_0_1 (shapeCast S1x64 b shapeCasts_S64_S1x64))
      (broadcastInDim S512x64 ![0, 1] bcast_S512x1_S512x64_0_1
        (uitofp .f32 (cmpf .ogt cnt (broadcastInDim S512x1 ![] bcast_S_S512x1 (constant (F := Ideal) S_ .f32 0x00000000#32))))))

theorem col_along_apply {α : Type} (x : S512x1.Idx → α) (g : Fin 512) (f : Fin 64) :
    broadcastInDim S512x64 ![0, 1] bcast_S512x1_S512x64_0_1 x (ix2 g f) = x (ix2 g (0 : Fin 1)) :=
  broadcastInDim_apply _ bcast_S512x1_S512x64_0_1 x (ix2 g f) (ix2 g (0 : Fin 1)) (fun a => match a with
    | ⟨0, _⟩ => by show g.val = if (512 : Nat) = 1 then 0 else g.val; rw [if_neg (by decide)]
    | ⟨1, _⟩ => by show (0 : Nat) = if (1 : Nat) = 1 then 0 else f.val; rw [if_pos rfl])

theorem positive_mask (x : EReal) :
    (FloatOps.uitofp (F := Ideal) .f32 (FloatOps.cmpf (F := Ideal) (φ := .f32) .ogt x 0) : EReal) = if (0 : EReal) < x then 1 else 0 := by
  show (((BitVec.ofBool (decide ((0 : EReal) < x))).toNat : ℝ) : EReal) = _
  by_cases h : (0 : EReal) < x
  · rw [if_pos h, decide_eq_true h]; show (((1 : Nat) : ℝ) : EReal) = 1; norm_num
  · rw [if_neg h, decide_eq_false h]; show (((0 : Nat) : ℝ) : EReal) = 0; norm_num

theorem poolOps_apply (sums : (⟨S512x64, .f32⟩ : BufTy).Contents (Elt Ideal)) (cnt : (⟨S512x1, .f32⟩ : BufTy).Contents (Elt Ideal))
    (b : (⟨S64, .f32⟩ : BufTy).Contents (Elt Ideal)) (g : Fin 512) (f : Fin 64) :
    poolOps sums cnt b (ix2 g f)
      = Ideal.div (sums (ix2 g f)) (max (cnt (ix2 g (0 : Fin 1))) 1)
        + b (ix1 f) * (if (0 : EReal) < cnt (ix2 g (0 : Fin 1)) then 1 else 0) := by
  unfold poolOps
  rw [addf_apply, hostDivf_apply, mulf_apply, col_along_apply, col_along_apply, broadcastInDim_oneRow_apply, shapeCast_a_1a_apply, maximumf_apply,
    ones_apply]
  refine congrArg (fun s : EReal => Ideal.div (sums (ix2 g f)) (max (cnt (ix2 g (0 : Fin 1))) 1) + b (ix1 f) * s) ?_
  show (FloatOps.uitofp (F := Ideal) .f32 (FloatOps.cmpf (F := Ideal) (φ := .f32) .ogt (cnt (ix2 g (0 : Fin 1)))
    (broadcastInDim S512x1 ![] bcast_S_S512x1 (constant (F := Ideal) S_ .f32 0x00000000#32) (ix2 g (0 : Fin 1)))) : EReal) = _
  rw [zeros_apply]
  exact positive_mask _

abbrev Early (r : Ref sig .tc) : Prop :=
  r ∉ hostOps0_W ∧ r ∉ ([main_v1] : List (Ref sig .tc)) ∧ r ∉ hostOps1_W ∧ r ∉ ([main_v3] : List (Ref sig .tc))
    ∧ r ∉ hostOps2_W ∧ r ∉ hostOps2_1_W ∧ r ∉ hostOps2_2_W
theorem early (c : Dev nD) (r : Ref sig .tc) (h : Early r) : W7 m c r = m ((c : Thread nD τ).loc r) :=
  (W7_of m c r h.2.2.2.2.2.2).trans <| (W6_of m c r h.2.2.2.2.2.1).trans <| (W5_of m c r h.2.2.2.2.1).trans <|
    (W4_of m c r h.2.2.2.1).trans <| (W3_of m c r h.2.2.1).trans <| (W2_of m c r h.2.1).trans (W1_of m c r h.1)

abbrev Late (r : Ref sig .tc) : Prop :=
  r ∉ ([main_v29] : List (Ref sig .tc)) ∧ r ∉ hostOps3_W ∧ r ∉ ([main_v42] : List (Ref sig .tc)) ∧ r ∉ hostOps4_W
    ∧ r ∉ ([main_v55] : List (Ref sig .tc)) ∧ r ∉ hostOps5_W ∧ r ∉ ([main_v68_0, main_v68_1] : List (Ref sig .tc)) ∧ r ∉ hostOps6_W

section
variable (c : Dev nD) (r : Ref sig .tc)
theorem late8 (h : Late r) : W8 m c r = W7 m c r := W8_of m c r h.1
theorem late9 (h : Late r) : W9 m c r = W7 m c r := (W9_of m c r h.2.1).trans (late8 m c r h)
theorem late10 (h : Late r) : W10 m c r = W7 m c r := (W10_of m c r h.2.2.1).trans (late9 m c r h)
theorem late11 (h : Late r) : W11 m c r = W7 m c r := (W11_of m c r h.2.2.2.1).trans (late10 m c r h)
theorem late12 (h : Late r) : W12 m c r = W7 m c r := (W12_of m c r h.2.2.2.2.1).trans (late11 m c r h)
theorem late13 (h : Late r) : W13 m c r = W7 m c r := (W13_of m c r h.2.2.2.2.2.1).trans (late12 m c r h)
theorem late14 (h : Late r) : W14 m c r = W7 m c r := (W14_of m c r h.2.2.2.2.2.2.1).trans (late13 m c r h)
theorem late15 (h : Late r) : W15 m c r = W7 m c r := (W15_of m c r h.2.2.2.2.2.2.2).trans (late14 m c r h)
end

variable (c : Dev nD)

theorem seg_agg (wh : Fin 100000 → Fin 64 → EReal)
    (hx : ∀ (r : Fin 100000) (f : Fin 64), x (ix2 r f) = wh r f) (v : Fin 100000) (f : Fin 64) :
    segOps (W7 m c main_v14) (W7 m c main_v17) x (ix2 v f) = Cert.Arr.agg (kargs m c) wh v f := by
  rw [segOps_apply]
  unfold Cert.Arr.agg
  refine congrArg (fun s : EReal => 0 + s) (Finset.sum_congr rfl fun k _ => ?_)
  rw [k_rowRaw, k_colRaw, hx]
  exact if_congr Iff.rfl rfl rfl

theorem W9_v40 :
    W9 m c main_v40 = segOps (W8 m c main_v14) (W8 m c main_v17) (W8 m c main_v29) := by
  after_results_simp
  rfl
theorem W9_v41 :
    W9 m c main_v41 = shapeCast S1x64 (W8 m c main_arg9) shapeCasts_S64_S1x64 := by
  after_results_simp
  rfl
theorem W11_v53 :
    W11 m c main_v53 = segOps (W10 m c main_v14) (W10 m c main_v17) (W10 m c main_v42) := by
  after_results_simp
  rfl
theorem W11_v54 :
    W11 m c main_v54 = shapeCast S1x64 (W10 m c main_arg11) shapeCasts_S64_S1x64 := by
  after_results_simp
  rfl
theorem W13_v66 :
    W13 m c main_v66 = segOps (W12 m c main_v14) (W12 m c main_v17) (W12 m c main_v55) := by
  after_results_simp
  rfl
theorem W13_v67 :
    W13 m c main_v67 = shapeCast S100000x1 (W12 m c main_arg3) shapeCasts_S100000_S100000x1 := by
  after_results_simp
  rfl
theorem W15_v80 :
    W15 m c main_v80 = poolOps (W14 m c main_v68_0) (W14 m c main_v68_1) (W14 m c main_arg13) := by
  after_results_simp
  rfl
theorem W15_v81 :
    W15 m c main_v81 = shapeCast S1x32 (W14 m c main_arg15) shapeCasts_S32_S1x32 := by
  after_results_simp
  rfl
theorem W15_v82 :
    W15 m c main_v82 = shapeCast S1x1 (W14 m c main_arg17) shapeCasts_S1_S1x1 := by
  after_results_simp
  rfl
theorem W17_v84 :
    W17 m c main_v84 = shapeCast S512 (W16 m c main_v83) shapeCasts_S512x1_S512 := by
  after_results_simp
  rfl

theorem d_of {V : Valuation τ sig (Elt Ideal)} (hV : V main_v28 = W7 m c main_v28) (r : Fin 100000) :
    (V main_v28 : S100000x1.Idx → EReal) (ix2 r (0 : Fin 1)) = Cert.Arr.d (kargs m c) r := by
  rw [hV]; exact k_dinv m c r
theorem s13 (i : Fin 100000) :
    (W13 m c main_v67 : S100000x1.Idx → BitVec 32) (ix2 i (0 : Fin 1)) = (kargs m c).bt (ix1 i) := by
  rw [W13_v67, col_cast_apply, late12 m c main_arg3 (by decide), early m c main_arg3 (by decide)]; rfl

end Layers

open Layers K1

variable (c : Dev nD)

theorem k_wh1 (r : Fin 100000) (f : Fin 64) :
    (W8 m c main_v29 : S100000x64.Idx → EReal) (ix2 r f) = Cert.Arr.wh1 (kargs m c) r f := by
  rw [W8_out, out2_apply]
  exact first_read (kargs m c) _ _ _ (k_feat m c) (early m c main_arg8 (by decide)) (k_dinv m c) r f

theorem k_agg1 (v : Fin 100000) (f : Fin 64) :
    (W9 m c main_v40 : S100000x64.Idx → EReal) (ix2 v f) = Cert.Arr.agg1 (kargs m c) v f := by
  rw [W9_v40, late8 m c main_v14 (by decide), late8 m c main_v17 (by decide)]
  exact seg_agg m _ c _ (k_wh1 m c) v f

theorem k_wh2 (r : Fin 100000) (f : Fin 64) :
    (W10 m c main_v42 : S100000x64.Idx → EReal) (ix2 r f) = Cert.Arr.wh2 (kargs m c) r f := by
  rw [W10_out, out3_apply]
  refine fused_read (kargs m c) (Cert.Arr.agg1 (kargs m c)) (kargs m c).b1 (kargs m c).W2 _ _ _ _ (k_agg1 m c)
    ((late9 m c main_arg10 (by decide)).trans (early m c main_arg10 (by decide))) (d_of m c (late9 m c main_v28 (by decide))) (fun k => ?_) r f
  · show (W9 m c main_v41 : S1x64.Idx → EReal) (ix2 (0 : Fin 1) k) = _
    rw [W9_v41, shapeCast_a_1a_apply, late8 m c main_arg9 (by decide), early m c main_arg9 (by decide)]; rfl

theorem k_agg2 (v : Fin 100000) (f : Fin 64) :
    (W11 m c main_v53 : S100000x64.Idx → EReal) (ix2 v f) = Cert.Arr.agg2 (kargs m c) v f := by
  rw [W11_v53, late10 m c main_v14 (by decide), late10 m c main_v17 (by decide)]
  exact seg_agg m _ c _ (k_wh2 m c) v f

theorem k_wh3 (r : Fin 100000) (f : Fin 64) :
    (W12 m c main_v55 : S100000x64.Idx → EReal) (ix2 r f) = Cert.Arr.wh3 (kargs m c) r f := by
  rw [W12_out, out4_apply]
  refine fused_read (kargs m c) (Cert.Arr.agg2 (kargs m c)) (kargs m c).b2 (kargs m c).W3 _ _ _ _ (k_agg2 m c)
    ((late11 m c main_arg12 (by decide)).trans (early m c main_arg12 (by decide))) (d_of m c (late11 m c main_v28 (by decide))) (fun k => ?_) r f
  · show (W11 m c main_v54 : S1x64.Idx → EReal) (ix2 (0 : Fin 1) k) = _
    rw [W11_v54, shapeCast_a_1a_apply, late10 m c main_arg11 (by decide), early m c main_arg11 (by decide)]; rfl

theorem k_agg3 (v : Fin 100000) (f : Fin 64) :
    (W13 m c main_v66 : S100000x64.Idx → EReal) (ix2 v f) = Cert.Arr.agg3 (kargs m c) v f := by
  rw [W13_v66, late12 m c main_v14 (by decide), late12 m c main_v17 (by decide)]
  exact seg_agg m _ c _ (k_wh3 m c) v f

theorem k_sums (g : Fin 512) (f : Fin 64) :
    (W14 m c main_v68_0 : S512x64.Idx → EReal) (ix2 g f) = Cert.Arr.sumsK (kargs m c) g f := by
  rw [W14_out0, out5_sum_apply]
  exact pool_sum_read (kargs m c) _ _ _ (k_agg3 m c) (d_of m c (late13 m c main_v28 (by decide))) (s13 m c) g f

theorem k_cnt (g : Fin 512) :
    (W14 m c main_v68_1 : S512x1.Idx → EReal) (ix2 g (0 : Fin 1)) = Cert.Arr.cntK (kargs m c) g := by
  rw [W14_out1, out5_cnt_apply]
  exact pool_cnt_read (kargs m c) _ (s13 m c) g

theorem k_g (g : Fin 512) (f : Fin 64) :
    (W15 m c main_v80 : S512x64.Idx → EReal) (ix2 g f) = Cert.Arr.gK (kargs m c) g f := by
  rw [W15_v80, poolOps_apply, k_sums, k_cnt, late14 m c main_arg13 (by decide), early m c main_arg13 (by decide)]
  rfl

theorem kernel_value (c : Dev nD) (g : Fin 512) :
    (W17 m c main_v84 : S512.Idx → EReal) (ix1 g) = Cert.Arr.outK (kargs m c) g := by
  rw [W17_v84, uncol_cast_apply, W16_out, out6_apply]
  refine cls_read (kargs m c) (Cert.Arr.gK (kargs m c)) _ _ _ _ _ (k_g m c)
    ((late15 m c main_arg14 (by decide)).trans (early m c main_arg14 (by decide))) (fun q => ?_)
    ((late15 m c main_arg16 (by decide)).trans (early m c main_arg16 (by decide))) ?_ g
  · show (W15 m c main_v81 : S1x32.Idx → EReal) (ix2 (0 : Fin 1) q) = _
    rw [W15_v81, shapeCast_a_1a_apply, late14 m c main_arg15 (by decide), early m c main_arg15 (by decide)]; rfl
  · show (W15 m c main_v82 : S1x1.Idx → EReal) (ix2 (0 : Fin 1) (0 : Fin 1)) = _
    rw [W15_v82, shapeCast_a_1a_apply, late14 m c main_arg17 (by decide), early m c main_arg17 (by decide)]; rfl

end Cert.KernelIdeal.HandVal

end
-- ==== Proof.RefVal1.lean ====
import proofs.«416092_j83932250898780_3_alg».proof.Proof.RefReadP
import proofs.«416092_j83932250898780_3_alg».proof.Proof.Arr
import proofs.«416092_j83932250898780_3_alg».proof.Proof.LibIndexed
import Idealize.ShloMosaic.Lib.IdealHost
import Idealize.ShloMosaic.Lib.SortFacts

noncomputable section

namespace Cert.ReferenceIdeal.RefValue

open Cert.ReferenceIdeal Cert.ReferenceIdeal.Gen Cert.ReferenceIdeal.ReadP
open Idealize.ShloMosaic Idealize.ShloMosaic.ValueIdx

def rargs (x0 : S100000x128.Idx → EReal) (x1 : S2x1600000.Idx → BitVec 32) (x2 : S1600000x32.Idx → EReal)
    (x3 : S100000.Idx → BitVec 32) (x4 : S128x64.Idx → EReal) (x5 : S64.Idx → EReal) (x6 : S32x64.Idx → EReal)
    (x7 : S64.Idx → EReal) (x8 : S64x64.Idx → EReal) (x9 : S64.Idx → EReal) (x10 : S64x64.Idx → EReal)
    (x11 : S64.Idx → EReal) (x12 : S64x64.Idx → EReal) (x13 : S64.Idx → EReal) (x14 : S64x32.Idx → EReal)
    (x15 : S32.Idx → EReal) (x16 : S32x1.Idx → EReal) (x17 : S1.Idx → EReal) : Cert.Arr.Args :=
  { x := x0, ei := x1, ea := x2, bt := x3, Wn := x4, bn := x5, We := x6, be := x7, W1 := x8, b1 := x9, W2 := x10,
    b2 := x11, W3 := x12, b3 := x13, Wc1 := x14, bc1 := x15, Wc2 := x16, bc2 := x17 }

theorem edge_row0 (x1 : S2x1600000.Idx → BitVec 32) (e : Fin 1600000) :
    val_main_v16 (F := Ideal) x1 (ix1 e) = x1 (ix2 (0 : Fin 2) e) := by
  rw [val_main_v16_apply, val_main_v15_apply]
  refine congrArg x1 (funext fun a => Fin.ext ?_)
  match a with
  | ⟨0, _⟩ => rfl
  | ⟨1, _⟩ => exact Nat.mod_eq_of_lt e.isLt

theorem edge_row1 (x1 : S2x1600000.Idx → BitVec 32) (e : Fin 1600000) :
    val_main_v19 (F := Ideal) x1 (ix1 e) = x1 (ix2 (1 : Fin 2) e) := by
  rw [val_main_v19_apply, val_main_v18_apply]
  refine congrArg x1 (funext fun a => Fin.ext ?_)
  match a with
  | ⟨0, _⟩ => rfl
  | ⟨1, _⟩ => exact Nat.mod_eq_of_lt e.isLt

theorem slots_apply (v : S1600000.Idx → BitVec 32) (k : Fin 1700000) :
    concatenate S1700000 0 [⟨S1600000, v⟩, ⟨S100000, val_main_v14 (F := Ideal)⟩] concatenates_S1600000_S100000_S1700000_d0 (ix1 k)
      = if h : k.val < 1600000 then v (ix1 (⟨k.val, h⟩ : Fin 1600000)) else BitVec.ofNat 32 (k.val - 1600000) := by
  have hk := k.isLt
  by_cases h : k.val < 1600000
  · rw [dif_pos h]
    exact concatenate_pair_apply_left (t := S1700000) (s₁ := S1600000) (s₂ := S100000) 0 v _ _ (ix1 k) rfl
      (ix1 (⟨k.val, h⟩ : Fin 1600000)) (fun b => by match b with | ⟨0, _⟩ => rfl)
  · rw [dif_neg h]
    exact concatenate_pair_apply_right (t := S1700000) (s₁ := S1600000) (s₂ := S100000) 0 v _ _ (ix1 k) rfl rfl
      (ix1 (⟨k.val - 1600000, by omega⟩ : Fin 100000))
      (fun b hb => absurd (Subsingleton.elim _ _) hb)
      (by show k.val - 1600000 + 1600000 = k.val; omega)

theorem r_rowRaw (x1 : S2x1600000.Idx → BitVec 32) (k : Fin 1700000) :
    val_main_v17 (F := Ideal) x1 (ix1 k) = Cert.Canon.rowRaw x1 k := by
  unfold val_main_v17 Cert.Canon.rowRaw
  rw [slots_apply]
  exact dite_congr rfl (fun h => edge_row0 x1 _) fun _ => rfl

theorem r_colRaw (x1 : S2x1600000.Idx → BitVec 32) (k : Fin 1700000) :
    val_main_v20 (F := Ideal) x1 (ix1 k) = Cert.Canon.colRaw x1 k := by
  unfold val_main_v20 Cert.Canon.colRaw
  rw [slots_apply]
  exact dite_congr rfl (fun h => edge_row1 x1 _) fun _ => rfl

theorem wrapcol_apply (w : S1700000.Idx → BitVec 32) (k : Fin 1700000) :
    broadcastInDim S1700000x1 ![0] bcast_S1700000_S1700000x1_0
        (select (cmpi .slt w (broadcastInDim S1700000 ![] bcast_S_S1700000 (constantI S_ 32 0#32)))
          (addi w (broadcastInDim S1700000 ![] bcast_S_S1700000 (constantI S_ 32 100000#32))) w) (ix2 k (0 : Fin 1))
      = Cert.Canon.wrap (w (ix1 k)) := by
  rw [broadcastInDim_apply _ bcast_S1700000_S1700000x1_0 _ (ix2 k (0 : Fin 1)) (ix1 k) (fun a => by
    match a with
    | ⟨0, _⟩ => show k.val = if (1700000 : Nat) = 1 then 0 else k.val; rw [if_neg (by decide)])]
  show Scalar.select (IntOp.cmpi .slt (w (ix1 k)) 0#32) (IntOp.addi (w (ix1 k)) 100000#32) (w (ix1 k)) = _
  unfold Cert.Canon.wrap Scalar.select IntOp.cmpi IntOp.addi
  by_cases h : (w (ix1 k)).slt 0#32 = true
  · rw [if_pos h, h]; rfl
  · rw [if_neg h, Bool.not_eq_true _ |>.mp h]; rfl

theorem r_src36 (x1 : S2x1600000.Idx → BitVec 32) (k : Fin 1700000) :
    val_main_v36 (F := Ideal) x1 (ix2 k (0 : Fin 1)) = Cert.Canon.wrap (Cert.Canon.rowRaw x1 k) := by
  rw [← r_rowRaw]; exact wrapcol_apply (val_main_v17 (F := Ideal) x1) k
theorem r_tgt43 (x1 : S2x1600000.Idx → BitVec 32) (k : Fin 1700000) :
    val_main_v43 (F := Ideal) x1 (ix2 k (0 : Fin 1)) = Cert.Canon.wrap (Cert.Canon.colRaw x1 k) := by
  rw [← r_colRaw]; exact wrapcol_apply (val_main_v20 (F := Ideal) x1) k

theorem lin_node (x0 : S100000x128.Idx → EReal) (x4 : S128x64.Idx → EReal) (x5 : S64.Idx → EReal) (r : Fin 100000) (f : Fin 64) :
    val_main_v3 (F := Ideal) x0 x4 x5 (ix2 r f) = Cert.Canon.lin1 x0 x4 x5 r f := by
  have el : ∀ k : Fin 128, lidx_main_v0 (ix2 r f) k = ix2 r k := fun k => eq_ix2 _
  have er : ∀ k : Fin 128, ridx_main_v0 (ix2 r f) k = ix2 k f := fun k => eq_ix2 _
  have eb : idx_main_v1 (idx_main_v2 (ix2 r f)) = ix1 f := eq_ix1 _
  rw [val_main_v3_apply, val_main_v0_apply, val_main_v2_apply, val_main_v1_apply]
  unfold Cert.Canon.lin1 Cert.Spec.dot
  simp only [el, er, eb, Ideal.addf_def]

theorem lin_edge (x2 : S1600000x32.Idx → EReal) (x6 : S32x64.Idx → EReal) (x7 : S64.Idx → EReal) (e : Fin 1600000) (f : Fin 64) :
    val_main_v7 (F := Ideal) x2 x6 x7 (ix2 e f) = Cert.Canon.lin1 x2 x6 x7 e f := by
  have el : ∀ k : Fin 32, lidx_main_v4 (ix2 e f) k = ix2 e k := fun k => eq_ix2 _
  have er : ∀ k : Fin 32, ridx_main_v4 (ix2 e f) k = ix2 k f := fun k => eq_ix2 _
  have eb : idx_main_v5 (idx_main_v6 (ix2 e f)) = ix1 f := eq_ix1 _
  rw [val_main_v7_apply, val_main_v4_apply, val_main_v6_apply, val_main_v5_apply]
  unfold Cert.Canon.lin1 Cert.Spec.dot
  simp only [el, er, eb, Ideal.addf_def]

theorem src_col (x1 : S2x1600000.Idx → BitVec 32) (e : Fin 1600000) :
    val_main_v11 (F := Ideal) x1 (ix2 e (0 : Fin 1)) = x1 (ix2 (0 : Fin 2) e) := by
  rw [val_main_v11_apply, val_main_v9_apply, val_main_v8_apply]
  refine congrArg x1 (funext fun a => Fin.ext ?_)
  match a with
  | ⟨0, _⟩ => rfl
  | ⟨1, _⟩ => exact Nat.mod_eq_of_lt e.isLt

theorem seg_rows_read (z : (⟨S100000x64, .f32⟩ : BufTy).Contents (Elt Ideal)) (idx : (⟨S1600000x1, .i32⟩ : BufTy).Contents (Elt Ideal))
    (u : (⟨S1600000x64, .f32⟩ : BufTy).Contents (Elt Ideal)) (r : Fin 100000) (f : Fin 64) :
    Host.scatterAdd (F := Ideal) (φ := .f32) scatter_S100000x64_S1600000x1_S1600000x64_1_0_0_1 z idx u (ix2 r f)
      = z (ix2 r f) + ∑ e : Fin 1600000, if (idx (ix2 e (0 : Fin 1))).toInt = (r.val : Int) then u (ix2 e f) else 0 := by
  exact Cert.LibIndexed.scatterAdd_rows_apply _ rfl rfl rfl rfl z idx u r f

theorem r_seg12 (x1 : S2x1600000.Idx → BitVec 32) (x2 : S1600000x32.Idx → EReal) (x6 : S32x64.Idx → EReal) (x7 : S64.Idx → EReal)
    (r : Fin 100000) (f : Fin 64) :
    val_main_v12 (F := Ideal) x1 x2 x6 x7 (ix2 r f)
      = 0 + ∑ e : Fin 1600000, if Cert.Canon.shit x1 e r then Cert.Canon.lin1 x2 x6 x7 e f else 0 := by
  have h := seg_rows_read (val_main_v10 (F := Ideal)) (val_main_v11 (F := Ideal) x1) (val_main_v7 (F := Ideal) x2 x6 x7) r f
  rw [val_main_v10_apply, val_main_cst_apply, Ideal.ofBits_def, Ideal.ofBits_zero_f32] at h
  refine h.trans (congrArg (fun s : EReal => 0 + s) (Finset.sum_congr rfl fun e _ => ?_))
  rw [src_col, lin_edge]
  exact if_congr Iff.rfl rfl rfl

theorem r_feat (x0 : S100000x128.Idx → EReal) (x1 : S2x1600000.Idx → BitVec 32) (x2 : S1600000x32.Idx → EReal)
    (x4 : S128x64.Idx → EReal) (x5 : S64.Idx → EReal) (x6 : S32x64.Idx → EReal) (x7 : S64.Idx → EReal)
    (r : Fin 100000) (f : Fin 64) :
    val_main_v13 (F := Ideal) x0 x1 x2 x4 x5 x6 x7 (ix2 r f) = Cert.Canon.feat x1 x0 x2 x4 x5 x6 x7 r f := by
  unfold Cert.Canon.feat
  rw [val_main_v13_apply, lin_node, r_seg12, Ideal.addf_def]

end Cert.ReferenceIdeal.RefValue

end
-- ==== Proof.RefDinv.lean ====
import proofs.«416092_j83932250898780_3_alg».proof.Proof.RefVal1

noncomputable section

namespace Cert.ReferenceIdeal.RefValue

open Cert.ReferenceIdeal Cert.ReferenceIdeal.Gen Cert.ReferenceIdeal.ReadP
open Idealize.ShloMosaic Idealize.ShloMosaic.ValueIdx

theorem tgt_col (x1 : S2x1600000.Idx → BitVec 32) (k : Fin 1700000) :
    val_main_v23 (F := Ideal) x1 (ix2 k (0 : Fin 1)) = Cert.Canon.colRaw x1 k := by
  rw [val_main_v23_apply, ← r_colRaw]
  exact congrArg (val_main_v20 (F := Ideal) x1) (eq_ix1 _)

theorem seg_vec_read (z : (⟨S100000, .f32⟩ : BufTy).Contents (Elt Ideal)) (idx : (⟨S1700000x1, .i32⟩ : BufTy).Contents (Elt Ideal))
    (u : (⟨S1700000, .f32⟩ : BufTy).Contents (Elt Ideal)) (r : Fin 100000) :
    Host.scatterAdd (F := Ideal) (φ := .f32) scatter_S100000_S1700000x1_S1700000_n_0_0_1 z idx u (ix1 r)
      = z (ix1 r) + ∑ k : Fin 1700000, if (idx (ix2 k (0 : Fin 1))).toInt = (r.val : Int) then u (ix1 k) else 0 := by
  exact Cert.LibIndexed.scatterAdd_vec_apply _ rfl rfl rfl rfl z idx u r

theorem r_deg (x1 : S2x1600000.Idx → BitVec 32) (r : Fin 100000) :
    val_main_v24 (F := Ideal) x1 (ix1 r) = Cert.Canon.deg x1 r := by
  have h := seg_vec_read (val_main_v22 (F := Ideal)) (val_main_v23 (F := Ideal) x1) (val_main_v21 (F := Ideal)) r
  rw [val_main_v22_apply, val_main_cst_1_apply, Ideal.ofBits_def, Ideal.ofBits_zero_f32] at h
  unfold Cert.Canon.deg
  refine h.trans (congrArg (fun s : EReal => 0 + s) (Finset.sum_congr rfl fun k _ => ?_))
  rw [tgt_col, val_main_v21_apply, val_main_cst_0_apply, Ideal.ofBits_def, Ideal.ofBits_one_f32]
  exact if_congr Iff.rfl rfl rfl

theorem r_dinv (x1 : S2x1600000.Idx → BitVec 32) (r : Fin 100000) :
    val_main_v30 (F := Ideal) x1 (ix1 r) = Cert.Canon.dinv x1 r := by
  rw [val_main_v30_apply, val_main_v26_apply, val_main_v29_apply, val_main_v28_apply, r_deg, val_main_v25_apply,
    val_main_cst_2_apply, val_main_v27_apply, val_main_cst_3_apply, val_main_call0_v1_apply, val_main_call0_v0_apply,
    val_main_cst_4_apply]
  simp only [Ideal.ofBits_def, Ideal.ofBits_zero_f32, Ideal.ofBits_one_f32, Ideal.maximumf_def, Ideal.hostUnary_rsqrt_def,
    Ideal.cmpf_def]
  unfold Cert.Canon.dinv Ideal.cmp Scalar.select
  by_cases h : 0 < Cert.Canon.deg x1 r
  · rw [if_pos h, if_pos (by simp [h])]
  · rw [if_neg h, if_neg (by simp [h])]

end Cert.ReferenceIdeal.RefValue

end
-- ==== Proof.RefNorm.lean ====
import proofs.«416092_j83932250898780_3_alg».proof.Proof.RefDinv
import Idealize.ShloMosaic.Lib.StableHlo.Predicate

noncomputable section

namespace Cert.ReferenceIdeal.RefValue

open Cert.ReferenceIdeal Cert.ReferenceIdeal.Gen Cert.ReferenceIdeal.ReadP Idealize.ShloMosaic Idealize.ShloMosaic.ValueIdx Cert.Spec Cert.Canon

theorem norm_gather_read (y : S100000.Idx → EReal) (idx : S1700000x1.Idx → BitVec 32) (k : Fin 1700000) (w : BitVec 32)
    (hidx : idx (ix2 k (0 : Fin 1)) = w) :
    Host.gather gather_S100000_S1700000x1_S1700000_n_0_n_n_0_1_1 y idx (ix1 k) = y (ix1 (clampRow w)) := by
  have e : ∀ {n : Nat} (a : Fin n), (ix1 a : (⟨1, ![n]⟩ : Shape).Idx) = Shape.Idx.ofFin a := fun a => funext fun d => by match d with | ⟨0, _⟩ => rfl
  have e2 : StableHlo.Predicate.ixP k = ix2 k (0 : Fin 1) := eq_ix2 _
  rw [e k, StableHlo.Predicate.gather_take gather_S100000_S1700000x1_S1700000_n_0_n_n_0_1_1 rfl rfl rfl rfl y idx k (by decide), ← e]
  refine congrArg (fun i : Fin 100000 => y (ix1 i)) (Fin.ext ?_)
  show min (idx (StableHlo.Predicate.ixP k)).toInt.toNat (100000 - 1) = min w.toInt.toNat (100000 - 1)
  rw [e2, hidx]

theorem r_norm (x1 : S2x1600000.Idx → BitVec 32) (k : Fin 1700000) :
    val_main_v45 (F := Ideal) x1 (ix1 k) = Cert.Canon.dinv x1 (Cert.Canon.P x1 k) * Cert.Canon.dinv x1 (Cert.Canon.Q x1 k) := by
  have hP := norm_gather_read (val_main_v30 (F := Ideal) x1) (val_main_v36 (F := Ideal) x1) k _ (r_src36 x1 k)
  have hQ := norm_gather_read (val_main_v30 (F := Ideal) x1) (val_main_v43 (F := Ideal) x1) k _ (r_tgt43 x1 k)
  rw [r_dinv] at hP hQ
  rw [val_main_v45_apply, Ideal.mulf_def]
  unfold val_main_v37 val_main_v44 Cert.Canon.P Cert.Canon.Q
  rw [hP, hQ]

end Cert.ReferenceIdeal.RefValue

end
-- ==== Proof.RefVal.lean ====
import proofs.«416092_j83932250898780_3_alg».proof.Proof.RefNorm

noncomputable section

namespace Cert.ReferenceIdeal.RefValue

open Cert.ReferenceIdeal Cert.ReferenceIdeal.Gen Cert.ReferenceIdeal.ReadP Idealize.ShloMosaic Idealize.ShloMosaic.ValueIdx Cert.Spec Cert.Canon Cert.Chain

theorem conv_layer_read (a : Cert.Arr.Args)
    (p : (⟨S100000x64, .f32⟩ : BufTy).Contents (Elt Ideal)) (src : (⟨S1700000x1, .i32⟩ : BufTy).Contents (Elt Ideal))
    (nrm : (⟨S1700000x64, .f32⟩ : BufTy).Contents (Elt Ideal)) (z : (⟨S100000x64, .f32⟩ : BufTy).Contents (Elt Ideal))
    (tgt : (⟨S1700000x1, .i32⟩ : BufTy).Contents (Elt Ideal)) (bb : (⟨S100000x64, .f32⟩ : BufTy).Contents (Elt Ideal))
    (inp : Fin 100000 → Fin 64 → EReal) (W : Mat 64 64) (b : Vec1 64)
    (hp : ∀ (r : Fin 100000) (f : Fin 64), p (ix2 r f) = dotr inp (Cert.Arr.wt W) r f)
    (hsrc : ∀ k : Fin 1700000, src (ix2 k (0 : Fin 1)) = wrap (rowRaw a.ei k))
    (hnrm : ∀ (k : Fin 1700000) (f : Fin 64), nrm (ix2 k f) = dinv a.ei (P a.ei k) * dinv a.ei (Q a.ei k))
    (hz : ∀ (r : Fin 100000) (f : Fin 64), z (ix2 r f) = 0)
    (htgt : ∀ k : Fin 1700000, tgt (ix2 k (0 : Fin 1)) = colRaw a.ei k)
    (hbb : ∀ (r : Fin 100000) (f : Fin 64), bb (ix2 r f) = b (ix1 f))
    (v : Fin 100000) (f : Fin 64) :
    addf (F := Ideal) (φ := .f32) (Host.scatterAdd scatter_S100000x64_S1700000x1_S1700000x64_1_0_0_1 z tgt
      (mulf (F := Ideal) (φ := .f32) (Host.gather gather_S100000x64_S1700000x1_S1700000x64_1_0_n_n_0_1_164 p src) nrm)) bb (ix2 v f)
      = Cert.Arr.conv a inp W b v f := by
  show Ideal.hostScatterAdd scatter_S100000x64_S1700000x1_S1700000x64_1_0_0_1 z tgt
      (mulf (F := Ideal) (φ := .f32) (Host.gather gather_S100000x64_S1700000x1_S1700000x64_1_0_n_n_0_1_164 p src) nrm) (ix2 v f) + bb (ix2 v f) = _
  rw [Cert.LibIndexed.scatterAdd_rows_apply _ rfl rfl rfl rfl, hz, hbb]
  unfold Cert.Arr.conv Cert.Arr.bs
  refine congrArg (fun s : EReal => 0 + s + b (ix1 f)) (Finset.sum_congr rfl fun k _ => ?_)
  rw [htgt k]
  have hX : mulf (F := Ideal) (φ := .f32) (Host.gather gather_S100000x64_S1700000x1_S1700000x64_1_0_n_n_0_1_164 p src) nrm (ix2 k f)
      = dotr inp (Cert.Arr.wt W) (P a.ei k) f * (Cert.Arr.d a (P a.ei k) * Cert.Arr.d a (Q a.ei k)) := by
    show Host.gather gather_S100000x64_S1700000x1_S1700000x64_1_0_n_n_0_1_164 p src (ix2 k f) * nrm (ix2 k f) = _
    rw [Cert.LibGather.gather_rows_apply _ rfl rfl rfl rfl rfl rfl p src k f (by decide), hnrm k f]
    have hrow : (⟨min (src (ix2 k (0 : Fin 1))).toInt.toNat (100000 - 1), by omega⟩ : Fin 100000) = P a.ei k := by
      apply Fin.ext
      show min (src (ix2 k (0 : Fin 1))).toInt.toNat (100000 - 1) = min (wrap (rowRaw a.ei k)).toInt.toNat (100000 - 1)
      rw [hsrc k]
    rw [hrow, hp]
    rfl
  exact if_congr Iff.rfl hX rfl

theorem pool_read (a : Cert.Arr.Args)
    (c : (⟨S100000x64, .f32⟩ : BufTy).Contents (Elt Ideal)) (z : (⟨S512x64, .f32⟩ : BufTy).Contents (Elt Ideal))
    (sid : (⟨S100000x1, .i32⟩ : BufTy).Contents (Elt Ideal)) (den : (⟨S512x64, .f32⟩ : BufTy).Contents (Elt Ideal))
    (hc : ∀ (i : Fin 100000) (f : Fin 64), c (ix2 i f) = Cert.Arr.c3 a i f)
    (hz : ∀ (g : Fin 512) (f : Fin 64), z (ix2 g f) = 0)
    (hsid : ∀ i : Fin 100000, sid (ix2 i (0 : Fin 1)) = a.bt (ix1 i))
    (hden : ∀ (g : Fin 512) (f : Fin 64), den (ix2 g f) = max (Cert.Arr.rcR a g) 1)
    (g : Fin 512) (f : Fin 64) :
    Host.divf (F := Ideal) (φ := .f32) (Host.scatterAdd scatter_S512x64_S100000x1_S100000x64_1_0_0_1 z sid c) den (ix2 g f)
      = Cert.Arr.gR a g f := by
  show Ideal.div (Ideal.hostScatterAdd scatter_S512x64_S100000x1_S100000x64_1_0_0_1 z sid c (ix2 g f)) (den (ix2 g f)) = _
  rw [Cert.LibIndexed.scatterAdd_rows_apply _ rfl rfl rfl rfl, hz, hden]
  unfold Cert.Arr.gR Cert.Arr.rsR
  refine congrArg (fun s : EReal => Ideal.div (0 + s) (max (Cert.Arr.rcR a g) 1)) (Finset.sum_congr rfl fun i _ => ?_)
  rw [hsid i, hc i f]
  exact if_congr Iff.rfl rfl rfl

theorem conv_bias_read (b : (⟨S64, .f32⟩ : BufTy).Contents (Elt Ideal)) (r : Fin 100000) (f : Fin 64) : val_main_v61 (F := Ideal) b (ix2 r f) = b (ix1 f) := by
  rw [val_main_v61_apply, val_main_v60_apply]
  exact congrArg b (eq_ix1 _)

theorem conv_zero_read (r : Fin 100000) (f : Fin 64) : val_main_v57 (F := Ideal) (ix2 r f) = 0 := by
  rw [val_main_v57_apply, val_main_cst_10_apply]
  exact Ideal.ofBits_zero_f32

theorem conv_tgt_read (x1 : (⟨S2x1600000, .i32⟩ : BufTy).Contents (Elt Ideal)) (k : Fin 1700000) :
    val_main_v58 (F := Ideal) x1 (ix2 k (0 : Fin 1)) = colRaw x1 k := by
  rw [val_main_v58_apply, ← r_colRaw x1 k]
  exact congrArg (val_main_v20 (F := Ideal) x1) (eq_ix1 _)

theorem conv_nrm_read (x1 : (⟨S2x1600000, .i32⟩ : BufTy).Contents (Elt Ideal)) (k : Fin 1700000) (f : Fin 64) :
    val_main_v55 (F := Ideal) x1 (ix2 k f) = dinv x1 (P x1 k) * dinv x1 (Q x1 k) := by
  rw [val_main_v55_apply, val_main_v54_apply, ← r_norm x1 k]
  exact congrArg (val_main_v45 (F := Ideal) x1) (eq_ix1 _)

theorem proj_read (y p : (⟨S100000x64, .f32⟩ : BufTy).Contents (Elt Ideal)) (W : (⟨S64x64, .f32⟩ : BufTy).Contents (Elt Ideal))
    (inp : Fin 100000 → Fin 64 → EReal) (hpd : ∀ i, p i = ∑ k : Fin 64, y (lidx_main_v46 i k) * W (ridx_main_v46 i k))
    (hy : ∀ (r : Fin 100000) (j : Fin 64), y (ix2 r j) = inp r j) (r : Fin 100000) (f : Fin 64) :
    p (ix2 r f) = dotr inp (Cert.Arr.wt W) r f := by
  rw [hpd]
  unfold dotr Cert.Arr.wt
  refine Finset.sum_congr rfl fun j _ => ?_
  have el : lidx_main_v46 (ix2 r f) j = ix2 r j := eq_ix2 _
  have er : ridx_main_v46 (ix2 r f) j = ix2 j f := eq_ix2 _
  rw [el, er, hy]

theorem conv_relu_read (y : (⟨S100000x64, .f32⟩ : BufTy).Contents (Elt Ideal)) (c : Fin 100000 → Fin 64 → EReal)
    (hy : ∀ (r : Fin 100000) (j : Fin 64), y (ix2 r j) = c r j) (r : Fin 100000) (j : Fin 64) :
    maximumf (F := Ideal) (φ := .f32) y (val_main_call1_v0 (F := Ideal)) (ix2 r j) = max (c r j) 0 := by
  show max (y (ix2 r j)) (val_main_call1_v0 (F := Ideal) (ix2 r j)) = _
  rw [val_main_call1_v0_apply, val_main_call1_cst_apply, hy]
  exact congrArg (max (c r j)) Ideal.ofBits_zero_f32

section Stages

variable (a : Cert.Arr.Args)

theorem r_c1 (v : Fin 100000) (f : Fin 64) :
    val_main_v62 (F := Ideal) a.x a.ei a.ea a.Wn a.bn a.We a.be a.W1 a.b1 (ix2 v f) = Cert.Arr.c1 a v f :=
  conv_layer_read a _ _ _ _ _ _ _ _ _ (proj_read _ _ _ _ (val_main_v46_apply _ _ _ _ _ _ _ _) (r_feat _ _ _ _ _ _ _))
    (r_src36 _) (conv_nrm_read _) conv_zero_read (conv_tgt_read _) (conv_bias_read _) v f

theorem r_c2 (v : Fin 100000) (f : Fin 64) :
    val_main_v80 (F := Ideal) a.x a.ei a.ea a.Wn a.bn a.We a.be a.W1 a.b1 a.W2 a.b2 (ix2 v f) = Cert.Arr.c2 a v f :=
  conv_layer_read a _ _ _ _ _ _ _ _ _ (proj_read _ _ _ _ (val_main_v64_apply _ _ _ _ _ _ _ _ _ _) (conv_relu_read _ _ (r_c1 a)))
    (r_src36 _) (conv_nrm_read _) conv_zero_read (conv_tgt_read _) (conv_bias_read _) v f

theorem r_c3 (v : Fin 100000) (f : Fin 64) :
    val_main_v98 (F := Ideal) a.x a.ei a.ea a.Wn a.bn a.We a.be a.W1 a.b1 a.W2 a.b2 a.W3 a.b3 (ix2 v f) = Cert.Arr.c3 a v f :=
  conv_layer_read a _ _ _ _ _ _ _ _ _ (proj_read _ _ _ _ (val_main_v82_apply _ _ _ _ _ _ _ _ _ _ _ _) (conv_relu_read _ _ (r_c2 a)))
    (r_src36 _) (conv_nrm_read _) conv_zero_read (conv_tgt_read _) (conv_bias_read _) v f

end Stages

theorem pool_zero_read (g : Fin 512) (f : Fin 64) : val_main_v99 (F := Ideal) (ix2 g f) = 0 := by
  rw [val_main_v99_apply, val_main_cst_17_apply]
  exact Ideal.ofBits_zero_f32

theorem pool_sid_read (x3 : (⟨S100000, .i32⟩ : BufTy).Contents (Elt Ideal)) (i : Fin 100000) : val_main_v100 (F := Ideal) x3 (ix2 i (0 : Fin 1)) = x3 (ix1 i) := by
  rw [val_main_v100_apply]
  exact congrArg x3 (eq_ix1 _)

theorem pool_den_read (a : Cert.Arr.Args) (g : Fin 512) (f : Fin 64) :
    val_main_v109 (F := Ideal) a.bt (ix2 g f) = max (Cert.Arr.rcR a g) 1 := by
  rw [val_main_v109_apply, val_main_v108_apply, val_main_v107_apply, val_main_v106_apply, val_main_cst_20_apply]
  have e : idx_main_v108 (idx_main_v109 (ix2 g f)) = ix1 g := eq_ix1 _
  rw [e, Ideal.maximumf_def, Ideal.ofBits_def, Ideal.ofBits_one_f32]
  refine congrArg (fun s : EReal => max s 1) ?_
  show Ideal.hostScatterAdd scatter_S512_S100000x1_S100000_n_0_0_1 (val_main_v103 (F := Ideal)) (val_main_v104 (F := Ideal) a.bt)
    (val_main_v102 (F := Ideal)) (ix1 g) = _
  rw [Cert.LibIndexed.scatterAdd_vec_apply _ rfl rfl rfl rfl, val_main_v103_apply, val_main_cst_19_apply, Ideal.ofBits_def,
    Ideal.ofBits_zero_f32]
  unfold Cert.Arr.rcR
  refine congrArg (fun s : EReal => 0 + s) (Finset.sum_congr rfl fun i _ => ?_)
  rw [show val_main_v104 (F := Ideal) a.bt (ix2 i (0 : Fin 1)) = _ from pool_sid_read a.bt i, val_main_v102_apply,
    val_main_cst_18_apply, Ideal.ofBits_def, Ideal.ofBits_one_f32]
  exact if_congr Iff.rfl rfl rfl

section Pool

variable (a : Cert.Arr.Args)

theorem r_g (g : Fin 512) (f : Fin 64) :
    val_main_v110 (F := Ideal) a.x a.ei a.ea a.bt a.Wn a.bn a.We a.be a.W1 a.b1 a.W2 a.b2 a.W3 a.b3 (ix2 g f) = Cert.Arr.gR a g f :=
  pool_read a _ _ _ _ (r_c3 a) pool_zero_read (pool_sid_read _) (pool_den_read a) g f

theorem cls_hid_read (g : Fin 512) (q : Fin 32) :
    val_main_v115 (F := Ideal) a.x a.ei a.ea a.bt a.Wn a.bn a.We a.be a.W1 a.b1 a.W2 a.b2 a.W3 a.b3 a.Wc1 a.bc1 (ix2 g q)
      = max ((∑ k : Fin 64, Cert.Arr.gR a g k * a.Wc1 (ix2 k q)) + a.bc1 (ix1 q)) 0 := by
  rw [val_main_v115_apply, val_main_v114_apply, val_main_v111_apply, val_main_v113_apply, val_main_v112_apply,
    val_main_call3_v0_apply, val_main_call3_cst_apply]
  have e3 : idx_main_v112 (idx_main_v113 (ix2 g q)) = ix1 q := eq_ix1 _
  rw [e3, Ideal.maximumf_def, Ideal.addf_def, Ideal.ofBits_def, Ideal.ofBits_zero_f32]
  refine congrArg (fun s : EReal => max (s + a.bc1 (ix1 q)) 0) (Finset.sum_congr rfl fun k _ => ?_)
  have e1 : lidx_main_v111 (ix2 g q) k = ix2 g k := eq_ix2 _
  have e2 : ridx_main_v111 (ix2 g q) k = ix2 k q := eq_ix2 _
  rw [e1, e2, r_g a]

theorem out_read (g : Fin 512) :
    val_main_v120 (F := Ideal) a.x a.ei a.ea a.bt a.Wn a.bn a.We a.be a.W1 a.b1 a.W2 a.b2 a.W3 a.b3 a.Wc1 a.bc1 a.Wc2 a.bc2 (ix1 g)
      = Cert.Arr.outR a g := by
  rw [val_main_v120_apply, val_main_v119_apply, val_main_v116_apply, val_main_v118_apply, val_main_v117_apply]
  have e0 : idx_main_v120 (ix1 g) = ix2 g (0 : Fin 1) :=
    funext fun a => Fin.ext (by match a with | ⟨0, _⟩ => exact Nat.div_one _ | ⟨1, _⟩ => rfl)
  rw [e0]
  have e3 : idx_main_v117 (idx_main_v118 (ix2 g (0 : Fin 1))) = ix1 (0 : Fin 1) := eq_ix1 _
  rw [e3, Ideal.addf_def]
  unfold Cert.Arr.outR Cert.Arr.cls
  refine congrArg (fun s : EReal => s + a.bc2 (ix1 (0 : Fin 1))) (Finset.sum_congr rfl fun q _ => ?_)
  have e1 : lidx_main_v116 (ix2 g (0 : Fin 1)) q = ix2 g q := eq_ix2 _
  have e2 : ridx_main_v116 (ix2 g (0 : Fin 1)) q = ix2 q (0 : Fin 1) := eq_ix2 _
  rw [e1, e2, cls_hid_read a]

end Pool

theorem ref_value (x0 : (⟨S100000x128, .f32⟩ : BufTy).Contents (Elt Ideal)) (x1 : (⟨S2x1600000, .i32⟩ : BufTy).Contents (Elt Ideal)) (x2 : (⟨S1600000x32, .f32⟩ : BufTy).Contents (Elt Ideal)) (x3 : (⟨S100000, .i32⟩ : BufTy).Contents (Elt Ideal)) (x4 : (⟨S128x64, .f32⟩ : BufTy).Contents (Elt Ideal)) (x5 : (⟨S64, .f32⟩ : BufTy).Contents (Elt Ideal)) (x6 : (⟨S32x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S64x32, .f32⟩ : BufTy).Contents (Elt Ideal)) (x15 : (⟨S32, .f32⟩ : BufTy).Contents (Elt Ideal)) (x16 : (⟨S32x1, .f32⟩ : BufTy).Contents (Elt Ideal)) (x17 : (⟨S1, .f32⟩ : BufTy).Contents (Elt Ideal)) (g : Fin 512) :
    val_main_v120 (F := Ideal) x0 x1 x2 x3 x4 x5 x6 x7 x8 x9 x10 x11 x12 x13 x14 x15 x16 x17 (ix1 g) = Cert.Arr.outR (rargs x0 x1 x2 x3 x4 x5 x6 x7 x8 x9 x10 x11 x12 x13 x14 x15 x16 x17) g :=
  out_read (rargs x0 x1 x2 x3 x4 x5 x6 x7 x8 x9 x10 x11 x12 x13 x14 x15 x16 x17) g

end Cert.ReferenceIdeal.RefValue

end
-- ==== Proof.Fin13.lean ====
import proofs.«416092_j83932250898780_3_alg».proof.Pre_finite_inputs
import Idealize.ShloMosaic.PureOps.Ideal
import Idealize.ShloMosaic.Lib.ReduceAll
import Idealize.ShloMosaic.Lib.ValueIdx
import Idealize.ShloMosaic.Lib.ValueIdxRank1

noncomputable section

namespace Cert.Fin13

open Idealize.ShloMosaic Cert.Pre_finite_inputs

instance : Subsingleton S_.Idx := ⟨fun a b => funext fun d => d.elim0⟩

theorem abs_lt_top_real (x : EReal) (hx : Ideal.cmp .olt (max x (-x)) (Ideal.ofBits .f32 0x7F800000#32) = 1#1) :
    ∃ r : ℝ, x = (r : EReal) := by
  have ht : Ideal.ofBits .f32 0x7F800000#32 = ⊤ := by simp [Ideal.ofBits, Ideal.ieee]
  rw [ht] at hx
  induction x using EReal.rec with
  | bot => simp [Ideal.cmp] at hx
  | coe r => exact ⟨r, rfl⟩
  | top => simp [Ideal.cmp] at hx

theorem b3_finite [Facts] (x0 : FVec Ideal S100000x128 .f32) (x1 : IVec S2x1600000 32)
    (x2 : FVec Ideal S1600000x32 .f32) (x3 : IVec S100000 32)
    (x4 : FVec Ideal S128x64 .f32) (x5 : FVec Ideal S64 .f32)
    (x6 : FVec Ideal S32x64 .f32) (x7 : FVec Ideal S64 .f32)
    (x8 : FVec Ideal S64x64 .f32) (x9 : FVec Ideal S64 .f32)
    (x10 : FVec Ideal S64x64 .f32) (x11 : FVec Ideal S64 .f32)
    (x12 : FVec Ideal S64x64 .f32) (x13 : FVec Ideal S64 .f32)
    (x14 : FVec Ideal S64x32 .f32) (x15 : FVec Ideal S32 .f32)
    (x16 : FVec Ideal S32x1 .f32) (x17 : FVec Ideal S1 .f32)
    (h : fn (F := Ideal) x0 x1 x2 x3 x4 x5 x6 x7 x8 x9 x10 x11 x12 x13 x14 x15 x16 x17 = (fun _ => 1#1)) :
    ∀ f : Fin 64, ∃ x : ℝ, x13 (ValueIdx.ix1 f) = (x : EReal) := by
  intro f
  have e := congrFun h ValueIdx.ix0
  dsimp only [fn, fn_part1, fn_part2, fn_part3, fn_part4] at e
  have e1 := (IntOp.andi_eq_one.1 e).1
  have e2 := (IntOp.andi_eq_one.1 e1).1
  have e3 := (IntOp.andi_eq_one.1 e2).1
  have e4 := (IntOp.andi_eq_one.1 e3).1
  have e5 := (IntOp.andi_eq_one.1 e4).2
  have e6 := Host.reduce_andi_all _ _ _ _ _ e5 (ValueIdx.ix1 f)
  exact abs_lt_top_real _ e6

end Cert.Fin13

end
-- ==== Proof.lean ====
import proofs.«416092_j83932250898780_3_alg».proof.Defs
import proofs.«416092_j83932250898780_3_alg».proof.Proof.Gen.Kernel
import proofs.«416092_j83932250898780_3_alg».proof.Proof.Gen.KernelIdeal
import proofs.«416092_j83932250898780_3_alg».proof.Proof.Gen.ReferenceIdeal
import proofs.«416092_j83932250898780_3_alg».proof.Proof.Gen.Pre_finite_inputs
import proofs.«416092_j83932250898780_3_alg».proof.Proof.KB.Run
import proofs.«416092_j83932250898780_3_alg».proof.Proof.KI.Run
import proofs.«416092_j83932250898780_3_alg».proof.Proof.KI.KVal
import proofs.«416092_j83932250898780_3_alg».proof.Proof.RefVal
import proofs.«416092_j83932250898780_3_alg».proof.Proof.Fin13
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => Cert.KernelIdeal.Hand.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueP.run (F := Ideal) m ρ)

theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Hand.W17 m c Cert.KernelIdeal.main_v84, Cert.KernelIdeal.Hand.run_result (F := Ideal) m ρ, ?_⟩
  refine (θ_run Cert.ReferenceIdeal.defs _ _).mono (fun _ h c => ⟨(h c).1.trans ?_, (h c).2⟩)
    (Cert.ReferenceIdeal.ValueP.run (F := Ideal) m' ρ')

  have hb3 := @Cert.Fin13.b3_finite Cert.Pre_finite_inputs.Gen.facts _ _ _ _ _ _ _ _ _ _ _ _ _ _ _ _ _ _ (hpre c)
  funext i
  obtain ⟨g, rfl⟩ : ∃ g : Fin 512, i = ix1 g := ⟨i 0, eq_ix1 i⟩
  rw [Cert.ReferenceIdeal.ReadP.val_main_v120_eq]
  obtain ⟨h0, h1, h2, h3, h4, h5, h6, h7, h8, h9, h10, h11, h12, h13, h14, h15, h16, h17⟩ := hagree c
  rw [h0, h1, h2, h3, h4, h5, h6, h7, h8, h9, h10, h11, h12, h13, h14, h15, h16, h17]
  refine (Cert.ReferenceIdeal.RefValue.ref_value _ _ _ _ _ _ _ _ _ _ _ _ _ _ _ _ _ _ g).trans ?_
  refine Eq.trans ?_ (Cert.KernelIdeal.HandVal.kernel_value m c g).symm
  exact (Cert.Arr.outK_eq_outR (Cert.KernelIdeal.HandVal.kargs m c) hb3 g).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
